-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v110)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v110) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v504) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x2 : Shape := ⟨2, ![800000, 2]⟩
abbrev S25x64x16 : Shape := ⟨3, ![25, 64, 16]⟩
abbrev S64x16 : Shape := ⟨2, ![64, 16]⟩
abbrev S16 : Shape := ⟨1, ![16]⟩
abbrev S25x16x7 : Shape := ⟨3, ![25, 16, 7]⟩
abbrev S16x7 : Shape := ⟨2, ![16, 7]⟩
abbrev S7 : Shape := ⟨1, ![7]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x2 : S_.BroadcastsInDim S800000x2 (![] : Fin 0 → Fin S800000x2.rank)
  reducesTo_S800000x2_S_d0_1 : S800000x2.ReducesTo [0, 1] S_
  bcast_S_S25x64x16 : S_.BroadcastsInDim S25x64x16 (![] : Fin 0 → Fin S25x64x16.rank)
  reducesTo_S25x64x16_S_d0_1_2 : S25x64x16.ReducesTo [0, 1, 2] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S25x16x7 : S_.BroadcastsInDim S25x16x7 (![] : Fin 0 → Fin S25x16x7.rank)
  reducesTo_S25x16x7_S_d0_1_2 : S25x16x7.ReducesTo [0, 1, 2] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_arg8 : FVec F S7 .f32) (main_v33 : IVec S_ 1) : IVec S_ 1 :=
  let main_v34 : FVec F S7 .f32 := Host.absf main_arg8
  let main_cst_12 : FVec F S_ .f32 := constant S_ .f32 0x7F800000#32
  let main_v35 : FVec F S7 .f32 := broadcastInDim S7 ![] bcast_S_S7 main_cst_12
  let main_v36 : IVec S7 1 := cmpf .olt main_v34 main_v35
  let main_c_13 : IVec S_ 1 := constantI S_ 1 1#1
  let main_v37 : IVec S_ 1 := (fun x v => Host.reduce IntOp.andi x v reducesTo_S7_S_d0 h_S_) main_v36 main_c_13
  let main_v38 : IVec S_ 1 := andi main_v33 main_v37
  let main_v39 : IVec S1x800000 32 := (extractStridedSlice S1x800000 ![0, 0] · slices_S2x800000_S1x800000_0_0) main_arg1
  let main_v40 : IVec S800000 32 := shapeCast S800000 main_v39 shapeCasts_S1x800000_S800000
  let main_c_14 : IVec S_ 32 := constantI S_ 32 0#32
  let main_v41 : IVec S800000 32 := broadcastInDim S800000 ![] bcast_S_S800000 main_c_14
  let main_v42 : IVec S800000 1 := cmpi .sge main_v40 main_v41
  let main_c_15 : IVec S_ 1 := constantI S_ 1 1#1
  let main_v43 : IVec S_ 1 := (fun x v => Host.reduce IntOp.andi x v reducesTo_S800000_S_d0 h_S_) main_v42 main_c_15
  let main_v44 : IVec S_ 1 := andi main_v38 main_v43
  main_v44

def fn_part1 {F : FTy → Type} [FloatOps F] (main_arg1 : IVec S2x800000 32) (main_arg5 : FVec F S16 .f32) (main_arg6 : FVec F S25x16x7 .f32) (main_arg7 : FVec F S16x7 .f32) (main_arg8 : FVec F S7 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S25x16x7 .f32 := Host.absf main_arg6
  let main_cst_8 : FVec F S_ .f32 := constant S_ .f32 0x7F800000#32
  let main_v25 : FVec F S25x16x7 .f32 := broadcastInDim S25x16x7 ![] bcast_S_S25x16x7 main_cst_8
  let main_v26 : IVec S25x16x7 1 := cmpf .olt main_v24 main_v25
  let main_c_9 : IVec S_ 1 := constantI S_ 1 1#1
  let main_v27 : IVec S_ 1 := (fun x v => Host.reduce IntOp.andi x v reducesTo_S25x16x7_S_d0_1_2 h_S_) main_v26 main_c_9
  let main_v28 : IVec S_ 1 := andi main_v23 main_v27
  let main_v29 : FVec F S16x7 .f32 := Host.absf main_arg7
  let main_cst_10 : FVec F S_ .f32 := constant S_ .f32 0x7F800000#32
  let main_v30 : FVec F S16x7 .f32 := broadcastInDim S16x7 ![] bcast_S_S16x7 main_cst_10
  let main_v31 : IVec S16x7 1 := cmpf .olt main_v29 main_v30
  let main_c_11 : IVec S_ 1 := constantI S_ 1 1#1
  let main_v32 : IVec S_ 1 := (fun x v => Host.reduce IntOp.andi x v reducesTo_S16x7_S_d0_1 h_S_) main_v31 main_c_11
  let main_v33 : IVec S_ 1 := andi main_v28 main_v32
  fn_part2 (F := F) main_arg1 main_arg8 main_v33

def fn {F : FTy → Type} [FloatOps F] (main_arg0 : FVec F S50000x64 .f32) (main_arg1 : IVec S2x800000 32) (main_arg2 : FVec F S800000x2 .f32) (main_arg3 : FVec F S25x64x16 .f32) (main_arg4 : FVec F S64x16 .f32) (main_arg5 : FVec F S16 .f32) (main_arg6 : FVec F S25x16x7 .f32) (main_arg7 : FVec F S16x7 .f32) (main_arg8 : FVec F S7 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x2 .f32 := Host.absf main_arg2
  let main_cst_0 : FVec F S_ .f32 := constant S_ .f32 0x7F800000#32
  let main_v5 : FVec F S800000x2 .f32 := broadcastInDim S800000x2 ![] bcast_S_S800000x2 main_cst_0
  let main_v6 : IVec S800000x2 1 := cmpf .olt main_v4 main_v5
  let main_c_1 : IVec S_ 1 := constantI S_ 1 1#1
  let main_v7 : IVec S_ 1 := (fun x v => Host.reduce IntOp.andi x v reducesTo_S800000x2_S_d0_1 h_S_) main_v6 main_c_1
  let main_v8 : IVec S_ 1 := andi main_v3 main_v7
  let main_v9 : FVec F S25x64x16 .f32 := Host.absf main_arg3
  let main_cst_2 : FVec F S_ .f32 := constant S_ .f32 0x7F800000#32
  let main_v10 : FVec F S25x64x16 .f32 := broadcastInDim S25x64x16 ![] bcast_S_S25x64x16 main_cst_2
  let main_v11 : IVec S25x64x16 1 := cmpf .olt main_v9 main_v10
  let main_c_3 : IVec S_ 1 := constantI S_ 1 1#1
  let main_v12 : IVec S_ 1 := (fun x v => Host.reduce IntOp.andi x v reducesTo_S25x64x16_S_d0_1_2 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg1 main_arg5 main_arg6 main_arg7 main_arg8 main_v13 main_v16
-- ==== Kernel.lean ====
abbrev S50000x64 : Shape := ⟨2, ![50000, 64]⟩
abbrev S2x800000 : Shape := ⟨2, ![2, 800000]⟩
abbrev S800000x2 : Shape := ⟨2, ![800000, 2]⟩
abbrev S25x64x16 : Shape := ⟨3, ![25, 64, 16]⟩
abbrev S64x16 : Shape := ⟨2, ![64, 16]⟩
abbrev S16 : Shape := ⟨1, ![16]⟩
abbrev S25x16x7 : Shape := ⟨3, ![25, 16, 7]⟩
abbrev S16x7 : Shape := ⟨2, ![16, 7]⟩
abbrev S7 : Shape := ⟨1, ![7]⟩
abbrev S4 : Shape := ⟨1, ![4]⟩
abbrev S1x800000 : Shape := ⟨2, ![1, 800000]⟩
abbrev S800000 : Shape := ⟨1, ![800000]⟩
abbrev S_ : Shape := ⟨0, ![]⟩
abbrev S800000x2x1 : Shape := ⟨3, ![800000, 2, 1]⟩
abbrev S800000x2x2 : Shape := ⟨3, ![800000, 2, 2]⟩
abbrev S2 : Shape := ⟨1, ![2]⟩
abbrev S1x1x2 : Shape := ⟨3, ![1, 1, 2]⟩
abbrev S4x1 : Shape := ⟨2, ![4, 1]⟩
abbrev S4x2 : Shape := ⟨2, ![4, 2]⟩
abbrev S800000x4 : Shape := ⟨2, ![800000, 4]⟩
abbrev S800000x1 : Shape := ⟨2, ![800000, 1]⟩
abbrev S800000x64 : Shape := ⟨2, ![800000, 64]⟩
abbrev S800000x16 : Shape := ⟨2, ![800000, 16]⟩
abbrev S4000x64 : Shape := ⟨2, ![4000, 64]⟩
abbrev S4000x4 : Shape := ⟨2, ![4000, 4]⟩
abbrev S4000x16 : Shape := ⟨2, ![4000, 16]⟩
abbrev S4000 : Shape := ⟨1, ![4000]⟩
abbrev S4000x1 : Shape := ⟨2, ![4000, 1]⟩
abbrev S1x64x16 : Shape := ⟨3, ![1, 64, 16]⟩
abbrev S50000x16 : Shape := ⟨2, ![50000, 16]⟩
abbrev S50000 : Shape := ⟨1, ![50000]⟩
abbrev S50000x1 : Shape := ⟨2, ![50000, 1]⟩
abbrev S1x16 : Shape := ⟨2, ![1, 16]⟩
abbrev S800000x7 : Shape := ⟨2, ![800000, 7]⟩
abbrev S4000x7 : Shape := ⟨2, ![4000, 7]⟩
abbrev S1x16x7 : Shape := ⟨3, ![1, 16, 7]⟩
abbrev S50000x7 : Shape := ⟨2, ![50000, 7]⟩
abbrev S1x7 : Shape := ⟨2, ![1, 7]⟩

abbrev nBuf : Space → Nat
  | .hbm => 174
  | .vmem => 18
  | .smem => 0
  | _ => 0

abbrev hbmTy0_0 (i : Nat) : BufTy := match i % 128 with
  | 0 => ⟨S50000x64, .f32⟩
  | 1 => ⟨S2x800000, .i32⟩
  | 2 => ⟨S800000x2, .f32⟩
  | 3 => ⟨S25x64x16, .f32⟩
  | 4 => ⟨S64x16, .f32⟩
  | 5 => ⟨S16, .f32⟩
  | 6 => ⟨S25x16x7, .f32⟩
  | 7 => ⟨S16x7, .f32⟩
  | 8 => ⟨S7, .f32⟩
  | 9 => ⟨S4, .i32⟩
  | 10 => ⟨S4, .i32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000x2, .f32⟩
  | 17 => ⟨S800000x2, .f32⟩
  | 18 => ⟨S800000x2, .f32⟩
  | 19 => ⟨S800000x2, .f32⟩
  | 20 => ⟨S800000x2, .i32⟩
  | 21 => ⟨S_, .f32⟩
  | 22 => ⟨S800000x2, .f32⟩
  | 23 => ⟨S800000x2, .f32⟩
  | 24 => ⟨S800000x2x1, .f32⟩
  | 25 => ⟨S800000x2x1, .f32⟩
  | 26 => ⟨S800000x2x2, .f32⟩
  | 27 => ⟨S800000x2x1, .i32⟩
  | 28 => ⟨S2, .i32⟩
  | 29 => ⟨S1x1x2, .i32⟩
  | 30 => ⟨S800000x2x2, .i32⟩
  | 31 => ⟨S800000x2x2, .i32⟩
  | 32 => ⟨S800000x2x2, .i32⟩
  | 33 => ⟨S_, .i32⟩
  | 34 => ⟨S_, .i32⟩
  | 35 => ⟨S_, .i32⟩
  | 36 => ⟨S800000x2x2, .i32⟩
  | 37 => ⟨S800000x2x2, .i32⟩
  | 38 => ⟨S_, .i32⟩
  | 39 => ⟨S800000x2x2, .i32⟩
  | 40 => ⟨S800000x2x2, .i32⟩
  | 41 => ⟨S_, .i32⟩
  | 42 => ⟨S4, .i32⟩
  | 43 => ⟨S4, .i1⟩
  | 44 => ⟨S_, .i32⟩
  | 45 => ⟨S4, .i32⟩
  | 46 => ⟨S4, .i32⟩
  | 47 => ⟨S4, .i32⟩
  | 48 => ⟨S_, .i32⟩
  | 49 => ⟨S4, .i32⟩
  | 50 => ⟨S4, .i32⟩
  | 51 => ⟨S4x1, .i32⟩
  | 52 => ⟨S4x1, .i32⟩
  | 53 => ⟨S4x2, .i32⟩
  | 54 => ⟨S800000x4, .f32⟩
  | 55 => ⟨S_, .i32⟩
  | 56 => ⟨S4, .i32⟩
  | 57 => ⟨S4, .i1⟩
  | 58 => ⟨S_, .i32⟩
  | 59 => ⟨S4, .i32⟩
  | 60 => ⟨S4, .i32⟩
  | 61 => ⟨S4, .i32⟩
  | 62 => ⟨S_, .i32⟩
  | 63 => ⟨S4, .i32⟩
  | 64 => ⟨S4, .i32⟩
  | 65 => ⟨S4x1, .i32⟩
  | 66 => ⟨S4x1, .i32⟩
  | 67 => ⟨S4x2, .i32⟩
  | 68 => ⟨S800000x4, .f32⟩
  | 69 => ⟨S800000x4, .f32⟩
  | 70 => ⟨S_, .i32⟩
  | 71 => ⟨S4, .i32⟩
  | 72 => ⟨S4, .i1⟩
  | 73 => ⟨S_, .i32⟩
  | 74 => ⟨S4, .i32⟩
  | 75 => ⟨S4, .i32⟩
  | 76 => ⟨S4, .i32⟩
  | 77 => ⟨S_, .i32⟩
  | 78 => ⟨S4, .i32⟩
  | 79 => ⟨S4, .i32⟩
  | 80 => ⟨S4x1, .i32⟩
  | 81 => ⟨S4x1, .i32⟩
  | 82 => ⟨S4x2, .i32⟩
  | 83 => ⟨S800000x4, .i32⟩
  | 84 => ⟨S_, .i32⟩
  | 85 => ⟨S800000x4, .i32⟩
  | 86 => ⟨S800000x4, .i32⟩
  | 87 => ⟨S_, .i32⟩
  | 88 => ⟨S4, .i32⟩
  | 89 => ⟨S4, .i1⟩
  | 90 => ⟨S_, .i32⟩
  | 91 => ⟨S4, .i32⟩
  | 92 => ⟨S4, .i32⟩
  | 93 => ⟨S4, .i32⟩
  | 94 => ⟨S_, .i32⟩
  | 95 => ⟨S4, .i32⟩
  | 96 => ⟨S4, .i32⟩
  | 97 => ⟨S4x1, .i32⟩
  | 98 => ⟨S4x1, .i32⟩
  | 99 => ⟨S4x2, .i32⟩
  | 100 => ⟨S800000x4, .i32⟩
  | 101 => ⟨S800000x4, .i32⟩
  | 102 => ⟨S800000x1, .i32⟩
  | 103 => ⟨S800000x64, .f32⟩
  | 104 => ⟨S800000x64, .bf16⟩
  | 105 => ⟨S25x64x16, .bf16⟩
  | 106 => ⟨S800000x16, .f32⟩
  | 107 => ⟨S_, .f32⟩
  | 108 => ⟨S50000x16, .f32⟩
  | 109 => ⟨S800000x1, .i32⟩
  | 110 => ⟨S50000x16, .f32⟩
  | 111 => ⟨S_, .f32⟩
  | 112 => ⟨S800000, .f32⟩
  | 113 => ⟨S_, .f32⟩
  | 114 => ⟨S50000, .f32⟩
  | 115 => ⟨S800000x1, .i32⟩
  | 116 => ⟨S50000, .f32⟩
  | 117 => ⟨S_, .f32⟩
  | 118 => ⟨S_, .f32⟩
  | 119 => ⟨S50000, .f32⟩
  | 120 => ⟨S50000, .f32⟩
  | 121 => ⟨S50000x1, .f32⟩
  | 122 => ⟨S50000x16, .f32⟩
  | 123 => ⟨S50000x16, .f32⟩
  | 124 => ⟨S50000x16, .f32⟩
  | 125 => ⟨S50000x16, .f32⟩
  | 126 => ⟨S1x16, .f32⟩
  | 127 => ⟨S50000x16, .f32⟩
  | _ => ⟨S50000x64, .f32⟩

abbrev hbmTy0_1 (i : Nat) : BufTy := match i % 128 with
  | 0 => ⟨S50000x16, .f32⟩
  | 1 => ⟨S_, .f32⟩
  | 2 => ⟨S50000x16, .f32⟩
  | 3 => ⟨S50000x16, .f32⟩
  | 4 => ⟨S800000x1, .i32⟩
  | 5 => ⟨S800000x16, .f32⟩
  | 6 => ⟨S800000x16, .bf16⟩
  | 7 => ⟨S25x16x7, .bf16⟩
  | 8 => ⟨S800000x7, .f32⟩
  | 9 => ⟨S_, .f32⟩
  | 10 => ⟨S50000x7, .f32⟩
  | 11 => ⟨S800000x1, .i32⟩
  | 12 => ⟨S50000x7, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S_, .f32⟩
  | 21 => ⟨S50000, .f32⟩
  | 22 => ⟨S50000, .f32⟩
  | 23 => ⟨S50000x1, .f32⟩
  | 24 => ⟨S50000x7, .f32⟩
  | 25 => ⟨S50000x7, .f32⟩
  | 26 => ⟨S50000x7, .f32⟩
  | 27 => ⟨S50000x7, .f32⟩
  | 28 => ⟨S1x7, .f32⟩
  | 29 => ⟨S50000x7, .f32⟩
  | 30 => ⟨S50000x7, .f32⟩
  | 31 => ⟨S_, .f32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x7, .f32⟩
  | 38 => ⟨S50000x7, .f32⟩
  | 39 => ⟨S50000x7, .f32⟩
  | 40 => ⟨S_, .f32⟩
  | 41 => ⟨S50000, .f32⟩
  | 42 => ⟨S50000x1, .f32⟩
  | 43 => ⟨S50000x1, .f32⟩
  | 44 => ⟨S50000x7, .f32⟩
  | 45 => ⟨S50000x7, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S4000x64, .bf16⟩
  | .local _ .vmem, ⟨1, _⟩ => ⟨S4000x64, .bf16⟩
  | .local _ .vmem, ⟨2, _⟩ => ⟨S4000x4, .f32⟩
  | .local _ .vmem, ⟨3, _⟩ => ⟨S4000x4, .f32⟩
  | .local _ .vmem, ⟨4, _⟩ => ⟨S4000x4, .i32⟩
  | .local _ .vmem, ⟨5, _⟩ => ⟨S4000x4, .i32⟩
  | .local _ .vmem, ⟨6, _⟩ => ⟨S25x64x16, .bf16⟩
  | .local _ .vmem, ⟨7, _⟩ => ⟨S4000x16, .f32⟩
  | .local _ .vmem, ⟨8, _⟩ => ⟨S4000x16, .f32⟩
  | .local _ .vmem, ⟨9, _⟩ => ⟨S4000x16, .bf16⟩
  | .local _ .vmem, ⟨10, _⟩ => ⟨S4000x16, .bf16⟩
  | .local _ .vmem, ⟨11, _⟩ => ⟨S4000x4, .f32⟩
  | .local _ .vmem, ⟨12, _⟩ => ⟨S4000x4, .f32⟩
  | .local _ .vmem, ⟨13, _⟩ => ⟨S4000x4, .i32⟩
  | .local _ .vmem, ⟨14, _⟩ => ⟨S4000x4, .i32⟩
  | .local _ .vmem, ⟨15, _⟩ => ⟨S25x16x7, .bf16⟩
  | .local _ .vmem, ⟨16, _⟩ => ⟨S4000x7, .f32⟩
  | .local _ .vmem, ⟨17, _⟩ => ⟨S4000x7, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_c_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_c_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_13 : Ref sig .tc := ⟨.hbm, 84, rfl⟩
abbrev main_v55 : Ref sig .tc := ⟨.hbm, 85, rfl⟩
abbrev main_v56 : Ref sig .tc := ⟨.hbm, 86, rfl⟩
abbrev main_c_14 : Ref sig .tc := ⟨.hbm, 87, rfl⟩
abbrev main_v57 : Ref sig .tc := ⟨.hbm, 88, rfl⟩
abbrev main_v58 : Ref sig .tc := ⟨.hbm, 89, rfl⟩
abbrev main_c_15 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_16 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_call1_v0 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_17 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_18 : Ref sig .tc := ⟨.hbm, 111, rfl⟩
abbrev main_v76 : Ref sig .tc := ⟨.hbm, 112, rfl⟩
abbrev main_cst_19 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_20 : Ref sig .tc := ⟨.hbm, 117, rfl⟩
abbrev main_call2_v0 : Ref sig .tc := ⟨.hbm, 118, rfl⟩
abbrev main_call2_v1 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_call3_cst : Ref sig .tc := ⟨.hbm, 129, rfl⟩
abbrev main_call3_v0 : Ref sig .tc := ⟨.hbm, 130, rfl⟩
abbrev main_v89 : Ref sig .tc := ⟨.hbm, 131, rfl⟩
abbrev main_call4_v0 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_21 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_22 : Ref sig .tc := ⟨.hbm, 141, rfl⟩
abbrev main_v97 : Ref sig .tc := ⟨.hbm, 142, rfl⟩
abbrev main_cst_23 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_24 : Ref sig .tc := ⟨.hbm, 147, rfl⟩
abbrev main_call5_v0 : Ref sig .tc := ⟨.hbm, 148, rfl⟩
abbrev main_call5_v1 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_call6_cst : Ref sig .tc := ⟨.hbm, 159, rfl⟩
abbrev main_call6_v0 : Ref sig .tc := ⟨.hbm, 160, rfl⟩
abbrev main_call6_cst_0 : Ref sig .tc := ⟨.hbm, 161, rfl⟩
abbrev main_call6_v1 : Ref sig .tc := ⟨.hbm, 162, rfl⟩
abbrev main_call6_v2 : Ref sig .tc := ⟨.hbm, 163, rfl⟩
abbrev main_call6_v3 : Ref sig .tc := ⟨.hbm, 164, rfl⟩
abbrev main_call6_v4 : Ref sig .tc := ⟨.hbm, 165, rfl⟩
abbrev main_call6_v5 : Ref sig .tc := ⟨.hbm, 166, rfl⟩
abbrev main_call6_v6 : Ref sig .tc := ⟨.hbm, 167, rfl⟩
abbrev main_call6_cst_1 : Ref sig .tc := ⟨.hbm, 168, rfl⟩
abbrev main_call6_v7 : Ref sig .tc := ⟨.hbm, 169, rfl⟩
abbrev main_call6_v8 : Ref sig .tc := ⟨.hbm, 170, rfl⟩
abbrev main_call6_v9 : Ref sig .tc := ⟨.hbm, 171, rfl⟩
abbrev main_call6_v10 : Ref sig .tc := ⟨.hbm, 172, rfl⟩
abbrev main_v110 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S25x64x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x4 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S25x16x7 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x7 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x2 : S_.BroadcastsInDim S800000x2 (![] : Fin 0 → Fin S800000x2.rank)
  bcast_S800000x2_S800000x2x1_0_1 : S800000x2.BroadcastsInDim S800000x2x1 (![0, 1] : Fin 2 → Fin S800000x2x1.rank)
  concatenates_S800000x2x1_S800000x2x1_S800000x2x2_d2 : Shape.Concatenates [S800000x2x1, S800000x2x1] S800000x2x2 2
  bcast_S2_S1x1x2_2 : S2.BroadcastsInDim S1x1x2 (![2] : Fin 1 → Fin S1x1x2.rank)
  bcast_S800000x2x1_S800000x2x2_0_1_2 : S800000x2x1.BroadcastsInDim S800000x2x2 (![0, 1, 2] : Fin 3 → Fin S800000x2x2.rank)
  bcast_S1x1x2_S800000x2x2_0_1_2 : S1x1x2.BroadcastsInDim S800000x2x2 (![0, 1, 2] : Fin 3 → Fin S800000x2x2.rank)
  bcast_S_S800000x2x2 : S_.BroadcastsInDim S800000x2x2 (![] : Fin 0 → Fin S800000x2x2.rank)
  bcast_S_S4 : S_.BroadcastsInDim S4 (![] : Fin 0 → Fin S4.rank)
  bcast_S4_S4x1_0 : S4.BroadcastsInDim S4x1 (![0] : Fin 1 → Fin S4x1.rank)
  concatenates_S4x1_S4x1_S4x2_d1 : Shape.Concatenates [S4x1, S4x1] S4x2 1
  bcast_S_S800000x4 : S_.BroadcastsInDim S800000x4 (![] : Fin 0 → Fin S800000x4.rank)
  bcast_S800000_S800000x1_0 : S800000.BroadcastsInDim S800000x1 (![0] : Fin 1 → Fin S800000x1.rank)
  bitsLt_bf16_f32 : FTy.bits .bf16 < FTy.bits .f32
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  inb_S25x64x16_S25x64x16_0_0_0 : ∀ a, (![0, 0, 0] : Fin 3 → Nat) a + S25x64x16.size a ≤ S25x64x16.size a
  h_S25x64x16 : 0 < S25x64x16.numel
  shapeCasts_S25x64x16_S25x64x16 : S25x64x16.ShapeCasts S25x64x16
  natLt_1_32 : 1 < 32
  reduces_S4000x4_S4000 : S4000x4.Reduces [1] S4000
  shapeCasts_S4000_S4000x1 : S4000.ShapeCasts S4000x1
  slices_S25x64x16_o0_0_0_S1x64x16 : S25x64x16.Slices ![0, 0, 0] S1x64x16
  shapeCasts_S1x64x16_S64x16 : S1x64x16.ShapeCasts S64x16
  broadcasts_S4000x1_S4000x16 : S4000x1.Broadcasts S4000x16
  slices_S25x64x16_o1_0_0_S1x64x16 : S25x64x16.Slices ![1, 0, 0] S1x64x16
  slices_S25x64x16_o2_0_0_S1x64x16 : S25x64x16.Slices ![2, 0, 0] S1x64x16
  slices_S25x64x16_o3_0_0_S1x64x16 : S25x64x16.Slices ![3, 0, 0] S1x64x16
  slices_S25x64x16_o4_0_0_S1x64x16 : S25x64x16.Slices ![4, 0, 0] S1x64x16
  slices_S25x64x16_o5_0_0_S1x64x16 : S25x64x16.Slices ![5, 0, 0] S1x64x16
  slices_S25x64x16_o6_0_0_S1x64x16 : S25x64x16.Slices ![6, 0, 0] S1x64x16
  slices_S25x64x16_o7_0_0_S1x64x16 : S25x64x16.Slices ![7, 0, 0] S1x64x16
  slices_S25x64x16_o8_0_0_S1x64x16 : S25x64x16.Slices ![8, 0, 0] S1x64x16
  slices_S25x64x16_o9_0_0_S1x64x16 : S25x64x16.Slices ![9, 0, 0] S1x64x16
  slices_S25x64x16_o10_0_0_S1x64x16 : S25x64x16.Slices ![10, 0, 0] S1x64x16
  slices_S25x64x16_o11_0_0_S1x64x16 : S25x64x16.Slices ![11, 0, 0] S1x64x16
  slices_S25x64x16_o12_0_0_S1x64x16 : S25x64x16.Slices ![12, 0, 0] S1x64x16
  slices_S25x64x16_o13_0_0_S1x64x16 : S25x64x16.Slices ![13, 0, 0] S1x64x16
  slices_S25x64x16_o14_0_0_S1x64x16 : S25x64x16.Slices ![14, 0, 0] S1x64x16
  slices_S25x64x16_o15_0_0_S1x64x16 : S25x64x16.Slices ![15, 0, 0] S1x64x16
  slices_S25x64x16_o16_0_0_S1x64x16 : S25x64x16.Slices ![16, 0, 0] S1x64x16
  slices_S25x64x16_o17_0_0_S1x64x16 : S25x64x16.Slices ![17, 0, 0] S1x64x16
  slices_S25x64x16_o18_0_0_S1x64x16 : S25x64x16.Slices ![18, 0, 0] S1x64x16
  slices_S25x64x16_o19_0_0_S1x64x16 : S25x64x16.Slices ![19, 0, 0] S1x64x16
  slices_S25x64x16_o20_0_0_S1x64x16 : S25x64x16.Slices ![20, 0, 0] S1x64x16
  slices_S25x64x16_o21_0_0_S1x64x16 : S25x64x16.Slices ![21, 0, 0] S1x64x16
  slices_S25x64x16_o22_0_0_S1x64x16 : S25x64x16.Slices ![22, 0, 0] S1x64x16
  slices_S25x64x16_o23_0_0_S1x64x16 : S25x64x16.Slices ![23, 0, 0] S1x64x16
  slices_S25x64x16_o24_0_0_S1x64x16 : S25x64x16.Slices ![24, 0, 0] S1x64x16
  inb_S4000x16_S4000x16_0_0 : ∀ a, (![0, 0] : Fin 2 → Nat) a + S4000x16.size a ≤ S4000x16.size a
  h_S4000x16 : 0 < S4000x16.numel
  bcast_S_S50000x16 : S_.BroadcastsInDim S50000x16 (![] : Fin 0 → Fin S50000x16.rank)
  bcast_S_S800000 : S_.BroadcastsInDim S800000 (![] : Fin 0 → Fin S800000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  shapeCasts_S4000x16_S4000x16 : S4000x16.ShapeCasts S4000x16
  inb_S25x16x7_S25x16x7_0_0_0 : ∀ a, (![0, 0, 0] : Fin 3 → Nat) a + S25x16x7.size a ≤ S25x16x7.size a
  h_S25x16x7 : 0 < S25x16x7.numel
  shapeCasts_S25x16x7_S25x16x7 : S25x16x7.ShapeCasts S25x16x7
  slices_S25x16x7_o0_0_0_S1x16x7 : S25x16x7.Slices ![0, 0, 0] S1x16x7
  shapeCasts_S1x16x7_S16x7 : S1x16x7.ShapeCasts S16x7
  broadcasts_S4000x1_S4000x7 : S4000x1.Broadcasts S4000x7
  slices_S25x16x7_o1_0_0_S1x16x7 : S25x16x7.Slices ![1, 0, 0] S1x16x7
  slices_S25x16x7_o2_0_0_S1x16x7 : S25x16x7.Slices ![2, 0, 0] S1x16x7
  slices_S25x16x7_o3_0_0_S1x16x7 : S25x16x7.Slices ![3, 0, 0] S1x16x7
  slices_S25x16x7_o4_0_0_S1x16x7 : S25x16x7.Slices ![4, 0, 0] S1x16x7
  slices_S25x16x7_o5_0_0_S1x16x7 : S25x16x7.Slices ![5, 0, 0] S1x16x7
  slices_S25x16x7_o6_0_0_S1x16x7 : S25x16x7.Slices ![6, 0, 0] S1x16x7
  slices_S25x16x7_o7_0_0_S1x16x7 : S25x16x7.Slices ![7, 0, 0] S1x16x7
  slices_S25x16x7_o8_0_0_S1x16x7 : S25x16x7.Slices ![8, 0, 0] S1x16x7
  slices_S25x16x7_o9_0_0_S1x16x7 : S25x16x7.Slices ![9, 0, 0] S1x16x7
  slices_S25x16x7_o10_0_0_S1x16x7 : S25x16x7.Slices ![10, 0, 0] S1x16x7
  slices_S25x16x7_o11_0_0_S1x16x7 : S25x16x7.Slices ![11, 0, 0] S1x16x7
  slices_S25x16x7_o12_0_0_S1x16x7 : S25x16x7.Slices ![12, 0, 0] S1x16x7
  slices_S25x16x7_o13_0_0_S1x16x7 : S25x16x7.Slices ![13, 0, 0] S1x16x7
  slices_S25x16x7_o14_0_0_S1x16x7 : S25x16x7.Slices ![14, 0, 0] S1x16x7
  slices_S25x16x7_o15_0_0_S1x16x7 : S25x16x7.Slices ![15, 0, 0] S1x16x7
  slices_S25x16x7_o16_0_0_S1x16x7 : S25x16x7.Slices ![16, 0, 0] S1x16x7
  slices_S25x16x7_o17_0_0_S1x16x7 : S25x16x7.Slices ![17, 0, 0] S1x16x7
  slices_S25x16x7_o18_0_0_S1x16x7 : S25x16x7.Slices ![18, 0, 0] S1x16x7
  slices_S25x16x7_o19_0_0_S1x16x7 : S25x16x7.Slices ![19, 0, 0] S1x16x7
  slices_S25x16x7_o20_0_0_S1x16x7 : S25x16x7.Slices ![20, 0, 0] S1x16x7
  slices_S25x16x7_o21_0_0_S1x16x7 : S25x16x7.Slices ![21, 0, 0] S1x16x7
  slices_S25x16x7_o22_0_0_S1x16x7 : S25x16x7.Slices ![22, 0, 0] S1x16x7
  slices_S25x16x7_o23_0_0_S1x16x7 : S25x16x7.Slices ![23, 0, 0] S1x16x7
  slices_S25x16x7_o24_0_0_S1x16x7 : S25x16x7.Slices ![24, 0, 0] S1x16x7
  inb_S4000x7_S4000x7_0_0 : ∀ a, (![0, 0] : Fin 2 → Nat) a + S4000x7.size a ≤ S4000x7.size a
  h_S4000x7 : 0 < S4000x7.numel
  bcast_S_S50000x7 : S_.BroadcastsInDim S50000x7 (![] : Fin 0 → Fin S50000x7.rank)
  bcast_S50000x1_S50000x7_0_1 : S50000x1.BroadcastsInDim S50000x7 (![0, 1] : Fin 2 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  reducesTo_S50000x7_S50000_d1 : S50000x7.ReducesTo [1] S50000
  h_S_ : 0 < S_.numel
  gather_S800000x2x2_S4x2_S800000x4_0_12_n_n_12_1_80000011_wf : GatherDims.WF S800000x2x2 S4x2 S800000x4 [0] [1, 2] [] [1, 2] [] 1 ![800000, 1, 1]
  gather_S50000x64_S800000x1_S800000x64_1_0_n_n_0_1_164_wf : GatherDims.WF S50000x64 S800000x1 S800000x64 [1] [0] [] [0] [] 1 ![1, 64]
  dot_S4000x64_S64x16_S4000x16_1_0_0_1_n_n_wf : DotDims.WF S4000x64 S64x16 S4000x16 [1] [0] [0] [1] [] []
  scatter_S50000x16_S800000x1_S800000x16_1_0_0_1_wf : ScatterDims.WF S50000x16 S800000x1 S800000x16 [1] [0] [0] 1
  scatter_S50000_S800000x1_S800000_n_0_0_1_wf : ScatterDims.WF S50000 S800000x1 S800000 [] [0] [0] 1
  dot_S50000x64_S64x16_S50000x16_1_0_0_1_n_n_wf : DotDims.WF S50000x64 S64x16 S50000x16 [1] [0] [0] [1] [] []
  gather_S50000x16_S800000x1_S800000x16_1_0_n_n_0_1_116_wf : GatherDims.WF S50000x16 S800000x1 S800000x16 [1] [0] [] [0] [] 1 ![1, 16]
  dot_S4000x16_S16x7_S4000x7_1_0_0_1_n_n_wf : DotDims.WF S4000x16 S16x7 S4000x7 [1] [0] [0] [1] [] []
  scatter_S50000x7_S800000x1_S800000x7_1_0_0_1_wf : ScatterDims.WF S50000x7 S800000x1 S800000x7 [1] [0] [0] 1
  dot_S50000x16_S16x7_S50000x7_1_0_0_1_n_n_wf : DotDims.WF S50000x16 S16x7 S50000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .bf16 = 32 ∨ (Rect.block (s := S800000x64) S4000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x4.size a ≤ S800000x4.size a
  hwx0_1 : ∀ i : grid0.Coords, EltTy.bits .f32 = 32 ∨ (Rect.block (s := S800000x4) S4000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x4.size a ≤ S800000x4.size a
  hwx0_2 : ∀ i : grid0.Coords, EltTy.bits .i32 = 32 ∨ (Rect.block (s := S800000x4) S4000x4.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S25x64x16.size a ≤ S25x64x16.size a
  hwx0_3 : ∀ i : grid0.Coords, EltTy.bits .bf16 = 32 ∨ (Rect.block (s := S25x64x16) S25x64x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x16.size a ≤ S800000x16.size a
  hwx0_4 : ∀ i : grid0.Coords, EltTy.bits .f32 = 32 ∨ (Rect.block (s := S800000x16) S4000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S800000x16.size a
  hwx1_0 : ∀ i : grid1.Coords, EltTy.bits .bf16 = 32 ∨ (Rect.block (s := S800000x16) S4000x16.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x4.size a ≤ S800000x4.size a
  hwx1_1 : ∀ i : grid1.Coords, EltTy.bits .f32 = 32 ∨ (Rect.block (s := S800000x4) S4000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x4.size a ≤ S800000x4.size a
  hwx1_2 : ∀ i : grid1.Coords, EltTy.bits .i32 = 32 ∨ (Rect.block (s := S800000x4) S4000x4.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S25x16x7.size a ≤ S25x16x7.size a
  hwx1_3 : ∀ i : grid1.Coords, EltTy.bits .bf16 = 32 ∨ (Rect.block (s := S25x16x7) S25x16x7.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x7.size a ≤ S800000x7.size a
  hwx1_4 : ∀ i : grid1.Coords, EltTy.bits .f32 = 32 ∨ (Rect.block (s := S800000x7) S4000x7.size (cc1_transform_4 i) (hinb1_4 i)).WholeWords (EltTy.packing .f32)

variable [Facts₀]

def gather_S800000x2x2_S4x2_S800000x4_0_12_n_n_12_1_80000011 : GatherDims S800000x2x2 S4x2 S800000x4 where
  offsetDims := [0]
  collapsedSliceDims := [1, 2]
  operandBatchingDims := []
  startIndicesBatchingDims := []
  startIndexMap := [1, 2]
  indexVectorDim := 1
  sliceSizes := ![800000, 1, 1]
  wf := gather_S800000x2x2_S4x2_S800000x4_0_12_n_n_12_1_80000011_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x16_S4000x16_1_0_0_1_n_n : DotDims S4000x64 S64x16 S4000x16 where
  lhsContracting := [1]
  rhsContracting := [0]
  lhsNonContracting := [0]
  rhsNonContracting := [1]
  lhsBatch := []
  rhsBatch := []
  wf := dot_S4000x64_S64x16_S4000x16_1_0_0_1_n_n_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def dot_S4000x16_S16x7_S4000x7_1_0_0_1_n_n : DotDims S4000x16 S16x7 S4000x7 where
  lhsContracting := [1]
  rhsContracting := [0]
  lhsNonContracting := [0]
  rhsNonContracting := [1]
  lhsBatch := []
  rhsBatch := []
  wf := dot_S4000x16_S16x7_S4000x7_1_0_0_1_n_n_wf
def scatter_S50000x7_S800000x1_S800000x7_1_0_0_1 : ScatterDims S50000x7 S800000x1 S800000x7 where
  updateWindowDims := [1]
  insertedWindowDims := [0]
  scatterDimsToOperandDims := [0]
  indexVectorDim := 1
  wf := scatter_S50000x7_S800000x1_S800000x7_1_0_0_1_wf
def dot_S50000x16_S16x7_S50000x7_1_0_0_1_n_n : DotDims S50000x16 S16x7 S50000x7 where
  lhsContracting := [1]
  rhsContracting := [0]
  lhsNonContracting := [0]
  rhsNonContracting := [1]
  lhsBatch := []
  rhsBatch := []
  wf := dot_S50000x16_S16x7_S50000x7_1_0_0_1_n_n_wf

abbrev win0_0 : Pipeline.Window sig grid0 :=
  Pipeline.Window.ofSpec (Memref.whole main_v70) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S4000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v68) S4000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v71) S25x64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v72) S4000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v91) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S4000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v68) S4000x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v92) S25x16x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v93) S4000x7.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x2 : Shape := ⟨2, ![800000, 2]⟩
abbrev S25x64x16 : Shape := ⟨3, ![25, 64, 16]⟩
abbrev S64x16 : Shape := ⟨2, ![64, 16]⟩
abbrev S16 : Shape := ⟨1, ![16]⟩
abbrev S25x16x7 : Shape := ⟨3, ![25, 16, 7]⟩
abbrev S16x7 : Shape := ⟨2, ![16, 7]⟩
abbrev S7 : Shape := ⟨1, ![7]⟩
abbrev S4 : Shape := ⟨1, ![4]⟩
abbrev S1x800000 : Shape := ⟨2, ![1, 800000]⟩
abbrev S800000 : Shape := ⟨1, ![800000]⟩
abbrev S_ : Shape := ⟨0, ![]⟩
abbrev S800000x2x1 : Shape := ⟨3, ![800000, 2, 1]⟩
abbrev S800000x2x2 : Shape := ⟨3, ![800000, 2, 2]⟩
abbrev S2 : Shape := ⟨1, ![2]⟩
abbrev S1x1x2 : Shape := ⟨3, ![1, 1, 2]⟩
abbrev S4x1 : Shape := ⟨2, ![4, 1]⟩
abbrev S4x2 : Shape := ⟨2, ![4, 2]⟩
abbrev S800000x4 : Shape := ⟨2, ![800000, 4]⟩
abbrev S800000x25 : Shape := ⟨2, ![800000, 25]⟩
abbrev S800000x1 : Shape := ⟨2, ![800000, 1]⟩
abbrev S800000x4x1 : Shape := ⟨3, ![800000, 4, 1]⟩
abbrev S800000x4x2 : Shape := ⟨3, ![800000, 4, 2]⟩
abbrev S800000x64 : Shape := ⟨2, ![800000, 64]⟩
abbrev S800000x16 : Shape := ⟨2, ![800000, 16]⟩
abbrev S1x64x16 : Shape := ⟨3, ![1, 64, 16]⟩
abbrev S50000x16 : Shape := ⟨2, ![50000, 16]⟩
abbrev S50000 : Shape := ⟨1, ![50000]⟩
abbrev S50000x1 : Shape := ⟨2, ![50000, 1]⟩
abbrev S1x16 : Shape := ⟨2, ![1, 16]⟩
abbrev S800000x7 : Shape := ⟨2, ![800000, 7]⟩
abbrev S1x16x7 : Shape := ⟨3, ![1, 16, 7]⟩
abbrev S50000x7 : Shape := ⟨2, ![50000, 7]⟩
abbrev S1x7 : Shape := ⟨2, ![1, 7]⟩

abbrev nBuf : Space → Nat
  | .hbm => 582
  | .vmem => 0
  | .smem => 0
  | _ => 0

abbrev hbmTy0_0 (i : Nat) : BufTy := match i % 128 with
  | 0 => ⟨S50000x64, .f32⟩
  | 1 => ⟨S2x800000, .i32⟩
  | 2 => ⟨S800000x2, .f32⟩
  | 3 => ⟨S25x64x16, .f32⟩
  | 4 => ⟨S64x16, .f32⟩
  | 5 => ⟨S16, .f32⟩
  | 6 => ⟨S25x16x7, .f32⟩
  | 7 => ⟨S16x7, .f32⟩
  | 8 => ⟨S7, .f32⟩
  | 9 => ⟨S4, .i32⟩
  | 10 => ⟨S4, .i32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000x2, .f32⟩
  | 17 => ⟨S800000x2, .f32⟩
  | 18 => ⟨S800000x2, .f32⟩
  | 19 => ⟨S800000x2, .f32⟩
  | 20 => ⟨S800000x2, .i32⟩
  | 21 => ⟨S_, .f32⟩
  | 22 => ⟨S800000x2, .f32⟩
  | 23 => ⟨S800000x2, .f32⟩
  | 24 => ⟨S800000x2x1, .f32⟩
  | 25 => ⟨S800000x2x1, .f32⟩
  | 26 => ⟨S800000x2x2, .f32⟩
  | 27 => ⟨S800000x2x1, .i32⟩
  | 28 => ⟨S2, .i32⟩
  | 29 => ⟨S1x1x2, .i32⟩
  | 30 => ⟨S800000x2x2, .i32⟩
  | 31 => ⟨S800000x2x2, .i32⟩
  | 32 => ⟨S800000x2x2, .i32⟩
  | 33 => ⟨S_, .i32⟩
  | 34 => ⟨S_, .i32⟩
  | 35 => ⟨S_, .i32⟩
  | 36 => ⟨S800000x2x2, .i32⟩
  | 37 => ⟨S800000x2x2, .i32⟩
  | 38 => ⟨S_, .i32⟩
  | 39 => ⟨S800000x2x2, .i32⟩
  | 40 => ⟨S800000x2x2, .i32⟩
  | 41 => ⟨S_, .i32⟩
  | 42 => ⟨S4, .i32⟩
  | 43 => ⟨S4, .i1⟩
  | 44 => ⟨S_, .i32⟩
  | 45 => ⟨S4, .i32⟩
  | 46 => ⟨S4, .i32⟩
  | 47 => ⟨S4, .i32⟩
  | 48 => ⟨S_, .i32⟩
  | 49 => ⟨S4, .i32⟩
  | 50 => ⟨S4, .i32⟩
  | 51 => ⟨S4x1, .i32⟩
  | 52 => ⟨S4x1, .i32⟩
  | 53 => ⟨S4x2, .i32⟩
  | 54 => ⟨S800000x4, .f32⟩
  | 55 => ⟨S_, .i32⟩
  | 56 => ⟨S4, .i32⟩
  | 57 => ⟨S4, .i1⟩
  | 58 => ⟨S_, .i32⟩
  | 59 => ⟨S4, .i32⟩
  | 60 => ⟨S4, .i32⟩
  | 61 => ⟨S4, .i32⟩
  | 62 => ⟨S_, .i32⟩
  | 63 => ⟨S4, .i32⟩
  | 64 => ⟨S4, .i32⟩
  | 65 => ⟨S4x1, .i32⟩
  | 66 => ⟨S4x1, .i32⟩
  | 67 => ⟨S4x2, .i32⟩
  | 68 => ⟨S800000x4, .f32⟩
  | 69 => ⟨S800000x4, .f32⟩
  | 70 => ⟨S_, .i32⟩
  | 71 => ⟨S4, .i32⟩
  | 72 => ⟨S4, .i1⟩
  | 73 => ⟨S_, .i32⟩
  | 74 => ⟨S4, .i32⟩
  | 75 => ⟨S4, .i32⟩
  | 76 => ⟨S4, .i32⟩
  | 77 => ⟨S_, .i32⟩
  | 78 => ⟨S4, .i32⟩
  | 79 => ⟨S4, .i32⟩
  | 80 => ⟨S4x1, .i32⟩
  | 81 => ⟨S4x1, .i32⟩
  | 82 => ⟨S4x2, .i32⟩
  | 83 => ⟨S800000x4, .i32⟩
  | 84 => ⟨S_, .i32⟩
  | 85 => ⟨S800000x4, .i32⟩
  | 86 => ⟨S800000x4, .i32⟩
  | 87 => ⟨S_, .i32⟩
  | 88 => ⟨S4, .i32⟩
  | 89 => ⟨S4, .i1⟩
  | 90 => ⟨S_, .i32⟩
  | 91 => ⟨S4, .i32⟩
  | 92 => ⟨S4, .i32⟩
  | 93 => ⟨S4, .i32⟩
  | 94 => ⟨S_, .i32⟩
  | 95 => ⟨S4, .i32⟩
  | 96 => ⟨S4, .i32⟩
  | 97 => ⟨S4x1, .i32⟩
  | 98 => ⟨S4x1, .i32⟩
  | 99 => ⟨S4x2, .i32⟩
  | 100 => ⟨S800000x4, .i32⟩
  | 101 => ⟨S800000x4, .i32⟩
  | 102 => ⟨S_, .f32⟩
  | 103 => ⟨S800000x25, .f32⟩
  | 104 => ⟨S800000, .i32⟩
  | 105 => ⟨S800000x1, .i32⟩
  | 106 => ⟨S_, .i32⟩
  | 107 => ⟨S800000x1, .i32⟩
  | 108 => ⟨S800000x1, .i1⟩
  | 109 => ⟨S_, .i32⟩
  | 110 => ⟨S800000x1, .i32⟩
  | 111 => ⟨S800000x1, .i32⟩
  | 112 => ⟨S800000x1, .i32⟩
  | 113 => ⟨S_, .i32⟩
  | 114 => ⟨S800000x4, .i32⟩
  | 115 => ⟨S800000x4, .i1⟩
  | 116 => ⟨S_, .i32⟩
  | 117 => ⟨S800000x4, .i32⟩
  | 118 => ⟨S800000x4, .i32⟩
  | 119 => ⟨S800000x4, .i32⟩
  | 120 => ⟨S800000x4, .i32⟩
  | 121 => ⟨S800000x4x1, .i32⟩
  | 122 => ⟨S800000x4x1, .i32⟩
  | 123 => ⟨S800000x4x2, .i32⟩
  | 124 => ⟨S800000x25, .f32⟩
  | 125 => ⟨S_, .i32⟩
  | 126 => ⟨S800000, .i32⟩
  | 127 => ⟨S800000, .i1⟩
  | _ => ⟨S50000x64, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x64, .f32⟩
  | 6 => ⟨S_, .f32⟩
  | 7 => ⟨S800000x16, .f32⟩
  | 8 => ⟨S800000x1, .f32⟩
  | 9 => ⟨S1x64x16, .f32⟩
  | 10 => ⟨S64x16, .f32⟩
  | 11 => ⟨S800000x16, .f32⟩
  | 12 => ⟨S800000x16, .f32⟩
  | 13 => ⟨S800000x16, .f32⟩
  | 14 => ⟨S800000x16, .f32⟩
  | 15 => ⟨S800000x1, .f32⟩
  | 16 => ⟨S1x64x16, .f32⟩
  | 17 => ⟨S64x16, .f32⟩
  | 18 => ⟨S800000x16, .f32⟩
  | 19 => ⟨S800000x16, .f32⟩
  | 20 => ⟨S800000x16, .f32⟩
  | 21 => ⟨S800000x16, .f32⟩
  | 22 => ⟨S800000x1, .f32⟩
  | 23 => ⟨S1x64x16, .f32⟩
  | 24 => ⟨S64x16, .f32⟩
  | 25 => ⟨S800000x16, .f32⟩
  | 26 => ⟨S800000x16, .f32⟩
  | 27 => ⟨S800000x16, .f32⟩
  | 28 => ⟨S800000x16, .f32⟩
  | 29 => ⟨S800000x1, .f32⟩
  | 30 => ⟨S1x64x16, .f32⟩
  | 31 => ⟨S64x16, .f32⟩
  | 32 => ⟨S800000x16, .f32⟩
  | 33 => ⟨S800000x16, .f32⟩
  | 34 => ⟨S800000x16, .f32⟩
  | 35 => ⟨S800000x16, .f32⟩
  | 36 => ⟨S800000x1, .f32⟩
  | 37 => ⟨S1x64x16, .f32⟩
  | 38 => ⟨S64x16, .f32⟩
  | 39 => ⟨S800000x16, .f32⟩
  | 40 => ⟨S800000x16, .f32⟩
  | 41 => ⟨S800000x16, .f32⟩
  | 42 => ⟨S800000x16, .f32⟩
  | 43 => ⟨S800000x1, .f32⟩
  | 44 => ⟨S1x64x16, .f32⟩
  | 45 => ⟨S64x16, .f32⟩
  | 46 => ⟨S800000x16, .f32⟩
  | 47 => ⟨S800000x16, .f32⟩
  | 48 => ⟨S800000x16, .f32⟩
  | 49 => ⟨S800000x16, .f32⟩
  | 50 => ⟨S800000x1, .f32⟩
  | 51 => ⟨S1x64x16, .f32⟩
  | 52 => ⟨S64x16, .f32⟩
  | 53 => ⟨S800000x16, .f32⟩
  | 54 => ⟨S800000x16, .f32⟩
  | 55 => ⟨S800000x16, .f32⟩
  | 56 => ⟨S800000x16, .f32⟩
  | 57 => ⟨S800000x1, .f32⟩
  | 58 => ⟨S1x64x16, .f32⟩
  | 59 => ⟨S64x16, .f32⟩
  | 60 => ⟨S800000x16, .f32⟩
  | 61 => ⟨S800000x16, .f32⟩
  | 62 => ⟨S800000x16, .f32⟩
  | 63 => ⟨S800000x16, .f32⟩
  | 64 => ⟨S800000x1, .f32⟩
  | 65 => ⟨S1x64x16, .f32⟩
  | 66 => ⟨S64x16, .f32⟩
  | 67 => ⟨S800000x16, .f32⟩
  | 68 => ⟨S800000x16, .f32⟩
  | 69 => ⟨S800000x16, .f32⟩
  | 70 => ⟨S800000x16, .f32⟩
  | 71 => ⟨S800000x1, .f32⟩
  | 72 => ⟨S1x64x16, .f32⟩
  | 73 => ⟨S64x16, .f32⟩
  | 74 => ⟨S800000x16, .f32⟩
  | 75 => ⟨S800000x16, .f32⟩
  | 76 => ⟨S800000x16, .f32⟩
  | 77 => ⟨S800000x16, .f32⟩
  | 78 => ⟨S800000x1, .f32⟩
  | 79 => ⟨S1x64x16, .f32⟩
  | 80 => ⟨S64x16, .f32⟩
  | 81 => ⟨S800000x16, .f32⟩
  | 82 => ⟨S800000x16, .f32⟩
  | 83 => ⟨S800000x16, .f32⟩
  | 84 => ⟨S800000x16, .f32⟩
  | 85 => ⟨S800000x1, .f32⟩
  | 86 => ⟨S1x64x16, .f32⟩
  | 87 => ⟨S64x16, .f32⟩
  | 88 => ⟨S800000x16, .f32⟩
  | 89 => ⟨S800000x16, .f32⟩
  | 90 => ⟨S800000x16, .f32⟩
  | 91 => ⟨S800000x16, .f32⟩
  | 92 => ⟨S800000x1, .f32⟩
  | 93 => ⟨S1x64x16, .f32⟩
  | 94 => ⟨S64x16, .f32⟩
  | 95 => ⟨S800000x16, .f32⟩
  | 96 => ⟨S800000x16, .f32⟩
  | 97 => ⟨S800000x16, .f32⟩
  | 98 => ⟨S800000x16, .f32⟩
  | 99 => ⟨S800000x1, .f32⟩
  | 100 => ⟨S1x64x16, .f32⟩
  | 101 => ⟨S64x16, .f32⟩
  | 102 => ⟨S800000x16, .f32⟩
  | 103 => ⟨S800000x16, .f32⟩
  | 104 => ⟨S800000x16, .f32⟩
  | 105 => ⟨S800000x16, .f32⟩
  | 106 => ⟨S800000x1, .f32⟩
  | 107 => ⟨S1x64x16, .f32⟩
  | 108 => ⟨S64x16, .f32⟩
  | 109 => ⟨S800000x16, .f32⟩
  | 110 => ⟨S800000x16, .f32⟩
  | 111 => ⟨S800000x16, .f32⟩
  | 112 => ⟨S800000x16, .f32⟩
  | 113 => ⟨S800000x1, .f32⟩
  | 114 => ⟨S1x64x16, .f32⟩
  | 115 => ⟨S64x16, .f32⟩
  | 116 => ⟨S800000x16, .f32⟩
  | 117 => ⟨S800000x16, .f32⟩
  | 118 => ⟨S800000x16, .f32⟩
  | 119 => ⟨S800000x16, .f32⟩
  | 120 => ⟨S800000x1, .f32⟩
  | 121 => ⟨S1x64x16, .f32⟩
  | 122 => ⟨S64x16, .f32⟩
  | 123 => ⟨S800000x16, .f32⟩
  | 124 => ⟨S800000x16, .f32⟩
  | 125 => ⟨S800000x16, .f32⟩
  | 126 => ⟨S800000x16, .f32⟩
  | 127 => ⟨S800000x1, .f32⟩
  | _ => ⟨S50000x64, .f32⟩

abbrev hbmTy0_2 (i : Nat) : BufTy := match i % 128 with
  | 0 => ⟨S1x64x16, .f32⟩
  | 1 => ⟨S64x16, .f32⟩
  | 2 => ⟨S800000x16, .f32⟩
  | 3 => ⟨S800000x16, .f32⟩
  | 4 => ⟨S800000x16, .f32⟩
  | 5 => ⟨S800000x16, .f32⟩
  | 6 => ⟨S800000x1, .f32⟩
  | 7 => ⟨S1x64x16, .f32⟩
  | 8 => ⟨S64x16, .f32⟩
  | 9 => ⟨S800000x16, .f32⟩
  | 10 => ⟨S800000x16, .f32⟩
  | 11 => ⟨S800000x16, .f32⟩
  | 12 => ⟨S800000x16, .f32⟩
  | 13 => ⟨S800000x1, .f32⟩
  | 14 => ⟨S1x64x16, .f32⟩
  | 15 => ⟨S64x16, .f32⟩
  | 16 => ⟨S800000x16, .f32⟩
  | 17 => ⟨S800000x16, .f32⟩
  | 18 => ⟨S800000x16, .f32⟩
  | 19 => ⟨S800000x16, .f32⟩
  | 20 => ⟨S800000x1, .f32⟩
  | 21 => ⟨S1x64x16, .f32⟩
  | 22 => ⟨S64x16, .f32⟩
  | 23 => ⟨S800000x16, .f32⟩
  | 24 => ⟨S800000x16, .f32⟩
  | 25 => ⟨S800000x16, .f32⟩
  | 26 => ⟨S800000x16, .f32⟩
  | 27 => ⟨S800000x1, .f32⟩
  | 28 => ⟨S1x64x16, .f32⟩
  | 29 => ⟨S64x16, .f32⟩
  | 30 => ⟨S800000x16, .f32⟩
  | 31 => ⟨S800000x16, .f32⟩
  | 32 => ⟨S800000x16, .f32⟩
  | 33 => ⟨S800000x16, .f32⟩
  | 34 => ⟨S800000x1, .f32⟩
  | 35 => ⟨S1x64x16, .f32⟩
  | 36 => ⟨S64x16, .f32⟩
  | 37 => ⟨S800000x16, .f32⟩
  | 38 => ⟨S800000x16, .f32⟩
  | 39 => ⟨S800000x16, .f32⟩
  | 40 => ⟨S800000x16, .f32⟩
  | 41 => ⟨S800000x1, .f32⟩
  | 42 => ⟨S1x64x16, .f32⟩
  | 43 => ⟨S64x16, .f32⟩
  | 44 => ⟨S800000x16, .f32⟩
  | 45 => ⟨S800000x16, .f32⟩
  | 46 => ⟨S800000x16, .f32⟩
  | 47 => ⟨S800000x16, .f32⟩
  | 48 => ⟨S800000x1, .f32⟩
  | 49 => ⟨S1x64x16, .f32⟩
  | 50 => ⟨S64x16, .f32⟩
  | 51 => ⟨S800000x16, .f32⟩
  | 52 => ⟨S800000x16, .f32⟩
  | 53 => ⟨S800000x16, .f32⟩
  | 54 => ⟨S800000x16, .f32⟩
  | 55 => ⟨S_, .f32⟩
  | 56 => ⟨S50000x16, .f32⟩
  | 57 => ⟨S800000x1, .i32⟩
  | 58 => ⟨S50000x16, .f32⟩
  | 59 => ⟨S_, .f32⟩
  | 60 => ⟨S800000, .f32⟩
  | 61 => ⟨S_, .f32⟩
  | 62 => ⟨S50000, .f32⟩
  | 63 => ⟨S800000x1, .i32⟩
  | 64 => ⟨S50000, .f32⟩
  | 65 => ⟨S_, .f32⟩
  | 66 => ⟨S_, .f32⟩
  | 67 => ⟨S50000, .f32⟩
  | 68 => ⟨S50000, .f32⟩
  | 69 => ⟨S50000x1, .f32⟩
  | 70 => ⟨S50000x16, .f32⟩
  | 71 => ⟨S50000x16, .f32⟩
  | 72 => ⟨S50000x16, .f32⟩
  | 73 => ⟨S50000x16, .f32⟩
  | 74 => ⟨S1x16, .f32⟩
  | 75 => ⟨S50000x16, .f32⟩
  | 76 => ⟨S50000x16, .f32⟩
  | 77 => ⟨S_, .f32⟩
  | 78 => ⟨S50000x16, .f32⟩
  | 79 => ⟨S50000x16, .f32⟩
  | 80 => ⟨S_, .f32⟩
  | 81 => ⟨S800000x25, .f32⟩
  | 82 => ⟨S800000, .i32⟩
  | 83 => ⟨S800000x1, .i32⟩
  | 84 => ⟨S_, .i32⟩
  | 85 => ⟨S800000x1, .i32⟩
  | 86 => ⟨S800000x1, .i1⟩
  | 87 => ⟨S_, .i32⟩
  | 88 => ⟨S800000x1, .i32⟩
  | 89 => ⟨S800000x1, .i32⟩
  | 90 => ⟨S800000x1, .i32⟩
  | 91 => ⟨S_, .i32⟩
  | 92 => ⟨S800000x4, .i32⟩
  | 93 => ⟨S800000x4, .i1⟩
  | 94 => ⟨S_, .i32⟩
  | 95 => ⟨S800000x4, .i32⟩
  | 96 => ⟨S800000x4, .i32⟩
  | 97 => ⟨S800000x4, .i32⟩
  | 98 => ⟨S800000x4, .i32⟩
  | 99 => ⟨S800000x4x1, .i32⟩
  | 100 => ⟨S800000x4x1, .i32⟩
  | 101 => ⟨S800000x4x2, .i32⟩
  | 102 => ⟨S800000x25, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x16, .f32⟩
  | 112 => ⟨S_, .f32⟩
  | 113 => ⟨S800000x7, .f32⟩
  | 114 => ⟨S800000x1, .f32⟩
  | 115 => ⟨S1x16x7, .f32⟩
  | 116 => ⟨S16x7, .f32⟩
  | 117 => ⟨S800000x7, .f32⟩
  | 118 => ⟨S800000x7, .f32⟩
  | 119 => ⟨S800000x7, .f32⟩
  | 120 => ⟨S800000x7, .f32⟩
  | 121 => ⟨S800000x1, .f32⟩
  | 122 => ⟨S1x16x7, .f32⟩
  | 123 => ⟨S16x7, .f32⟩
  | 124 => ⟨S800000x7, .f32⟩
  | 125 => ⟨S800000x7, .f32⟩
  | 126 => ⟨S800000x7, .f32⟩
  | 127 => ⟨S800000x7, .f32⟩
  | _ => ⟨S50000x64, .f32⟩

abbrev hbmTy0_3 (i : Nat) : BufTy := match i % 128 with
  | 0 => ⟨S800000x1, .f32⟩
  | 1 => ⟨S1x16x7, .f32⟩
  | 2 => ⟨S16x7, .f32⟩
  | 3 => ⟨S800000x7, .f32⟩
  | 4 => ⟨S800000x7, .f32⟩
  | 5 => ⟨S800000x7, .f32⟩
  | 6 => ⟨S800000x7, .f32⟩
  | 7 => ⟨S800000x1, .f32⟩
  | 8 => ⟨S1x16x7, .f32⟩
  | 9 => ⟨S16x7, .f32⟩
  | 10 => ⟨S800000x7, .f32⟩
  | 11 => ⟨S800000x7, .f32⟩
  | 12 => ⟨S800000x7, .f32⟩
  | 13 => ⟨S800000x7, .f32⟩
  | 14 => ⟨S800000x1, .f32⟩
  | 15 => ⟨S1x16x7, .f32⟩
  | 16 => ⟨S16x7, .f32⟩
  | 17 => ⟨S800000x7, .f32⟩
  | 18 => ⟨S800000x7, .f32⟩
  | 19 => ⟨S800000x7, .f32⟩
  | 20 => ⟨S800000x7, .f32⟩
  | 21 => ⟨S800000x1, .f32⟩
  | 22 => ⟨S1x16x7, .f32⟩
  | 23 => ⟨S16x7, .f32⟩
  | 24 => ⟨S800000x7, .f32⟩
  | 25 => ⟨S800000x7, .f32⟩
  | 26 => ⟨S800000x7, .f32⟩
  | 27 => ⟨S800000x7, .f32⟩
  | 28 => ⟨S800000x1, .f32⟩
  | 29 => ⟨S1x16x7, .f32⟩
  | 30 => ⟨S16x7, .f32⟩
  | 31 => ⟨S800000x7, .f32⟩
  | 32 => ⟨S800000x7, .f32⟩
  | 33 => ⟨S800000x7, .f32⟩
  | 34 => ⟨S800000x7, .f32⟩
  | 35 => ⟨S800000x1, .f32⟩
  | 36 => ⟨S1x16x7, .f32⟩
  | 37 => ⟨S16x7, .f32⟩
  | 38 => ⟨S800000x7, .f32⟩
  | 39 => ⟨S800000x7, .f32⟩
  | 40 => ⟨S800000x7, .f32⟩
  | 41 => ⟨S800000x7, .f32⟩
  | 42 => ⟨S800000x1, .f32⟩
  | 43 => ⟨S1x16x7, .f32⟩
  | 44 => ⟨S16x7, .f32⟩
  | 45 => ⟨S800000x7, .f32⟩
  | 46 => ⟨S800000x7, .f32⟩
  | 47 => ⟨S800000x7, .f32⟩
  | 48 => ⟨S800000x7, .f32⟩
  | 49 => ⟨S800000x1, .f32⟩
  | 50 => ⟨S1x16x7, .f32⟩
  | 51 => ⟨S16x7, .f32⟩
  | 52 => ⟨S800000x7, .f32⟩
  | 53 => ⟨S800000x7, .f32⟩
  | 54 => ⟨S800000x7, .f32⟩
  | 55 => ⟨S800000x7, .f32⟩
  | 56 => ⟨S800000x1, .f32⟩
  | 57 => ⟨S1x16x7, .f32⟩
  | 58 => ⟨S16x7, .f32⟩
  | 59 => ⟨S800000x7, .f32⟩
  | 60 => ⟨S800000x7, .f32⟩
  | 61 => ⟨S800000x7, .f32⟩
  | 62 => ⟨S800000x7, .f32⟩
  | 63 => ⟨S800000x1, .f32⟩
  | 64 => ⟨S1x16x7, .f32⟩
  | 65 => ⟨S16x7, .f32⟩
  | 66 => ⟨S800000x7, .f32⟩
  | 67 => ⟨S800000x7, .f32⟩
  | 68 => ⟨S800000x7, .f32⟩
  | 69 => ⟨S800000x7, .f32⟩
  | 70 => ⟨S800000x1, .f32⟩
  | 71 => ⟨S1x16x7, .f32⟩
  | 72 => ⟨S16x7, .f32⟩
  | 73 => ⟨S800000x7, .f32⟩
  | 74 => ⟨S800000x7, .f32⟩
  | 75 => ⟨S800000x7, .f32⟩
  | 76 => ⟨S800000x7, .f32⟩
  | 77 => ⟨S800000x1, .f32⟩
  | 78 => ⟨S1x16x7, .f32⟩
  | 79 => ⟨S16x7, .f32⟩
  | 80 => ⟨S800000x7, .f32⟩
  | 81 => ⟨S800000x7, .f32⟩
  | 82 => ⟨S800000x7, .f32⟩
  | 83 => ⟨S800000x7, .f32⟩
  | 84 => ⟨S800000x1, .f32⟩
  | 85 => ⟨S1x16x7, .f32⟩
  | 86 => ⟨S16x7, .f32⟩
  | 87 => ⟨S800000x7, .f32⟩
  | 88 => ⟨S800000x7, .f32⟩
  | 89 => ⟨S800000x7, .f32⟩
  | 90 => ⟨S800000x7, .f32⟩
  | 91 => ⟨S800000x1, .f32⟩
  | 92 => ⟨S1x16x7, .f32⟩
  | 93 => ⟨S16x7, .f32⟩
  | 94 => ⟨S800000x7, .f32⟩
  | 95 => ⟨S800000x7, .f32⟩
  | 96 => ⟨S800000x7, .f32⟩
  | 97 => ⟨S800000x7, .f32⟩
  | 98 => ⟨S800000x1, .f32⟩
  | 99 => ⟨S1x16x7, .f32⟩
  | 100 => ⟨S16x7, .f32⟩
  | 101 => ⟨S800000x7, .f32⟩
  | 102 => ⟨S800000x7, .f32⟩
  | 103 => ⟨S800000x7, .f32⟩
  | 104 => ⟨S800000x7, .f32⟩
  | 105 => ⟨S800000x1, .f32⟩
  | 106 => ⟨S1x16x7, .f32⟩
  | 107 => ⟨S16x7, .f32⟩
  | 108 => ⟨S800000x7, .f32⟩
  | 109 => ⟨S800000x7, .f32⟩
  | 110 => ⟨S800000x7, .f32⟩
  | 111 => ⟨S800000x7, .f32⟩
  | 112 => ⟨S800000x1, .f32⟩
  | 113 => ⟨S1x16x7, .f32⟩
  | 114 => ⟨S16x7, .f32⟩
  | 115 => ⟨S800000x7, .f32⟩
  | 116 => ⟨S800000x7, .f32⟩
  | 117 => ⟨S800000x7, .f32⟩
  | 118 => ⟨S800000x7, .f32⟩
  | 119 => ⟨S800000x1, .f32⟩
  | 120 => ⟨S1x16x7, .f32⟩
  | 121 => ⟨S16x7, .f32⟩
  | 122 => ⟨S800000x7, .f32⟩
  | 123 => ⟨S800000x7, .f32⟩
  | 124 => ⟨S800000x7, .f32⟩
  | 125 => ⟨S800000x7, .f32⟩
  | 126 => ⟨S800000x1, .f32⟩
  | 127 => ⟨S1x16x7, .f32⟩
  | _ => ⟨S50000x64, .f32⟩

abbrev hbmTy0_4 (i : Nat) : BufTy := match i % 128 with
  | 0 => ⟨S16x7, .f32⟩
  | 1 => ⟨S800000x7, .f32⟩
  | 2 => ⟨S800000x7, .f32⟩
  | 3 => ⟨S800000x7, .f32⟩
  | 4 => ⟨S800000x7, .f32⟩
  | 5 => ⟨S800000x1, .f32⟩
  | 6 => ⟨S1x16x7, .f32⟩
  | 7 => ⟨S16x7, .f32⟩
  | 8 => ⟨S800000x7, .f32⟩
  | 9 => ⟨S800000x7, .f32⟩
  | 10 => ⟨S800000x7, .f32⟩
  | 11 => ⟨S800000x7, .f32⟩
  | 12 => ⟨S800000x1, .f32⟩
  | 13 => ⟨S1x16x7, .f32⟩
  | 14 => ⟨S16x7, .f32⟩
  | 15 => ⟨S800000x7, .f32⟩
  | 16 => ⟨S800000x7, .f32⟩
  | 17 => ⟨S800000x7, .f32⟩
  | 18 => ⟨S800000x7, .f32⟩
  | 19 => ⟨S800000x1, .f32⟩
  | 20 => ⟨S1x16x7, .f32⟩
  | 21 => ⟨S16x7, .f32⟩
  | 22 => ⟨S800000x7, .f32⟩
  | 23 => ⟨S800000x7, .f32⟩
  | 24 => ⟨S800000x7, .f32⟩
  | 25 => ⟨S800000x7, .f32⟩
  | 26 => ⟨S800000x1, .f32⟩
  | 27 => ⟨S1x16x7, .f32⟩
  | 28 => ⟨S16x7, .f32⟩
  | 29 => ⟨S800000x7, .f32⟩
  | 30 => ⟨S800000x7, .f32⟩
  | 31 => ⟨S800000x7, .f32⟩
  | 32 => ⟨S800000x7, .f32⟩
  | 33 => ⟨S_, .f32⟩
  | 34 => ⟨S50000x7, .f32⟩
  | 35 => ⟨S800000x1, .i32⟩
  | 36 => ⟨S50000x7, .f32⟩
  | 37 => ⟨S_, .f32⟩
  | 38 => ⟨S800000, .f32⟩
  | 39 => ⟨S_, .f32⟩
  | 40 => ⟨S50000, .f32⟩
  | 41 => ⟨S800000x1, .i32⟩
  | 42 => ⟨S50000, .f32⟩
  | 43 => ⟨S_, .f32⟩
  | 44 => ⟨S_, .f32⟩
  | 45 => ⟨S50000, .f32⟩
  | 46 => ⟨S50000, .f32⟩
  | 47 => ⟨S50000x1, .f32⟩
  | 48 => ⟨S50000x7, .f32⟩
  | 49 => ⟨S50000x7, .f32⟩
  | 50 => ⟨S50000x7, .f32⟩
  | 51 => ⟨S50000x7, .f32⟩
  | 52 => ⟨S1x7, .f32⟩
  | 53 => ⟨S50000x7, .f32⟩
  | 54 => ⟨S50000x7, .f32⟩
  | 55 => ⟨S_, .f32⟩
  | 56 => ⟨S50000, .f32⟩
  | 57 => ⟨S_, .f32⟩
  | 58 => ⟨S50000, .f32⟩
  | 59 => ⟨S50000, .f32⟩
  | 60 => ⟨S50000x1, .f32⟩
  | 61 => ⟨S50000x7, .f32⟩
  | 62 => ⟨S50000x7, .f32⟩
  | 63 => ⟨S50000x7, .f32⟩
  | 64 => ⟨S_, .f32⟩
  | 65 => ⟨S50000, .f32⟩
  | 66 => ⟨S50000x1, .f32⟩
  | 67 => ⟨S50000x1, .f32⟩
  | 68 => ⟨S50000x7, .f32⟩
  | 69 => ⟨S50000x7, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_c_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_6 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_c_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_9 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_c_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_13 : Ref sig .tc := ⟨.hbm, 84, rfl⟩
abbrev main_v55 : Ref sig .tc := ⟨.hbm, 85, rfl⟩
abbrev main_v56 : Ref sig .tc := ⟨.hbm, 86, rfl⟩
abbrev main_c_14 : Ref sig .tc := ⟨.hbm, 87, rfl⟩
abbrev main_v57 : Ref sig .tc := ⟨.hbm, 88, rfl⟩
abbrev main_v58 : Ref sig .tc := ⟨.hbm, 89, rfl⟩
abbrev main_c_15 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_c_16 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_17 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_18 : Ref sig .tc := ⟨.hbm, 106, rfl⟩
abbrev main_v72 : Ref sig .tc := ⟨.hbm, 107, rfl⟩
abbrev main_v73 : Ref sig .tc := ⟨.hbm, 108, rfl⟩
abbrev main_c_19 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_20 : Ref sig .tc := ⟨.hbm, 113, rfl⟩
abbrev main_v77 : Ref sig .tc := ⟨.hbm, 114, rfl⟩
abbrev main_v78 : Ref sig .tc := ⟨.hbm, 115, rfl⟩
abbrev main_c_21 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_22 : Ref sig .tc := ⟨.hbm, 125, rfl⟩
abbrev main_v87 : Ref sig .tc := ⟨.hbm, 126, rfl⟩
abbrev main_v88 : Ref sig .tc := ⟨.hbm, 127, rfl⟩
abbrev main_c_23 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_24 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_v193 : Ref sig .tc := ⟨.hbm, 234, rfl⟩
abbrev main_v194 : Ref sig .tc := ⟨.hbm, 235, rfl⟩
abbrev main_v195 : Ref sig .tc := ⟨.hbm, 236, rfl⟩
abbrev main_v196 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_v212 : Ref sig .tc := ⟨.hbm, 253, rfl⟩
abbrev main_v213 : Ref sig .tc := ⟨.hbm, 254, rfl⟩
abbrev main_v214 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_v218 : Ref sig .tc := ⟨.hbm, 259, rfl⟩
abbrev main_v219 : Ref sig .tc := ⟨.hbm, 260, rfl⟩
abbrev main_v220 : Ref sig .tc := ⟨.hbm, 261, rfl⟩
abbrev main_v221 : Ref sig .tc := ⟨.hbm, 262, rfl⟩
abbrev main_v222 : Ref sig .tc := ⟨.hbm, 263, rfl⟩
abbrev main_v223 : Ref sig .tc := ⟨.hbm, 264, rfl⟩
abbrev main_v224 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_v229 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_v235 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_v251 : Ref sig .tc := ⟨.hbm, 292, rfl⟩
abbrev main_v252 : Ref sig .tc := ⟨.hbm, 293, rfl⟩
abbrev main_v253 : Ref sig .tc := ⟨.hbm, 294, rfl⟩
abbrev main_v254 : Ref sig .tc := ⟨.hbm, 295, rfl⟩
abbrev main_v255 : Ref sig .tc := ⟨.hbm, 296, rfl⟩
abbrev main_v256 : Ref sig .tc := ⟨.hbm, 297, rfl⟩
abbrev main_v257 : Ref sig .tc := ⟨.hbm, 298, rfl⟩
abbrev main_v258 : Ref sig .tc := ⟨.hbm, 299, rfl⟩
abbrev main_v259 : Ref sig .tc := ⟨.hbm, 300, rfl⟩
abbrev main_v260 : Ref sig .tc := ⟨.hbm, 301, rfl⟩
abbrev main_v261 : Ref sig .tc := ⟨.hbm, 302, rfl⟩
abbrev main_v262 : Ref sig .tc := ⟨.hbm, 303, rfl⟩
abbrev main_v263 : Ref sig .tc := ⟨.hbm, 304, rfl⟩
abbrev main_v264 : Ref sig .tc := ⟨.hbm, 305, rfl⟩
abbrev main_v265 : Ref sig .tc := ⟨.hbm, 306, rfl⟩
abbrev main_v266 : Ref sig .tc := ⟨.hbm, 307, rfl⟩
abbrev main_v267 : Ref sig .tc := ⟨.hbm, 308, rfl⟩
abbrev main_v268 : Ref sig .tc := ⟨.hbm, 309, rfl⟩
abbrev main_v269 : Ref sig .tc := ⟨.hbm, 310, rfl⟩
abbrev main_cst_25 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_cst_26 : Ref sig .tc := ⟨.hbm, 315, rfl⟩
abbrev main_v273 : Ref sig .tc := ⟨.hbm, 316, rfl⟩
abbrev main_cst_27 : Ref sig .tc := ⟨.hbm, 317, rfl⟩
abbrev main_v274 : Ref sig .tc := ⟨.hbm, 318, rfl⟩
abbrev main_v275 : Ref sig .tc := ⟨.hbm, 319, rfl⟩
abbrev main_v276 : Ref sig .tc := ⟨.hbm, 320, rfl⟩
abbrev main_cst_28 : Ref sig .tc := ⟨.hbm, 321, rfl⟩
abbrev main_call1_v0 : Ref sig .tc := ⟨.hbm, 322, rfl⟩
abbrev main_call1_v1 : Ref sig .tc := ⟨.hbm, 323, rfl⟩
abbrev main_v277 : Ref sig .tc := ⟨.hbm, 324, rfl⟩
abbrev main_v278 : Ref sig .tc := ⟨.hbm, 325, rfl⟩
abbrev main_v279 : Ref sig .tc := ⟨.hbm, 326, rfl⟩
abbrev main_v280 : Ref sig .tc := ⟨.hbm, 327, rfl⟩
abbrev main_v281 : Ref sig .tc := ⟨.hbm, 328, rfl⟩
abbrev main_v282 : Ref sig .tc := ⟨.hbm, 329, rfl⟩
abbrev main_v283 : Ref sig .tc := ⟨.hbm, 330, rfl⟩
abbrev main_v284 : Ref sig .tc := ⟨.hbm, 331, rfl⟩
abbrev main_v285 : Ref sig .tc := ⟨.hbm, 332, rfl⟩
abbrev main_call2_cst : Ref sig .tc := ⟨.hbm, 333, rfl⟩
abbrev main_call2_v0 : Ref sig .tc := ⟨.hbm, 334, rfl⟩
abbrev main_v286 : Ref sig .tc := ⟨.hbm, 335, rfl⟩
abbrev main_cst_29 : Ref sig .tc := ⟨.hbm, 336, rfl⟩
abbrev main_v287 : Ref sig .tc := ⟨.hbm, 337, rfl⟩
abbrev main_v288 : Ref sig .tc := ⟨.hbm, 338, rfl⟩
abbrev main_v289 : Ref sig .tc := ⟨.hbm, 339, rfl⟩
abbrev main_c_30 : Ref sig .tc := ⟨.hbm, 340, rfl⟩
abbrev main_v290 : Ref sig .tc := ⟨.hbm, 341, rfl⟩
abbrev main_v291 : Ref sig .tc := ⟨.hbm, 342, rfl⟩
abbrev main_c_31 : Ref sig .tc := ⟨.hbm, 343, rfl⟩
abbrev main_v292 : Ref sig .tc := ⟨.hbm, 344, rfl⟩
abbrev main_v293 : Ref sig .tc := ⟨.hbm, 345, rfl⟩
abbrev main_v294 : Ref sig .tc := ⟨.hbm, 346, rfl⟩
abbrev main_c_32 : Ref sig .tc := ⟨.hbm, 347, rfl⟩
abbrev main_v295 : Ref sig .tc := ⟨.hbm, 348, rfl⟩
abbrev main_v296 : Ref sig .tc := ⟨.hbm, 349, rfl⟩
abbrev main_c_33 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_v303 : Ref sig .tc := ⟨.hbm, 357, rfl⟩
abbrev main_v304 : Ref sig .tc := ⟨.hbm, 358, rfl⟩
abbrev main_c_34 : Ref sig .tc := ⟨.hbm, 359, rfl⟩
abbrev main_v305 : Ref sig .tc := ⟨.hbm, 360, rfl⟩
abbrev main_v306 : Ref sig .tc := ⟨.hbm, 361, rfl⟩
abbrev main_c_35 : Ref sig .tc := ⟨.hbm, 362, rfl⟩
abbrev main_v307 : Ref sig .tc := ⟨.hbm, 363, rfl⟩
abbrev main_v308 : Ref sig .tc := ⟨.hbm, 364, rfl⟩
abbrev main_v309 : Ref sig .tc := ⟨.hbm, 365, rfl⟩
abbrev main_v310 : Ref sig .tc := ⟨.hbm, 366, rfl⟩
abbrev main_v311 : Ref sig .tc := ⟨.hbm, 367, rfl⟩
abbrev main_cst_36 : Ref sig .tc := ⟨.hbm, 368, rfl⟩
abbrev main_v312 : Ref sig .tc := ⟨.hbm, 369, rfl⟩
abbrev main_v313 : Ref sig .tc := ⟨.hbm, 370, rfl⟩
abbrev main_v314 : Ref sig .tc := ⟨.hbm, 371, rfl⟩
abbrev main_v315 : Ref sig .tc := ⟨.hbm, 372, rfl⟩
abbrev main_v316 : Ref sig .tc := ⟨.hbm, 373, rfl⟩
abbrev main_v317 : Ref sig .tc := ⟨.hbm, 374, rfl⟩
abbrev main_v318 : Ref sig .tc := ⟨.hbm, 375, rfl⟩
abbrev main_v319 : Ref sig .tc := ⟨.hbm, 376, rfl⟩
abbrev main_v320 : Ref sig .tc := ⟨.hbm, 377, rfl⟩
abbrev main_v321 : Ref sig .tc := ⟨.hbm, 378, rfl⟩
abbrev main_v322 : Ref sig .tc := ⟨.hbm, 379, rfl⟩
abbrev main_v323 : Ref sig .tc := ⟨.hbm, 380, rfl⟩
abbrev main_v324 : Ref sig .tc := ⟨.hbm, 381, rfl⟩
abbrev main_v325 : Ref sig .tc := ⟨.hbm, 382, rfl⟩
abbrev main_v326 : Ref sig .tc := ⟨.hbm, 383, rfl⟩
abbrev main_v327 : Ref sig .tc := ⟨.hbm, 384, rfl⟩
abbrev main_v328 : Ref sig .tc := ⟨.hbm, 385, rfl⟩
abbrev main_v329 : Ref sig .tc := ⟨.hbm, 386, rfl⟩
abbrev main_v330 : Ref sig .tc := ⟨.hbm, 387, rfl⟩
abbrev main_v331 : Ref sig .tc := ⟨.hbm, 388, rfl⟩
abbrev main_v332 : Ref sig .tc := ⟨.hbm, 389, rfl⟩
abbrev main_v333 : Ref sig .tc := ⟨.hbm, 390, rfl⟩
abbrev main_v334 : Ref sig .tc := ⟨.hbm, 391, rfl⟩
abbrev main_v335 : Ref sig .tc := ⟨.hbm, 392, rfl⟩
abbrev main_v336 : Ref sig .tc := ⟨.hbm, 393, rfl⟩
abbrev main_v337 : Ref sig .tc := ⟨.hbm, 394, rfl⟩
abbrev main_v338 : Ref sig .tc := ⟨.hbm, 395, rfl⟩
abbrev main_v339 : Ref sig .tc := ⟨.hbm, 396, rfl⟩
abbrev main_v340 : Ref sig .tc := ⟨.hbm, 397, rfl⟩
abbrev main_v341 : Ref sig .tc := ⟨.hbm, 398, rfl⟩
abbrev main_v342 : Ref sig .tc := ⟨.hbm, 399, rfl⟩
abbrev main_v343 : Ref sig .tc := ⟨.hbm, 400, rfl⟩
abbrev main_v344 : Ref sig .tc := ⟨.hbm, 401, rfl⟩
abbrev main_v345 : Ref sig .tc := ⟨.hbm, 402, rfl⟩
abbrev main_v346 : Ref sig .tc := ⟨.hbm, 403, rfl⟩
abbrev main_v347 : Ref sig .tc := ⟨.hbm, 404, rfl⟩
abbrev main_v348 : Ref sig .tc := ⟨.hbm, 405, rfl⟩
abbrev main_v349 : Ref sig .tc := ⟨.hbm, 406, rfl⟩
abbrev main_v350 : Ref sig .tc := ⟨.hbm, 407, rfl⟩
abbrev main_v351 : Ref sig .tc := ⟨.hbm, 408, rfl⟩
abbrev main_v352 : Ref sig .tc := ⟨.hbm, 409, rfl⟩
abbrev main_v353 : Ref sig .tc := ⟨.hbm, 410, rfl⟩
abbrev main_v354 : Ref sig .tc := ⟨.hbm, 411, rfl⟩
abbrev main_v355 : Ref sig .tc := ⟨.hbm, 412, rfl⟩
abbrev main_v356 : Ref sig .tc := ⟨.hbm, 413, rfl⟩
abbrev main_v357 : Ref sig .tc := ⟨.hbm, 414, rfl⟩
abbrev main_v358 : Ref sig .tc := ⟨.hbm, 415, rfl⟩
abbrev main_v359 : Ref sig .tc := ⟨.hbm, 416, rfl⟩
abbrev main_v360 : Ref sig .tc := ⟨.hbm, 417, rfl⟩
abbrev main_v361 : Ref sig .tc := ⟨.hbm, 418, rfl⟩
abbrev main_v362 : Ref sig .tc := ⟨.hbm, 419, rfl⟩
abbrev main_v363 : Ref sig .tc := ⟨.hbm, 420, rfl⟩
abbrev main_v364 : Ref sig .tc := ⟨.hbm, 421, rfl⟩
abbrev main_v365 : Ref sig .tc := ⟨.hbm, 422, rfl⟩
abbrev main_v366 : Ref sig .tc := ⟨.hbm, 423, rfl⟩
abbrev main_v367 : Ref sig .tc := ⟨.hbm, 424, rfl⟩
abbrev main_v368 : Ref sig .tc := ⟨.hbm, 425, rfl⟩
abbrev main_v369 : Ref sig .tc := ⟨.hbm, 426, rfl⟩
abbrev main_v370 : Ref sig .tc := ⟨.hbm, 427, rfl⟩
abbrev main_v371 : Ref sig .tc := ⟨.hbm, 428, rfl⟩
abbrev main_v372 : Ref sig .tc := ⟨.hbm, 429, rfl⟩
abbrev main_v373 : Ref sig .tc := ⟨.hbm, 430, rfl⟩
abbrev main_v374 : Ref sig .tc := ⟨.hbm, 431, rfl⟩
abbrev main_v375 : Ref sig .tc := ⟨.hbm, 432, rfl⟩
abbrev main_v376 : Ref sig .tc := ⟨.hbm, 433, rfl⟩
abbrev main_v377 : Ref sig .tc := ⟨.hbm, 434, rfl⟩
abbrev main_v378 : Ref sig .tc := ⟨.hbm, 435, rfl⟩
abbrev main_v379 : Ref sig .tc := ⟨.hbm, 436, rfl⟩
abbrev main_v380 : Ref sig .tc := ⟨.hbm, 437, rfl⟩
abbrev main_v381 : Ref sig .tc := ⟨.hbm, 438, rfl⟩
abbrev main_v382 : Ref sig .tc := ⟨.hbm, 439, rfl⟩
abbrev main_v383 : Ref sig .tc := ⟨.hbm, 440, rfl⟩
abbrev main_v384 : Ref sig .tc := ⟨.hbm, 441, rfl⟩
abbrev main_v385 : Ref sig .tc := ⟨.hbm, 442, rfl⟩
abbrev main_v386 : Ref sig .tc := ⟨.hbm, 443, rfl⟩
abbrev main_v387 : Ref sig .tc := ⟨.hbm, 444, rfl⟩
abbrev main_v388 : Ref sig .tc := ⟨.hbm, 445, rfl⟩
abbrev main_v389 : Ref sig .tc := ⟨.hbm, 446, rfl⟩
abbrev main_v390 : Ref sig .tc := ⟨.hbm, 447, rfl⟩
abbrev main_v391 : Ref sig .tc := ⟨.hbm, 448, rfl⟩
abbrev main_v392 : Ref sig .tc := ⟨.hbm, 449, rfl⟩
abbrev main_v393 : Ref sig .tc := ⟨.hbm, 450, rfl⟩
abbrev main_v394 : Ref sig .tc := ⟨.hbm, 451, rfl⟩
abbrev main_v395 : Ref sig .tc := ⟨.hbm, 452, rfl⟩
abbrev main_v396 : Ref sig .tc := ⟨.hbm, 453, rfl⟩
abbrev main_v397 : Ref sig .tc := ⟨.hbm, 454, rfl⟩
abbrev main_v398 : Ref sig .tc := ⟨.hbm, 455, rfl⟩
abbrev main_v399 : Ref sig .tc := ⟨.hbm, 456, rfl⟩
abbrev main_v400 : Ref sig .tc := ⟨.hbm, 457, rfl⟩
abbrev main_v401 : Ref sig .tc := ⟨.hbm, 458, rfl⟩
abbrev main_v402 : Ref sig .tc := ⟨.hbm, 459, rfl⟩
abbrev main_v403 : Ref sig .tc := ⟨.hbm, 460, rfl⟩
abbrev main_v404 : Ref sig .tc := ⟨.hbm, 461, rfl⟩
abbrev main_v405 : Ref sig .tc := ⟨.hbm, 462, rfl⟩
abbrev main_v406 : Ref sig .tc := ⟨.hbm, 463, rfl⟩
abbrev main_v407 : Ref sig .tc := ⟨.hbm, 464, rfl⟩
abbrev main_v408 : Ref sig .tc := ⟨.hbm, 465, rfl⟩
abbrev main_v409 : Ref sig .tc := ⟨.hbm, 466, rfl⟩
abbrev main_v410 : Ref sig .tc := ⟨.hbm, 467, rfl⟩
abbrev main_v411 : Ref sig .tc := ⟨.hbm, 468, rfl⟩
abbrev main_v412 : Ref sig .tc := ⟨.hbm, 469, rfl⟩
abbrev main_v413 : Ref sig .tc := ⟨.hbm, 470, rfl⟩
abbrev main_v414 : Ref sig .tc := ⟨.hbm, 471, rfl⟩
abbrev main_v415 : Ref sig .tc := ⟨.hbm, 472, rfl⟩
abbrev main_v416 : Ref sig .tc := ⟨.hbm, 473, rfl⟩
abbrev main_v417 : Ref sig .tc := ⟨.hbm, 474, rfl⟩
abbrev main_v418 : Ref sig .tc := ⟨.hbm, 475, rfl⟩
abbrev main_v419 : Ref sig .tc := ⟨.hbm, 476, rfl⟩
abbrev main_v420 : Ref sig .tc := ⟨.hbm, 477, rfl⟩
abbrev main_v421 : Ref sig .tc := ⟨.hbm, 478, rfl⟩
abbrev main_v422 : Ref sig .tc := ⟨.hbm, 479, rfl⟩
abbrev main_v423 : Ref sig .tc := ⟨.hbm, 480, rfl⟩
abbrev main_v424 : Ref sig .tc := ⟨.hbm, 481, rfl⟩
abbrev main_v425 : Ref sig .tc := ⟨.hbm, 482, rfl⟩
abbrev main_v426 : Ref sig .tc := ⟨.hbm, 483, rfl⟩
abbrev main_v427 : Ref sig .tc := ⟨.hbm, 484, rfl⟩
abbrev main_v428 : Ref sig .tc := ⟨.hbm, 485, rfl⟩
abbrev main_v429 : Ref sig .tc := ⟨.hbm, 486, rfl⟩
abbrev main_v430 : Ref sig .tc := ⟨.hbm, 487, rfl⟩
abbrev main_v431 : Ref sig .tc := ⟨.hbm, 488, rfl⟩
abbrev main_v432 : Ref sig .tc := ⟨.hbm, 489, rfl⟩
abbrev main_v433 : Ref sig .tc := ⟨.hbm, 490, rfl⟩
abbrev main_v434 : Ref sig .tc := ⟨.hbm, 491, rfl⟩
abbrev main_v435 : Ref sig .tc := ⟨.hbm, 492, rfl⟩
abbrev main_v436 : Ref sig .tc := ⟨.hbm, 493, rfl⟩
abbrev main_v437 : Ref sig .tc := ⟨.hbm, 494, rfl⟩
abbrev main_v438 : Ref sig .tc := ⟨.hbm, 495, rfl⟩
abbrev main_v439 : Ref sig .tc := ⟨.hbm, 496, rfl⟩
abbrev main_v440 : Ref sig .tc := ⟨.hbm, 497, rfl⟩
abbrev main_v441 : Ref sig .tc := ⟨.hbm, 498, rfl⟩
abbrev main_v442 : Ref sig .tc := ⟨.hbm, 499, rfl⟩
abbrev main_v443 : Ref sig .tc := ⟨.hbm, 500, rfl⟩
abbrev main_v444 : Ref sig .tc := ⟨.hbm, 501, rfl⟩
abbrev main_v445 : Ref sig .tc := ⟨.hbm, 502, rfl⟩
abbrev main_v446 : Ref sig .tc := ⟨.hbm, 503, rfl⟩
abbrev main_v447 : Ref sig .tc := ⟨.hbm, 504, rfl⟩
abbrev main_v448 : Ref sig .tc := ⟨.hbm, 505, rfl⟩
abbrev main_v449 : Ref sig .tc := ⟨.hbm, 506, rfl⟩
abbrev main_v450 : Ref sig .tc := ⟨.hbm, 507, rfl⟩
abbrev main_v451 : Ref sig .tc := ⟨.hbm, 508, rfl⟩
abbrev main_v452 : Ref sig .tc := ⟨.hbm, 509, rfl⟩
abbrev main_v453 : Ref sig .tc := ⟨.hbm, 510, rfl⟩
abbrev main_v454 : Ref sig .tc := ⟨.hbm, 511, rfl⟩
abbrev main_v455 : Ref sig .tc := ⟨.hbm, 512, rfl⟩
abbrev main_v456 : Ref sig .tc := ⟨.hbm, 513, rfl⟩
abbrev main_v457 : Ref sig .tc := ⟨.hbm, 514, rfl⟩
abbrev main_v458 : Ref sig .tc := ⟨.hbm, 515, rfl⟩
abbrev main_v459 : Ref sig .tc := ⟨.hbm, 516, rfl⟩
abbrev main_v460 : Ref sig .tc := ⟨.hbm, 517, rfl⟩
abbrev main_v461 : Ref sig .tc := ⟨.hbm, 518, rfl⟩
abbrev main_v462 : Ref sig .tc := ⟨.hbm, 519, rfl⟩
abbrev main_v463 : Ref sig .tc := ⟨.hbm, 520, rfl⟩
abbrev main_v464 : Ref sig .tc := ⟨.hbm, 521, rfl⟩
abbrev main_v465 : Ref sig .tc := ⟨.hbm, 522, rfl⟩
abbrev main_v466 : Ref sig .tc := ⟨.hbm, 523, rfl⟩
abbrev main_v467 : Ref sig .tc := ⟨.hbm, 524, rfl⟩
abbrev main_v468 : Ref sig .tc := ⟨.hbm, 525, rfl⟩
abbrev main_v469 : Ref sig .tc := ⟨.hbm, 526, rfl⟩
abbrev main_v470 : Ref sig .tc := ⟨.hbm, 527, rfl⟩
abbrev main_v471 : Ref sig .tc := ⟨.hbm, 528, rfl⟩
abbrev main_v472 : Ref sig .tc := ⟨.hbm, 529, rfl⟩
abbrev main_v473 : Ref sig .tc := ⟨.hbm, 530, rfl⟩
abbrev main_v474 : Ref sig .tc := ⟨.hbm, 531, rfl⟩
abbrev main_v475 : Ref sig .tc := ⟨.hbm, 532, rfl⟩
abbrev main_v476 : Ref sig .tc := ⟨.hbm, 533, rfl⟩
abbrev main_v477 : Ref sig .tc := ⟨.hbm, 534, rfl⟩
abbrev main_v478 : Ref sig .tc := ⟨.hbm, 535, rfl⟩
abbrev main_v479 : Ref sig .tc := ⟨.hbm, 536, rfl⟩
abbrev main_v480 : Ref sig .tc := ⟨.hbm, 537, rfl⟩
abbrev main_v481 : Ref sig .tc := ⟨.hbm, 538, rfl⟩
abbrev main_v482 : Ref sig .tc := ⟨.hbm, 539, rfl⟩
abbrev main_v483 : Ref sig .tc := ⟨.hbm, 540, rfl⟩
abbrev main_v484 : Ref sig .tc := ⟨.hbm, 541, rfl⟩
abbrev main_v485 : Ref sig .tc := ⟨.hbm, 542, rfl⟩
abbrev main_v486 : Ref sig .tc := ⟨.hbm, 543, rfl⟩
abbrev main_v487 : Ref sig .tc := ⟨.hbm, 544, rfl⟩
abbrev main_cst_37 : Ref sig .tc := ⟨.hbm, 545, rfl⟩
abbrev main_v488 : Ref sig .tc := ⟨.hbm, 546, rfl⟩
abbrev main_v489 : Ref sig .tc := ⟨.hbm, 547, rfl⟩
abbrev main_v490 : Ref sig .tc := ⟨.hbm, 548, rfl⟩
abbrev main_cst_38 : Ref sig .tc := ⟨.hbm, 549, rfl⟩
abbrev main_v491 : Ref sig .tc := ⟨.hbm, 550, rfl⟩
abbrev main_cst_39 : Ref sig .tc := ⟨.hbm, 551, rfl⟩
abbrev main_v492 : Ref sig .tc := ⟨.hbm, 552, rfl⟩
abbrev main_v493 : Ref sig .tc := ⟨.hbm, 553, rfl⟩
abbrev main_v494 : Ref sig .tc := ⟨.hbm, 554, rfl⟩
abbrev main_cst_40 : Ref sig .tc := ⟨.hbm, 555, rfl⟩
abbrev main_call3_v0 : Ref sig .tc := ⟨.hbm, 556, rfl⟩
abbrev main_call3_v1 : Ref sig .tc := ⟨.hbm, 557, rfl⟩
abbrev main_v495 : Ref sig .tc := ⟨.hbm, 558, rfl⟩
abbrev main_v496 : Ref sig .tc := ⟨.hbm, 559, rfl⟩
abbrev main_v497 : Ref sig .tc := ⟨.hbm, 560, rfl⟩
abbrev main_v498 : Ref sig .tc := ⟨.hbm, 561, rfl⟩
abbrev main_v499 : Ref sig .tc := ⟨.hbm, 562, rfl⟩
abbrev main_v500 : Ref sig .tc := ⟨.hbm, 563, rfl⟩
abbrev main_v501 : Ref sig .tc := ⟨.hbm, 564, rfl⟩
abbrev main_v502 : Ref sig .tc := ⟨.hbm, 565, rfl⟩
abbrev main_v503 : Ref sig .tc := ⟨.hbm, 566, rfl⟩
abbrev main_call4_cst : Ref sig .tc := ⟨.hbm, 567, rfl⟩
abbrev main_call4_v0 : Ref sig .tc := ⟨.hbm, 568, rfl⟩
abbrev main_call4_cst_0 : Ref sig .tc := ⟨.hbm, 569, rfl⟩
abbrev main_call4_v1 : Ref sig .tc := ⟨.hbm, 570, rfl⟩
abbrev main_call4_v2 : Ref sig .tc := ⟨.hbm, 571, rfl⟩
abbrev main_call4_v3 : Ref sig .tc := ⟨.hbm, 572, rfl⟩
abbrev main_call4_v4 : Ref sig .tc := ⟨.hbm, 573, rfl⟩
abbrev main_call4_v5 : Ref sig .tc := ⟨.hbm, 574, rfl⟩
abbrev main_call4_v6 : Ref sig .tc := ⟨.hbm, 575, rfl⟩
abbrev main_call4_cst_1 : Ref sig .tc := ⟨.hbm, 576, rfl⟩
abbrev main_call4_v7 : Ref sig .tc := ⟨.hbm, 577, rfl⟩
abbrev main_call4_v8 : Ref sig .tc := ⟨.hbm, 578, rfl⟩
abbrev main_call4_v9 : Ref sig .tc := ⟨.hbm, 579, rfl⟩
abbrev main_call4_v10 : Ref sig .tc := ⟨.hbm, 580, rfl⟩
abbrev main_v504 : Ref sig .tc := ⟨.hbm, 581, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x2 : S_.BroadcastsInDim S800000x2 (![] : Fin 0 → Fin S800000x2.rank)
  bcast_S800000x2_S800000x2x1_0_1 : S800000x2.BroadcastsInDim S800000x2x1 (![0, 1] : Fin 2 → Fin S800000x2x1.rank)
  concatenates_S800000x2x1_S800000x2x1_S800000x2x2_d2 : Shape.Concatenates [S800000x2x1, S800000x2x1] S800000x2x2 2
  bcast_S2_S1x1x2_2 : S2.BroadcastsInDim S1x1x2 (![2] : Fin 1 → Fin S1x1x2.rank)
  bcast_S800000x2x1_S800000x2x2_0_1_2 : S800000x2x1.BroadcastsInDim S800000x2x2 (![0, 1, 2] : Fin 3 → Fin S800000x2x2.rank)
  bcast_S1x1x2_S800000x2x2_0_1_2 : S1x1x2.BroadcastsInDim S800000x2x2 (![0, 1, 2] : Fin 3 → Fin S800000x2x2.rank)
  bcast_S_S800000x2x2 : S_.BroadcastsInDim S800000x2x2 (![] : Fin 0 → Fin S800000x2x2.rank)
  bcast_S_S4 : S_.BroadcastsInDim S4 (![] : Fin 0 → Fin S4.rank)
  bcast_S4_S4x1_0 : S4.BroadcastsInDim S4x1 (![0] : Fin 1 → Fin S4x1.rank)
  concatenates_S4x1_S4x1_S4x2_d1 : Shape.Concatenates [S4x1, S4x1] S4x2 1
  bcast_S_S800000x4 : S_.BroadcastsInDim S800000x4 (![] : Fin 0 → Fin S800000x4.rank)
  bcast_S_S800000x25 : S_.BroadcastsInDim S800000x25 (![] : Fin 0 → Fin S800000x25.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S800000x1_S800000x4_0_1 : S800000x1.BroadcastsInDim S800000x4 (![0, 1] : Fin 2 → Fin S800000x4.rank)
  bcast_S800000x4_S800000x4x1_0_1 : S800000x4.BroadcastsInDim S800000x4x1 (![0, 1] : Fin 2 → Fin S800000x4x1.rank)
  concatenates_S800000x4x1_S800000x4x1_S800000x4x2_d2 : Shape.Concatenates [S800000x4x1, S800000x4x1] S800000x4x2 2
  bcast_S_S800000 : S_.BroadcastsInDim S800000 (![] : Fin 0 → Fin S800000.rank)
  bcast_S_S800000x16 : S_.BroadcastsInDim S800000x16 (![] : Fin 0 → Fin S800000x16.rank)
  slices_S800000x25_S800000x1_0_0 : S800000x25.Slices ![0, 0] S800000x1
  slices_S25x64x16_S1x64x16_0_0_0 : S25x64x16.Slices ![0, 0, 0] S1x64x16
  shapeCasts_S1x64x16_S64x16 : S1x64x16.ShapeCasts S64x16
  bcast_S800000x1_S800000x16_0_1 : S800000x1.BroadcastsInDim S800000x16 (![0, 1] : Fin 2 → Fin S800000x16.rank)
  slices_S800000x25_S800000x1_0_1 : S800000x25.Slices ![0, 1] S800000x1
  slices_S25x64x16_S1x64x16_1_0_0 : S25x64x16.Slices ![1, 0, 0] S1x64x16
  slices_S800000x25_S800000x1_0_2 : S800000x25.Slices ![0, 2] S800000x1
  slices_S25x64x16_S1x64x16_2_0_0 : S25x64x16.Slices ![2, 0, 0] S1x64x16
  slices_S800000x25_S800000x1_0_3 : S800000x25.Slices ![0, 3] S800000x1
  slices_S25x64x16_S1x64x16_3_0_0 : S25x64x16.Slices ![3, 0, 0] S1x64x16
  slices_S800000x25_S800000x1_0_4 : S800000x25.Slices ![0, 4] S800000x1
  slices_S25x64x16_S1x64x16_4_0_0 : S25x64x16.Slices ![4, 0, 0] S1x64x16
  slices_S800000x25_S800000x1_0_5 : S800000x25.Slices ![0, 5] S800000x1
  slices_S25x64x16_S1x64x16_5_0_0 : S25x64x16.Slices ![5, 0, 0] S1x64x16
  slices_S800000x25_S800000x1_0_6 : S800000x25.Slices ![0, 6] S800000x1
  slices_S25x64x16_S1x64x16_6_0_0 : S25x64x16.Slices ![6, 0, 0] S1x64x16
  slices_S800000x25_S800000x1_0_7 : S800000x25.Slices ![0, 7] S800000x1
  slices_S25x64x16_S1x64x16_7_0_0 : S25x64x16.Slices ![7, 0, 0] S1x64x16
  slices_S800000x25_S800000x1_0_8 : S800000x25.Slices ![0, 8] S800000x1
  slices_S25x64x16_S1x64x16_8_0_0 : S25x64x16.Slices ![8, 0, 0] S1x64x16
  slices_S800000x25_S800000x1_0_9 : S800000x25.Slices ![0, 9] S800000x1
  slices_S25x64x16_S1x64x16_9_0_0 : S25x64x16.Slices ![9, 0, 0] S1x64x16
  slices_S800000x25_S800000x1_0_10 : S800000x25.Slices ![0, 10] S800000x1
  slices_S25x64x16_S1x64x16_10_0_0 : S25x64x16.Slices ![10, 0, 0] S1x64x16
  slices_S800000x25_S800000x1_0_11 : S800000x25.Slices ![0, 11] S800000x1
  slices_S25x64x16_S1x64x16_11_0_0 : S25x64x16.Slices ![11, 0, 0] S1x64x16
  slices_S800000x25_S800000x1_0_12 : S800000x25.Slices ![0, 12] S800000x1
  slices_S25x64x16_S1x64x16_12_0_0 : S25x64x16.Slices ![12, 0, 0] S1x64x16
  slices_S800000x25_S800000x1_0_13 : S800000x25.Slices ![0, 13] S800000x1
  slices_S25x64x16_S1x64x16_13_0_0 : S25x64x16.Slices ![13, 0, 0] S1x64x16
  slices_S800000x25_S800000x1_0_14 : S800000x25.Slices ![0, 14] S800000x1
  slices_S25x64x16_S1x64x16_14_0_0 : S25x64x16.Slices ![14, 0, 0] S1x64x16
  slices_S800000x25_S800000x1_0_15 : S800000x25.Slices ![0, 15] S800000x1
  slices_S25x64x16_S1x64x16_15_0_0 : S25x64x16.Slices ![15, 0, 0] S1x64x16
  slices_S800000x25_S800000x1_0_16 : S800000x25.Slices ![0, 16] S800000x1
  slices_S25x64x16_S1x64x16_16_0_0 : S25x64x16.Slices ![16, 0, 0] S1x64x16
  slices_S800000x25_S800000x1_0_17 : S800000x25.Slices ![0, 17] S800000x1
  slices_S25x64x16_S1x64x16_17_0_0 : S25x64x16.Slices ![17, 0, 0] S1x64x16
  slices_S800000x25_S800000x1_0_18 : S800000x25.Slices ![0, 18] S800000x1
  slices_S25x64x16_S1x64x16_18_0_0 : S25x64x16.Slices ![18, 0, 0] S1x64x16
  slices_S800000x25_S800000x1_0_19 : S800000x25.Slices ![0, 19] S800000x1
  slices_S25x64x16_S1x64x16_19_0_0 : S25x64x16.Slices ![19, 0, 0] S1x64x16
  slices_S800000x25_S800000x1_0_20 : S800000x25.Slices ![0, 20] S800000x1
  slices_S25x64x16_S1x64x16_20_0_0 : S25x64x16.Slices ![20, 0, 0] S1x64x16
  slices_S800000x25_S800000x1_0_21 : S800000x25.Slices ![0, 21] S800000x1
  slices_S25x64x16_S1x64x16_21_0_0 : S25x64x16.Slices ![21, 0, 0] S1x64x16
  slices_S800000x25_S800000x1_0_22 : S800000x25.Slices ![0, 22] S800000x1
  slices_S25x64x16_S1x64x16_22_0_0 : S25x64x16.Slices ![22, 0, 0] S1x64x16
  slices_S800000x25_S800000x1_0_23 : S800000x25.Slices ![0, 23] S800000x1
  slices_S25x64x16_S1x64x16_23_0_0 : S25x64x16.Slices ![23, 0, 0] S1x64x16
  slices_S800000x25_S800000x1_0_24 : S800000x25.Slices ![0, 24] S800000x1
  slices_S25x64x16_S1x64x16_24_0_0 : S25x64x16.Slices ![24, 0, 0] S1x64x16
  bcast_S_S50000x16 : S_.BroadcastsInDim S50000x16 (![] : Fin 0 → Fin S50000x16.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x16_0_1 : S50000x1.BroadcastsInDim S50000x16 (![0, 1] : Fin 2 → Fin S50000x16.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S800000x7 : S_.BroadcastsInDim S800000x7 (![] : Fin 0 → Fin S800000x7.rank)
  slices_S25x16x7_S1x16x7_0_0_0 : S25x16x7.Slices ![0, 0, 0] S1x16x7
  shapeCasts_S1x16x7_S16x7 : S1x16x7.ShapeCasts S16x7
  bcast_S800000x1_S800000x7_0_1 : S800000x1.BroadcastsInDim S800000x7 (![0, 1] : Fin 2 → Fin S800000x7.rank)
  slices_S25x16x7_S1x16x7_1_0_0 : S25x16x7.Slices ![1, 0, 0] S1x16x7
  slices_S25x16x7_S1x16x7_2_0_0 : S25x16x7.Slices ![2, 0, 0] S1x16x7
  slices_S25x16x7_S1x16x7_3_0_0 : S25x16x7.Slices ![3, 0, 0] S1x16x7
  slices_S25x16x7_S1x16x7_4_0_0 : S25x16x7.Slices ![4, 0, 0] S1x16x7
  slices_S25x16x7_S1x16x7_5_0_0 : S25x16x7.Slices ![5, 0, 0] S1x16x7
  slices_S25x16x7_S1x16x7_6_0_0 : S25x16x7.Slices ![6, 0, 0] S1x16x7
  slices_S25x16x7_S1x16x7_7_0_0 : S25x16x7.Slices ![7, 0, 0] S1x16x7
  slices_S25x16x7_S1x16x7_8_0_0 : S25x16x7.Slices ![8, 0, 0] S1x16x7
  slices_S25x16x7_S1x16x7_9_0_0 : S25x16x7.Slices ![9, 0, 0] S1x16x7
  slices_S25x16x7_S1x16x7_10_0_0 : S25x16x7.Slices ![10, 0, 0] S1x16x7
  slices_S25x16x7_S1x16x7_11_0_0 : S25x16x7.Slices ![11, 0, 0] S1x16x7
  slices_S25x16x7_S1x16x7_12_0_0 : S25x16x7.Slices ![12, 0, 0] S1x16x7
  slices_S25x16x7_S1x16x7_13_0_0 : S25x16x7.Slices ![13, 0, 0] S1x16x7
  slices_S25x16x7_S1x16x7_14_0_0 : S25x16x7.Slices ![14, 0, 0] S1x16x7
  slices_S25x16x7_S1x16x7_15_0_0 : S25x16x7.Slices ![15, 0, 0] S1x16x7
  slices_S25x16x7_S1x16x7_16_0_0 : S25x16x7.Slices ![16, 0, 0] S1x16x7
  slices_S25x16x7_S1x16x7_17_0_0 : S25x16x7.Slices ![17, 0, 0] S1x16x7
  slices_S25x16x7_S1x16x7_18_0_0 : S25x16x7.Slices ![18, 0, 0] S1x16x7
  slices_S25x16x7_S1x16x7_19_0_0 : S25x16x7.Slices ![19, 0, 0] S1x16x7
  slices_S25x16x7_S1x16x7_20_0_0 : S25x16x7.Slices ![20, 0, 0] S1x16x7
  slices_S25x16x7_S1x16x7_21_0_0 : S25x16x7.Slices ![21, 0, 0] S1x16x7
  slices_S25x16x7_S1x16x7_22_0_0 : S25x16x7.Slices ![22, 0, 0] S1x16x7
  slices_S25x16x7_S1x16x7_23_0_0 : S25x16x7.Slices ![23, 0, 0] S1x16x7
  slices_S25x16x7_S1x16x7_24_0_0 : S25x16x7.Slices ![24, 0, 0] S1x16x7
  bcast_S_S50000x7 : S_.BroadcastsInDim S50000x7 (![] : Fin 0 → Fin S50000x7.rank)
  bcast_S50000x1_S50000x7_0_1 : S50000x1.BroadcastsInDim S50000x7 (![0, 1] : Fin 2 → Fin S50000x7.rank)
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  reducesTo_S50000x7_S50000_d1 : S50000x7.ReducesTo [1] S50000
  h_S_ : 0 < S_.numel
  gather_S800000x2x2_S4x2_S800000x4_0_12_n_n_12_1_80000011_wf : GatherDims.WF S800000x2x2 S4x2 S800000x4 [0] [1, 2] [] [1, 2] [] 1 ![800000, 1, 1]
  scatter_S800000x25_S800000x4x2_S800000x4_n_01_01_2_wf : ScatterDims.WF S800000x25 S800000x4x2 S800000x4 [] [0, 1] [0, 1] 2
  gather_S50000x64_S800000x1_S800000x64_1_0_n_n_0_1_164_wf : GatherDims.WF S50000x64 S800000x1 S800000x64 [1] [0] [] [0] [] 1 ![1, 64]
  dot_S800000x64_S64x16_S800000x16_1_0_0_1_n_n_wf : DotDims.WF S800000x64 S64x16 S800000x16 [1] [0] [0] [1] [] []
  scatter_S50000x16_S800000x1_S800000x16_1_0_0_1_wf : ScatterDims.WF S50000x16 S800000x1 S800000x16 [1] [0] [0] 1
  scatter_S50000_S800000x1_S800000_n_0_0_1_wf : ScatterDims.WF S50000 S800000x1 S800000 [] [0] [0] 1
  dot_S50000x64_S64x16_S50000x16_1_0_0_1_n_n_wf : DotDims.WF S50000x64 S64x16 S50000x16 [1] [0] [0] [1] [] []
  gather_S50000x16_S800000x1_S800000x16_1_0_n_n_0_1_116_wf : GatherDims.WF S50000x16 S800000x1 S800000x16 [1] [0] [] [0] [] 1 ![1, 16]
  dot_S800000x16_S16x7_S800000x7_1_0_0_1_n_n_wf : DotDims.WF S800000x16 S16x7 S800000x7 [1] [0] [0] [1] [] []
  scatter_S50000x7_S800000x1_S800000x7_1_0_0_1_wf : ScatterDims.WF S50000x7 S800000x1 S800000x7 [1] [0] [0] 1
  dot_S50000x16_S16x7_S50000x7_1_0_0_1_n_n_wf : DotDims.WF S50000x16 S16x7 S50000x7 [1] [0] [0] [1] [] []

variable [Facts₀]

def gather_S800000x2x2_S4x2_S800000x4_0_12_n_n_12_1_80000011 : GatherDims S800000x2x2 S4x2 S800000x4 where
  offsetDims := [0]
  collapsedSliceDims := [1, 2]
  operandBatchingDims := []
  startIndicesBatchingDims := []
  startIndexMap := [1, 2]
  indexVectorDim := 1
  sliceSizes := ![800000, 1, 1]
  wf := gather_S800000x2x2_S4x2_S800000x4_0_12_n_n_12_1_80000011_wf
def scatter_S800000x25_S800000x4x2_S800000x4_n_01_01_2 : ScatterDims S800000x25 S800000x4x2 S800000x4 where
  updateWindowDims := []
  insertedWindowDims := [0, 1]
  scatterDimsToOperandDims := [0, 1]
  indexVectorDim := 2
  wf := scatter_S800000x25_S800000x4x2_S800000x4_n_01_01_2_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x16_S800000x16_1_0_0_1_n_n : DotDims S800000x64 S64x16 S800000x16 where
  lhsContracting := [1]
  rhsContracting := [0]
  lhsNonContracting := [0]
  rhsNonContracting := [1]
  lhsBatch := []
  rhsBatch := []
  wf := dot_S800000x64_S64x16_S800000x16_1_0_0_1_n_n_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf
def gather_S50000x16_S800000x1_S800000x16_1_0_n_n_0_1_116 : GatherDims S50000x16 S800000x1 S800000x16 where
  offsetDims := [1]
  collapsedSliceDims := [0]
  operandBatchingDims := []
  startIndicesBatchingDims := []
  startIndexMap := [0]
  indexVectorDim := 1
  sliceSizes := ![1, 16]
  wf := gather_S50000x16_S800000x1_S800000x16_1_0_n_n_0_1_116_wf
def dot_S800000x16_S16x7_S800000x7_1_0_0_1_n_n : DotDims S800000x16 S16x7 S800000x7 where
  lhsContracting := [1]
  rhsContracting := [0]
  lhsNonContracting := [0]
  rhsNonContracting := [1]
  lhsBatch := []
  rhsBatch := []
  wf := dot_S800000x16_S16x7_S800000x7_1_0_0_1_n_n_wf
def scatter_S50000x7_S800000x1_S800000x7_1_0_0_1 : ScatterDims S50000x7 S800000x1 S800000x7 where
  updateWindowDims := [1]
  insertedWindowDims := [0]
  scatterDimsToOperandDims := [0]
  indexVectorDim := 1
  wf := scatter_S50000x7_S800000x1_S800000x7_1_0_0_1_wf
def dot_S50000x16_S16x7_S50000x7_1_0_0_1_n_n : DotDims S50000x16 S16x7 S50000x7 where
  lhsContracting := [1]
  rhsContracting := [0]
  lhsNonContracting := [0]
  rhsNonContracting := [1]
  lhsBatch := []
  rhsBatch := []
  wf := dot_S50000x16_S16x7_S50000x7_1_0_0_1_n_n_wf

class Facts : Prop extends Facts₀ where

variable [Facts]
-- ==== Proof.Spec.lean ====
/- One edge's message: acc (k + 1) = acc k + coeff k * ∑ f, x f * W k f o from zero, coeff k the sum of the edge's basis values whose flat index is k. -/
import Idealize.ShloMosaic.PureOps.Ideal
import Idealize.ShloMosaic.Lib.ValueIdx

noncomputable section

namespace Cert.Spec

open Idealize.ShloMosaic Idealize.ShloMosaic.ValueIdx
open scoped BigOperators

def coeffRow (b : Fin 4 → EReal) (w : Fin 4 → BitVec 32) (k : ℕ) : EReal :=
  ∑ j : Fin 4, if w j = BitVec.ofNat 32 k then b j else 0

def stepRow {Fi : ℕ} (x : Fin Fi → EReal) (b : Fin 4 → EReal) (w : Fin 4 → BitVec 32) (W : ℕ → Fin Fi → EReal)
    (acc : EReal) (k : ℕ) : EReal :=
  acc + coeffRow b w k * ∑ f : Fin Fi, x f * W k f

def msgRowN {Fi : ℕ} (x : Fin Fi → EReal) (b : Fin 4 → EReal) (w : Fin 4 → BitVec 32) (W : ℕ → Fin Fi → EReal) :
    ℕ → EReal
  | 0 => 0
  | n + 1 => stepRow x b w W (msgRowN x b w W n) n

theorem msgRowN_succ {Fi : ℕ} (x : Fin Fi → EReal) (b : Fin 4 → EReal) (w : Fin 4 → BitVec 32) (W : ℕ → Fin Fi → EReal)
    (n : ℕ) : msgRowN x b w W (n + 1) = msgRowN x b w W n + coeffRow b w n * ∑ f : Fin Fi, x f * W n f := rfl

def wCol {Fi Fo : ℕ} (W : (⟨3, ![25, Fi, Fo]⟩ : Shape).Idx → EReal) (o : Fin Fo) (k : ℕ) (f : Fin Fi) : EReal :=
  if h : k < 25 then W (ix3 ⟨k, h⟩ f o) else 0

theorem wCol_lt {Fi Fo : ℕ} (W : (⟨3, ![25, Fi, Fo]⟩ : Shape).Idx → EReal) (o : Fin Fo) (k : ℕ) (h : k < 25) (f : Fin Fi) :
    wCol W o k f = W (ix3 ⟨k, h⟩ f o) := dif_pos h

def msgAt {E Fi Fo : ℕ} (xj : (⟨2, ![E, Fi]⟩ : Shape).Idx → EReal) (basis : (⟨2, ![E, 4]⟩ : Shape).Idx → EReal)
    (wi : (⟨2, ![E, 4]⟩ : Shape).Idx → BitVec 32) (W : (⟨3, ![25, Fi, Fo]⟩ : Shape).Idx → EReal)
    (n : ℕ) (e : Fin E) (o : Fin Fo) : EReal :=
  msgRowN (fun f => xj (ix2 e f)) (fun j => basis (ix2 e j)) (fun j => wi (ix2 e j)) (wCol W o) n

theorem msgAt_zero {E Fi Fo : ℕ} (xj : (⟨2, ![E, Fi]⟩ : Shape).Idx → EReal) (basis : (⟨2, ![E, 4]⟩ : Shape).Idx → EReal)
    (wi : (⟨2, ![E, 4]⟩ : Shape).Idx → BitVec 32) (W : (⟨3, ![25, Fi, Fo]⟩ : Shape).Idx → EReal) (e : Fin E) (o : Fin Fo) :
    msgAt xj basis wi W 0 e o = 0 := rfl

theorem msgAt_succ {E Fi Fo : ℕ} (xj : (⟨2, ![E, Fi]⟩ : Shape).Idx → EReal) (basis : (⟨2, ![E, 4]⟩ : Shape).Idx → EReal)
    (wi : (⟨2, ![E, 4]⟩ : Shape).Idx → BitVec 32) (W : (⟨3, ![25, Fi, Fo]⟩ : Shape).Idx → EReal)
    (n : ℕ) (hn : n < 25) (e : Fin E) (o : Fin Fo) :
    msgAt xj basis wi W (n + 1) e o
      = msgAt xj basis wi W n e o
        + (∑ j : Fin 4, if wi (ix2 e j) = BitVec.ofNat 32 n then basis (ix2 e j) else 0)
          * ∑ f : Fin Fi, xj (ix2 e f) * W (ix3 ⟨n, hn⟩ f o) := by
  unfold msgAt
  rw [msgRowN_succ]
  simp only [coeffRow, wCol_lt W o n hn]

theorem msgAt_rows {E T Fi Fo : ℕ} (xj : (⟨2, ![E, Fi]⟩ : Shape).Idx → EReal) (basis : (⟨2, ![E, 4]⟩ : Shape).Idx → EReal)
    (wi : (⟨2, ![E, 4]⟩ : Shape).Idx → BitVec 32) (W : (⟨3, ![25, Fi, Fo]⟩ : Shape).Idx → EReal)
    (xb : (⟨2, ![T, Fi]⟩ : Shape).Idx → EReal) (bb : (⟨2, ![T, 4]⟩ : Shape).Idx → EReal)
    (wb : (⟨2, ![T, 4]⟩ : Shape).Idx → BitVec 32) (e : Fin E) (p : Fin T)
    (hx : ∀ f, xb (ix2 p f) = xj (ix2 e f)) (hb : ∀ j, bb (ix2 p j) = basis (ix2 e j)) (hw : ∀ j, wb (ix2 p j) = wi (ix2 e j))
    (n : ℕ) (o : Fin Fo) : msgAt xb bb wb W n p o = msgAt xj basis wi W n e o := by
  unfold msgAt
  simp only [hx, hb, hw]

end Cert.Spec

end
-- ==== Proof.LibDotPlain.lean ====
/- A matrix product with one contracted axis and no batch axis, read at an index, is the sum over that axis. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

theorem getElem_zero_of_eq_singleton {α : Type} {l : List α} {c : α} (h : l = [c]) (hp : 0 < l.length) : l[0] = c := by
  subst h; rfl

theorem contr_rank_one {sl sr so : Shape} (d : DotDims sl sr so) {c : Fin sl.rank} (hlc : d.lhsContracting = [c]) :
    d.contr.rank = 1 := by
  rw [d.rank_contr, hlc]; rfl

theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

private theorem val_congr {s : Shape} (j : s.Idx) (p q : Nat) (hp : p < s.rank) (hq : q < s.rank) (h : p = q) :
    (j ⟨p, hp⟩).val = (j ⟨q, hq⟩).val := by
  subst h; rfl

theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc

  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

end Cert.DotPlain

end
-- ==== Proof.KStep.lean ====
/- One accumulation step of a block, at an entry: the basis values masked by (index = k) and summed along the row are coeff k. -/
import proofs.«409647_j39943195853539_2_alg».proof.Proof.Spec
import proofs.«409647_j39943195853539_2_alg».proof.Proof.LibDotPlain
import Idealize.ShloMosaic.PureOps.Ideal.Laws
import Idealize.ShloMosaic.Lib.Pipeline.Value
import Idealize.ShloMosaic.Lib.ValueLayout

noncomputable section

namespace Cert.KStep

open Idealize.ShloMosaic Idealize.ShloMosaic.ValueIdx
open scoped BigOperators

theorem mask_scalar (w k : BitVec 32) :
    (FloatOps.sitofp (F := Ideal) .f32 ((IntOp.cmpi .eq w k).setWidth 32) : EReal) = if w = k then 1 else 0 := by
  show ((((IntOp.cmpi .eq w k).setWidth 32).toInt : ℝ) : EReal) = _
  by_cases h : w = k
  · have hb : (w == k) = true := beq_iff_eq.mpr h
    have e : IntOp.cmpi .eq w k = 1#1 := by
      show BitVec.ofBool (w == k) = 1#1
      rw [hb]; rfl
    have e1 : ((1#1 : BitVec 1).setWidth 32).toInt = 1 := by decide
    rw [if_pos h, e, e1, Int.cast_one, EReal.coe_one]
  · have hb : (w == k) = false := beq_eq_false_iff_ne.mpr h
    have e : IntOp.cmpi .eq w k = 0#1 := by
      show BitVec.ofBool (w == k) = 0#1
      rw [hb]; rfl
    have e0 : ((0#1 : BitVec 1).setWidth 32).toInt = 0 := by decide
    rw [if_neg h, e, e0, Int.cast_zero, EReal.coe_zero]

theorem mul_mask (b : EReal) (w k : BitVec 32) :
    b * (FloatOps.sitofp (F := Ideal) .f32 ((IntOp.cmpi .eq w k).setWidth 32) : EReal) = if w = k then b else 0 := by
  rw [mask_scalar]
  by_cases h : w = k
  · rw [if_pos h, if_pos h, mul_one]
  · rw [if_neg h, if_neg h, mul_zero]

section Layout
variable {α : Type}

theorem lift_ix1 {T : ℕ} (red : Shape.Reduces ⟨2, ![T, 4]⟩ [1] ⟨1, ![T]⟩) (p : Fin T) (j : Fin 4) :
    red.lift (ix1 p) j = ix2 p j := by
  funext c
  match c with
  | ⟨0, _⟩ => exact Fin.ext rfl
  | ⟨1, _⟩ => exact Fin.ext rfl

theorem shapeCast_a_a1_apply {T : ℕ} (v : (⟨1, ![T]⟩ : Shape).Idx → α) (h : (⟨1, ![T]⟩ : Shape).ShapeCasts ⟨2, ![T, 1]⟩)
    (p : Fin T) (u : Fin 1) : shapeCast ⟨2, ![T, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

theorem broadcastTo_a1_ab_apply {T Fo : ℕ} (v : (⟨2, ![T, 1]⟩ : Shape).Idx → α)
    (h : (⟨2, ![T, 1]⟩ : Shape).Broadcasts ⟨2, ![T, Fo]⟩) (p : Fin T) (o : Fin Fo) :
    broadcastTo ⟨2, ![T, Fo]⟩ v h (ix2 p o) = v (ix2 p (0 : Fin 1)) := by
  refine broadcastTo_apply v h (ix2 p o) (ix2 p (0 : Fin 1)) fun ax => ?_
  match ax with
  | ⟨0, _⟩ =>
    show p.val = if T = 1 then 0 else p.val
    split
    · have := p.isLt; omega
    · rfl
  | ⟨1, _⟩ => rfl

theorem wslice_apply {Fi Fo : ℕ} (W : (⟨3, ![25, Fi, Fo]⟩ : Shape).Idx → α) (k : ℕ) (hk : k < 25)
    (sl : (⟨3, ![25, Fi, Fo]⟩ : Shape).Slices ![k, 0, 0] ⟨3, ![1, Fi, Fo]⟩)
    (sc : (⟨3, ![1, Fi, Fo]⟩ : Shape).ShapeCasts ⟨2, ![Fi, Fo]⟩) (f : Fin Fi) (o : Fin Fo) :
    shapeCast ⟨2, ![Fi, Fo]⟩ (extractStridedSlice ⟨3, ![1, Fi, Fo]⟩ ![k, 0, 0] W sl) sc (ix2 f o) = W (ix3 ⟨k, hk⟩ f o) := by
  rw [shapeCast_1ab_ab_apply]
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

end Layout

theorem coeff_at {T : ℕ} (basis : FVec Ideal ⟨2, ![T, 4]⟩ .f32) (wi : IVec ⟨2, ![T, 4]⟩ 32) (k : BitVec 32) (h132 : 1 < 32)
    (red : Shape.Reduces ⟨2, ![T, 4]⟩ [1] ⟨1, ![T]⟩) (hφ : FKind.Formats .f32)
    (hacc : (0x00000000#32 : BitVec FTy.f32.bits) = FKind.add.neutral .f32 hφ) (p : Fin T) :
    multiReduction (F := Ideal) .add [1] ⟨1, ![T]⟩
        (mulf basis (sitofp .f32 (extui 32 (cmpi .eq wi (broadcast ⟨2, ![T, 4]⟩ k)) h132))) 0x00000000#32 red hφ hacc (ix1 p)
      = ∑ j : Fin 4, if wi (ix2 p j) = k then basis (ix2 p j) else 0 := by
  refine (Ideal.multiReduction_add_single _ _ red hφ hacc (ix1 p)).trans ?_
  refine Finset.sum_congr rfl fun (j : Fin 4) _ => ?_
  rw [lift_ix1 red p j]
  exact mul_mask (basis (ix2 p j)) (wi (ix2 p j)) k

theorem step_msg {T Fi Fo : ℕ}
    (d : DotDims ⟨2, ![T, Fi]⟩ ⟨2, ![Fi, Fo]⟩ ⟨2, ![T, Fo]⟩)
    (hlb : d.lhsBatch = []) (hrb : d.rhsBatch = []) (hlc : d.lhsContracting = [1]) (hrc : d.rhsContracting = [0])
    (hln : d.lhsNonContracting = [0]) (hrn : d.rhsNonContracting = [1])
    (xj : FVec Ideal ⟨2, ![T, Fi]⟩ .bf16) (basis : FVec Ideal ⟨2, ![T, 4]⟩ .f32) (wi : IVec ⟨2, ![T, 4]⟩ 32)
    (W : FVec Ideal ⟨3, ![25, Fi, Fo]⟩ .bf16) (acc : FVec Ideal ⟨2, ![T, Fo]⟩ .f32)
    (n : ℕ) (hn : n < 25) (h132 : 1 < 32)
    (red : Shape.Reduces ⟨2, ![T, 4]⟩ [1] ⟨1, ![T]⟩) (hφ : FKind.Formats .f32)
    (hacc : (0x00000000#32 : BitVec FTy.f32.bits) = FKind.add.neutral .f32 hφ)
    (sc1 : (⟨1, ![T]⟩ : Shape).ShapeCasts ⟨2, ![T, 1]⟩)
    (sl : (⟨3, ![25, Fi, Fo]⟩ : Shape).Slices ![n, 0, 0] ⟨3, ![1, Fi, Fo]⟩)
    (sc2 : (⟨3, ![1, Fi, Fo]⟩ : Shape).ShapeCasts ⟨2, ![Fi, Fo]⟩)
    (bc : (⟨2, ![T, 1]⟩ : Shape).Broadcasts ⟨2, ![T, Fo]⟩)
    (p : Fin T) (o : Fin Fo)
    (hprev : acc (ix2 p o) = Cert.Spec.msgAt xj basis wi W n p o) :
    addf acc
        (mulf
          (broadcastTo ⟨2, ![T, Fo]⟩
            (shapeCast ⟨2, ![T, 1]⟩
              (multiReduction (F := Ideal) .add [1] ⟨1, ![T]⟩
                (mulf basis (sitofp .f32 (extui 32 (cmpi .eq wi (broadcast ⟨2, ![T, 4]⟩ (BitVec.ofNat 32 n))) h132)))
                0x00000000#32 red hφ hacc)
              sc1)
            bc)
          (matmul d none xj (shapeCast ⟨2, ![Fi, Fo]⟩ (extractStridedSlice ⟨3, ![1, Fi, Fo]⟩ ![n, 0, 0] W sl) sc2)
            (constant ⟨2, ![T, Fo]⟩ .f32 0x00000000#32)))
        (ix2 p o)
      = Cert.Spec.msgAt xj basis wi W (n + 1) p o := by
  rw [Cert.Spec.msgAt_succ xj basis wi W n hn p o, ← hprev, addf_apply, mulf_apply]
  refine congrArg₂ (fun a b => acc (ix2 p o) + a * b) ?_ ?_
  · exact (broadcastTo_a1_ab_apply _ bc p o).trans
      ((shapeCast_a_a1_apply _ sc1 p 0).trans (coeff_at basis wi (BitVec.ofNat 32 n) h132 red hφ hacc p))
  · exact (Cert.DotPlain.matmul_zero_rows_cols d hlb hrb hlc hrc hln hrn none xj _ p o).trans
      (Finset.sum_congr rfl fun f _ => by rw [wslice_apply W n hn sl sc2 f o])

theorem base_msg {T Fi Fo : ℕ} (xj : FVec Ideal ⟨2, ![T, Fi]⟩ .bf16) (basis : FVec Ideal ⟨2, ![T, 4]⟩ .f32)
    (wi : IVec ⟨2, ![T, 4]⟩ 32) (W : FVec Ideal ⟨3, ![25, Fi, Fo]⟩ .bf16) (p : Fin T) (o : Fin Fo) :
    (broadcast ⟨2, ![T, Fo]⟩ (Scalar.ofBits (F := Ideal) .f32 0x00000000#32) : FVec Ideal ⟨2, ![T, Fo]⟩ .f32) (ix2 p o)
      = Cert.Spec.msgAt xj basis wi W 0 p o := by
  rw [Cert.Spec.msgAt_zero, broadcast_apply]
  exact Ideal.ofBits_zero_f32

end Cert.KStep

end
-- ==== Proof.KBody0.lean ====
/- The first region's block result at an entry is the recurrence over the block's own rows. -/
import proofs.«409647_j39943195853539_2_alg».proof.Proof.Gen.KernelIdeal.Frame
import proofs.«409647_j39943195853539_2_alg».proof.Proof.Spec
import proofs.«409647_j39943195853539_2_alg».proof.Proof.LibDotPlain
import proofs.«409647_j39943195853539_2_alg».proof.Proof.KStep
import Idealize.ShloMosaic.PureOps.Ideal.Laws
import Idealize.ShloMosaic.Lib.Pipeline.Value
import Idealize.ShloMosaic.Lib.ValueLayout

noncomputable section

namespace Cert.KBody0

open Idealize.ShloMosaic Idealize.ShloMosaic.ValueIdx Cert.KernelIdeal Cert.KernelIdeal.Gen
open scoped BigOperators

theorem zero_off2 : (![0, 0] : Fin 2 → Nat) = fun _ => 0 := funext fun a => by
  match a with
  | ⟨0, _⟩ => rfl
  | ⟨1, _⟩ => rfl

theorem zero_off3 : (![0, 0, 0] : Fin 3 → Nat) = fun _ => 0 := funext fun a => by
  match a with
  | ⟨0, _⟩ => rfl
  | ⟨1, _⟩ => rfl
  | ⟨2, _⟩ => rfl

theorem out0_4_at (x0 : Vec Ideal S4000x64 .bf16) (x1 : Vec Ideal S4000x4 .f32) (x2 : Vec Ideal S4000x4 .i32)
    (x3 : Vec Ideal S25x64x16 .bf16) (p : Fin 4000) (o : Fin 16) :
    out0_4 (F := Ideal) x0 x1 x2 x3 (ix2 p o) = Cert.Spec.msgAt x0 x1 x2 x3 25 p o := by
  unfold out0_4
  rw [View.canon_unit_zero zero_off2]
  simp only [View.ld_unit_zero (S := S4000x64) zero_off2, View.ld_unit_zero (S := S4000x4) zero_off2,
    View.ld_unit_zero (S := S25x64x16) zero_off3]
  unfold k0_pay17 k0_pay16 k0_pay15 k0_pay14 k0_pay13 k0_pay12 k0_pay11 k0_pay10 k0_pay9 k0_pay8 k0_pay7 k0_pay6 k0_pay5
  have e1 : k0_pay1 (F := Ideal) x0 = x0 := shapeCast_self _ _
  have e2 : k0_pay2 (F := Ideal) x1 = x1 := shapeCast_self _ _
  have e3 : k0_pay3 (F := Ideal) x2 = x2 := shapeCast_self _ _
  have e4 : k0_pay4 (F := Ideal) x3 = x3 := shapeCast_self _ _
  simp only [e1, e2, e3, e4]

  iterate 25
    refine Cert.KStep.step_msg (T := 4000) (Fi := 64) (Fo := 16) dot_S4000x64_S64x16_S4000x16_1_0_0_1_n_n rfl rfl rfl rfl rfl rfl
      x0 x1 x2 x3 _ _ (by decide) _ _ _ _ _ _ _ _ p o ?_
  exact Cert.KStep.base_msg x0 x1 x2 x3 p o

end Cert.KBody0

end
-- ==== Proof.KBody1.lean ====
/- The second region's block result at an entry is the recurrence over the block's own rows. -/
import proofs.«409647_j39943195853539_2_alg».proof.Proof.Gen.KernelIdeal.Frame
import proofs.«409647_j39943195853539_2_alg».proof.Proof.Spec
import proofs.«409647_j39943195853539_2_alg».proof.Proof.LibDotPlain
import proofs.«409647_j39943195853539_2_alg».proof.Proof.KStep
import Idealize.ShloMosaic.PureOps.Ideal.Laws
import Idealize.ShloMosaic.Lib.Pipeline.Value
import Idealize.ShloMosaic.Lib.ValueLayout

noncomputable section

namespace Cert.KBody1

open Idealize.ShloMosaic Idealize.ShloMosaic.ValueIdx Cert.KernelIdeal Cert.KernelIdeal.Gen
open scoped BigOperators

theorem zero_off2 : (![0, 0] : Fin 2 → Nat) = fun _ => 0 := funext fun a => by
  match a with
  | ⟨0, _⟩ => rfl
  | ⟨1, _⟩ => rfl

theorem zero_off3 : (![0, 0, 0] : Fin 3 → Nat) = fun _ => 0 := funext fun a => by
  match a with
  | ⟨0, _⟩ => rfl
  | ⟨1, _⟩ => rfl
  | ⟨2, _⟩ => rfl

theorem out1_4_at (x0 : Vec Ideal S4000x16 .bf16) (x1 : Vec Ideal S4000x4 .f32) (x2 : Vec Ideal S4000x4 .i32)
    (x3 : Vec Ideal S25x16x7 .bf16) (p : Fin 4000) (o : Fin 7) :
    out1_4 (F := Ideal) x0 x1 x2 x3 (ix2 p o) = Cert.Spec.msgAt x0 x1 x2 x3 25 p o := by
  unfold out1_4
  rw [View.canon_unit_zero zero_off2]
  simp only [View.ld_unit_zero (S := S4000x16) zero_off2, View.ld_unit_zero (S := S4000x4) zero_off2,
    View.ld_unit_zero (S := S25x16x7) zero_off3]
  unfold k1_pay17 k1_pay16 k1_pay15 k1_pay14 k1_pay13 k1_pay12 k1_pay11 k1_pay10 k1_pay9 k1_pay8 k1_pay7 k1_pay6 k1_pay5
  have e1 : k1_pay1 (F := Ideal) x0 = x0 := shapeCast_self _ _
  have e2 : k1_pay2 (F := Ideal) x1 = x1 := shapeCast_self _ _
  have e3 : k1_pay3 (F := Ideal) x2 = x2 := shapeCast_self _ _
  have e4 : k1_pay4 (F := Ideal) x3 = x3 := shapeCast_self _ _
  simp only [e1, e2, e3, e4]

  iterate 25
    refine Cert.KStep.step_msg (T := 4000) (Fi := 16) (Fo := 7) dot_S4000x16_S16x7_S4000x7_1_0_0_1_n_n rfl rfl rfl rfl rfl rfl
      x0 x1 x2 x3 _ _ (by decide) _ _ _ _ _ _ _ _ p o ?_
  exact Cert.KStep.base_msg x0 x1 x2 x3 p o

end Cert.KBody1

end
-- ==== Proof.KArr.lean ====
/- The blocks of 4000 rows tile the 800000 edges, so each region's whole output array is the recurrence, row by row, of the arrays the region was entered with. -/
import proofs.«409647_j39943195853539_2_alg».proof.Proof.Gen.KernelIdeal.Frame
import proofs.«409647_j39943195853539_2_alg».proof.Proof.Spec
import proofs.«409647_j39943195853539_2_alg».proof.Proof.KBody0
import proofs.«409647_j39943195853539_2_alg».proof.Proof.KBody1
import Idealize.ShloMosaic.Lib.Pipeline.Value

noncomputable section

namespace Cert.KArr

open Idealize.ShloMosaic Idealize.ShloMosaic.ValueIdx Idealize.ShloMosaic.TcCoe Idealize.SL.Sem Cert.KernelIdeal Cert.KernelIdeal.Gen
open scoped BigOperators

theorem msgAt_block {E T Fi Fo : ℕ} (xj : (⟨2, ![E, Fi]⟩ : Shape).Idx → EReal) (basis : (⟨2, ![E, 4]⟩ : Shape).Idx → EReal)
    (wi : (⟨2, ![E, 4]⟩ : Shape).Idx → BitVec 32) (W : (⟨3, ![25, Fi, Fo]⟩ : Shape).Idx → EReal)
    (xb : (⟨2, ![T, Fi]⟩ : Shape).Idx → EReal) (bb : (⟨2, ![T, 4]⟩ : Shape).Idx → EReal)
    (wb : (⟨2, ![T, 4]⟩ : Shape).Idx → BitVec 32) (Wb : (⟨3, ![25, Fi, Fo]⟩ : Shape).Idx → EReal) (e : Fin E) (p : Fin T)
    (hx : ∀ f, xb (ix2 p f) = xj (ix2 e f)) (hb : ∀ j, bb (ix2 p j) = basis (ix2 e j)) (hw : ∀ j, wb (ix2 p j) = wi (ix2 e j))
    (hW : ∀ k f o, Wb (ix3 k f o) = W (ix3 k f o))
    (n : ℕ) (o : Fin Fo) : Cert.Spec.msgAt xb bb wb Wb n p o = Cert.Spec.msgAt xj basis wi W n e o := by
  have hWb : Wb = W := funext fun i => by rw [eq_ix3 i]; exact hW _ _ _
  rw [hWb]
  exact Cert.Spec.msgAt_rows xj basis wi W xb bb wb e p hx hb hw n o

variable (m : (ℓ : Loc nD τ sig) → Buf (Elt Ideal) ℓ) (ρ : Dev nD → PrngReg)

local macro "not_written " ops:ident : tactic => `(tactic|
  (refine List.forall_iff_forall_mem.mp ?_
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

theorem W12_of_W6 (c : Dev nD) (b : Ref sig .tc)
    (h0 : ∀ op ∈ (hostOps1 : List (HloOp τ sig (Elt Ideal))), (Proc.devRef .tc b : DevRef τ sig) ∉ op.writes)
    (h1 : ∀ op ∈ (hostOps1_1 : List (HloOp τ sig (Elt Ideal))), (Proc.devRef .tc b : DevRef τ sig) ∉ op.writes)
    (h2 : ∀ op ∈ (hostOps1_2 : List (HloOp τ sig (Elt Ideal))), (Proc.devRef .tc b : DevRef τ sig) ∉ op.writes)
    (h3 : ∀ op ∈ (hostOps1_3 : List (HloOp τ sig (Elt Ideal))), (Proc.devRef .tc b : DevRef τ sig) ∉ op.writes)
    (h4 : ∀ op ∈ (hostOps1_4 : List (HloOp τ sig (Elt Ideal))), (Proc.devRef .tc b : DevRef τ sig) ∉ op.writes)
    (h5 : ∀ op ∈ (hostOps1_5 : List (HloOp τ sig (Elt Ideal))), (Proc.devRef .tc b : DevRef τ sig) ∉ op.writes) :
    W12 (F := Ideal) m ρ c (Proc.devRef .tc b) = W6 (F := Ideal) m ρ c (Proc.devRef .tc b) :=
  calc W12 (F := Ideal) m ρ c (Proc.devRef .tc b)
    _ = W11 (F := Ideal) m ρ c (Proc.devRef .tc b) := StableHlo.after_of_forall_not_mem _ _ h5
    _ = W10 (F := Ideal) m ρ c (Proc.devRef .tc b) := StableHlo.after_of_forall_not_mem _ _ h4
    _ = W9 (F := Ideal) m ρ c (Proc.devRef .tc b) := StableHlo.after_of_forall_not_mem _ _ h3
    _ = W8 (F := Ideal) m ρ c (Proc.devRef .tc b) := StableHlo.after_of_forall_not_mem _ _ h2
    _ = W7 (F := Ideal) m ρ c (Proc.devRef .tc b) := StableHlo.after_of_forall_not_mem _ _ h1
    _ = W6 (F := Ideal) m ρ c (Proc.devRef .tc b) := StableHlo.after_of_forall_not_mem _ _ h0

theorem W6_in (c : Dev nD) (w : Fin cfg0.W) (hin : (cfg0.win w).isOut = false) :
    W6 (F := Ideal) m ρ c (Proc.devRef .tc (Pipeline.arrRef spec0 w))
      = W5 (F := Ideal) m ρ c (Proc.devRef .tc (Pipeline.arrRef spec0 w)) := by
  rw [W6_arr, (dat0 (V5 (F := Ideal) m ρ) c).arrAt_in w hin, A_eq0]

theorem W12_v43 (c : Dev nD) :
    W12 (F := Ideal) m ρ c (Proc.devRef .tc main_v43) = W5 (F := Ideal) m ρ c (Proc.devRef .tc main_v43) :=
  (W12_of_W6 m ρ c main_v43 (by not_written hostOps1) (by not_written hostOps1_1) (by not_written hostOps1_2)
    (by not_written hostOps1_3) (by not_written hostOps1_4) (by not_written hostOps1_5)).trans (W6_in m ρ c 1 rfl)

theorem W12_v68 (c : Dev nD) :
    W12 (F := Ideal) m ρ c (Proc.devRef .tc main_v68) = W5 (F := Ideal) m ρ c (Proc.devRef .tc main_v68) :=
  (W12_of_W6 m ρ c main_v68 (by not_written hostOps1) (by not_written hostOps1_1) (by not_written hostOps1_2)
    (by not_written hostOps1_3) (by not_written hostOps1_4) (by not_written hostOps1_5)).trans (W6_in m ρ c 2 rfl)

theorem W6_v3 (c : Dev nD) :
    W6 (F := Ideal) m ρ c (Proc.devRef .tc main_v3) = W5 (F := Ideal) m ρ c (Proc.devRef .tc main_v3) :=
  W6_of_ne m ρ c main_v3 (by decide)

theorem W13_v3 (c : Dev nD) :
    W13 (F := Ideal) m ρ c (Proc.devRef .tc main_v3) = W5 (F := Ideal) m ρ c (Proc.devRef .tc main_v3) :=
  (W13_of_ne m ρ c main_v3 (by decide)).trans <|
    (W12_of_W6 m ρ c main_v3 (by not_written hostOps1) (by not_written hostOps1_1) (by not_written hostOps1_2)
      (by not_written hostOps1_3) (by not_written hostOps1_4) (by not_written hostOps1_5)).trans (W6_v3 m ρ c)

section Region0

variable (V : (c : Dev nD) → (b : Ref sig .tc) → Buf (Elt Ideal) ((c : Thread nD τ).loc b))

theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = t.val ∧ win0_4.index t (1 : Fin 2) = 0 :=
  (by decide +kernel : ∀ t : Fin grid0.N, _)

theorem xblk0_apply (c : Dev nD) (t : Fin cfg0.N) (p : Fin 4000) (f : Fin 64) (e : Fin 800000)
    (he : e.val = 4000 * t.val + p.val) :
    (iblk0 V c 0 t : Vec Ideal S4000x64 .bf16) (ix2 p f) = (V c main_v70 : S800000x64.Idx → EReal) (ix2 e f) := by
  obtain ⟨h0, h1, -⟩ := idx0 t
  unfold iblk0
  rw [View.read_apply]
  show V c main_v70 _ = V c main_v70 _
  congr 1
  funext a
  apply Fin.ext
  match a with
  | ⟨0, _⟩ => show win0_0.index t (0 : Fin 2) * 4000 + 1 * p.val = e.val; rw [h0, he]; omega
  | ⟨1, _⟩ => show win0_0.index t (1 : Fin 2) * 64 + 1 * f.val = f.val; rw [h1]; omega

theorem bblk0_apply (c : Dev nD) (t : Fin cfg0.N) (p : Fin 4000) (j : Fin 4) (e : Fin 800000)
    (he : e.val = 4000 * t.val + p.val) :
    (iblk0 V c 1 t : Vec Ideal S4000x4 .f32) (ix2 p j) = (V c main_v43 : S800000x4.Idx → EReal) (ix2 e j) := by
  obtain ⟨-, -, h0, h1, -⟩ := idx0 t
  unfold iblk0
  rw [View.read_apply]
  show V c main_v43 _ = V c main_v43 _
  congr 1
  funext a
  apply Fin.ext
  match a with
  | ⟨0, _⟩ => show win0_1.index t (0 : Fin 2) * 4000 + 1 * p.val = e.val; rw [h0, he]; omega
  | ⟨1, _⟩ => show win0_1.index t (1 : Fin 2) * 4 + 1 * j.val = j.val; rw [h1]; omega

theorem iblk0_apply (c : Dev nD) (t : Fin cfg0.N) (p : Fin 4000) (j : Fin 4) (e : Fin 800000)
    (he : e.val = 4000 * t.val + p.val) :
    (iblk0 V c 2 t : Vec Ideal S4000x4 .i32) (ix2 p j) = (V c main_v68 : S800000x4.Idx → BitVec 32) (ix2 e j) := by
  obtain ⟨-, -, -, -, h0, h1, -⟩ := idx0 t
  unfold iblk0
  rw [View.read_apply]
  show V c main_v68 _ = V c main_v68 _
  congr 1
  funext a
  apply Fin.ext
  match a with
  | ⟨0, _⟩ => show win0_2.index t (0 : Fin 2) * 4000 + 1 * p.val = e.val; rw [h0, he]; omega
  | ⟨1, _⟩ => show win0_2.index t (1 : Fin 2) * 4 + 1 * j.val = j.val; rw [h1]; omega

theorem wblk0_apply (c : Dev nD) (t : Fin cfg0.N) (q : Fin 25) (f : Fin 64) (o : Fin 16) :
    (iblk0 V c 3 t : Vec Ideal S25x64x16 .bf16) (ix3 q f o) = (V c main_v71 : S25x64x16.Idx → EReal) (ix3 q f o) := by
  obtain ⟨-, -, -, -, -, -, h0, h1, h2, -⟩ := idx0 t
  unfold iblk0
  rw [View.read_apply]
  show V c main_v71 _ = V c main_v71 _
  congr 1
  funext a
  apply Fin.ext
  match a with
  | ⟨0, _⟩ => show win0_3.index t (0 : Fin 3) * 25 + 1 * q.val = q.val; rw [h0]; omega
  | ⟨1, _⟩ => show win0_3.index t (1 : Fin 3) * 64 + 1 * f.val = f.val; rw [h1]; omega
  | ⟨2, _⟩ => show win0_3.index t (2 : Fin 3) * 16 + 1 * o.val = o.val; rw [h2]; omega

def G0 (c : Dev nD) : S800000x16.Idx → EReal := fun i =>
  Cert.Spec.msgAt (V c main_v70 : S800000x64.Idx → EReal) (V c main_v43 : S800000x4.Idx → EReal)
    (V c main_v68 : S800000x4.Idx → BitVec 32) (V c main_v71 : S25x64x16.Idx → EReal) 25 (i 0) (i 1)

theorem G0_apply (c : Dev nD) (e : Fin 800000) (o : Fin 16) :
    G0 V c (ix2 e o) = Cert.Spec.msgAt (V c main_v70 : S800000x64.Idx → EReal) (V c main_v43 : S800000x4.Idx → EReal)
      (V c main_v68 : S800000x4.Idx → BitVec 32) (V c main_v71 : S25x64x16.Idx → EReal) 25 e o := rfl

theorem point0 (c : Dev nD) (t : Fin cfg0.N) (y : S4000x16.Idx) (i : S800000x16.Idx)
    (h0 : (i 0).val = 4000 * t.val + (y 0).val) (h1 : (i 1).val = (y 1).val) :
    out0_4 (F := Ideal) (iblk0 V c 0 t) (iblk0 V c 1 t) (iblk0 V c 2 t) (iblk0 V c 3 t) y = G0 V c i := by
  obtain ⟨p, o, rfl⟩ : ∃ (p : Fin 4000) (o : Fin 16), y = ix2 p o := ⟨y 0, y 1, eq_ix2 y⟩
  obtain ⟨e, o', rfl⟩ : ∃ (e : Fin 800000) (o' : Fin 16), i = ix2 e o' := ⟨i 0, i 1, eq_ix2 i⟩
  have ho : o' = o := Fin.ext h1
  subst ho
  have he : e.val = 4000 * t.val + p.val := h0
  rw [G0_apply]
  refine (Cert.KBody0.out0_4_at (iblk0 V c 0 t) (iblk0 V c 1 t) (iblk0 V c 2 t) (iblk0 V c 3 t) p o').trans ?_
  exact msgAt_block (V c main_v70 : S800000x64.Idx → EReal) (V c main_v43 : S800000x4.Idx → EReal)
    (V c main_v68 : S800000x4.Idx → BitVec 32) (V c main_v71 : S25x64x16.Idx → EReal)
    (iblk0 V c 0 t : Vec Ideal S4000x64 .bf16) (iblk0 V c 1 t : Vec Ideal S4000x4 .f32)
    (iblk0 V c 2 t : Vec Ideal S4000x4 .i32) (iblk0 V c 3 t : Vec Ideal S25x64x16 .bf16) e p
    (fun f => xblk0_apply V c t p f e he) (fun j => bblk0_apply V c t p j e he)
    (fun j => iblk0_apply V c t p j e he) (fun q f o => wblk0_apply V c t q f o) 25 o'

theorem flushed0_eq (c : Dev nD) (t : Fin cfg0.N) :
    (dat0 V c).flushed 4 t = ((cfg0.win 4).blk t).view.read (Elt Ideal) (G0 V c) := by
  show (cfg0.win 4).cut (grid0.coords t) ((dat0 V c).after 4 t) = _
  rw [after0_4]
  obtain ⟨-, -, -, -, -, -, -, -, -, h0, h1⟩ := idx0 t
  funext y
  rw [View.read_apply]
  refine point0 V c t y _ ?_ ?_
  · show win0_4.index t (0 : Fin 2) * 4000 + 1 * (y 0).val = 4000 * t.val + (y 0).val
    rw [h0]; omega
  · show win0_4.index t (1 : Fin 2) * 16 + 1 * (y 1).val = (y 1).val
    rw [h1]; omega

theorem mem_blk0 (t : Fin cfg0.N) (i : S800000x16.Idx) :
    i ∈ ((cfg0.win 4).blk t).view.set ↔ ∀ a : Fin 2, win0_4.index t a * S4000x16.size a ≤ (i a).val
      ∧ (i a).val < win0_4.index t a * S4000x16.size a + S4000x16.size a := by
  show i ∈ ((View.whole main_v72).slice (win0_4.rect t)).set ↔ _
  rw [View.set_slice_whole, Rect.mem_set_unit]
  exact Iff.rfl

theorem cover0 (i : S800000x16.Idx) :
    ∃ t : Fin cfg0.N, (cfg0.win 4).flush t = true ∧ i ∈ ((cfg0.win 4).blk t).view.set := by
  have hi0 : (i 0).val < 800000 := (i 0).isLt
  have hi1 : (i 1).val < 16 := (i 1).isLt
  have hN : cfg0.N = 200 := N_0
  have ht : (i 0).val / 4000 < cfg0.N := by rw [hN]; omega
  obtain ⟨-, -, -, -, -, -, -, -, -, h0, h1⟩ := idx0 ⟨(i 0).val / 4000, ht⟩
  refine ⟨⟨(i 0).val / 4000, ht⟩, flush0_4 _, ?_⟩
  rw [mem_blk0]
  intro a
  match a with
  | ⟨0, _⟩ =>
    show win0_4.index ⟨(i 0).val / 4000, ht⟩ (0 : Fin 2) * 4000 ≤ (i 0).val
      ∧ (i 0).val < win0_4.index ⟨(i 0).val / 4000, ht⟩ (0 : Fin 2) * 4000 + 4000
    rw [h0]; show (i 0).val / 4000 * 4000 ≤ (i 0).val ∧ (i 0).val < (i 0).val / 4000 * 4000 + 4000; omega
  | ⟨1, _⟩ =>
    show win0_4.index ⟨(i 0).val / 4000, ht⟩ (1 : Fin 2) * 16 ≤ (i 1).val
      ∧ (i 1).val < win0_4.index ⟨(i 0).val / 4000, ht⟩ (1 : Fin 2) * 16 + 16
    rw [h1]; omega

theorem final0 (c : Dev nD) : (dat0 V c).arrAt 4 cfg0.N = G0 V c :=
  (dat0 V c).arrAt_eq_of_cover 4 (G0 V c) (fun t _ => flushed0_eq V c t) (cover0)

end Region0

section Region1

variable (V : (c : Dev nD) → (b : Ref sig .tc) → Buf (Elt Ideal) ((c : Thread nD τ).loc b))

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 2) = t.val ∧ win1_4.index t (1 : Fin 2) = 0 :=
  (by decide +kernel : ∀ t : Fin grid1.N, _)

theorem xblk1_apply (c : Dev nD) (t : Fin cfg1.N) (p : Fin 4000) (f : Fin 16) (e : Fin 800000)
    (he : e.val = 4000 * t.val + p.val) :
    (iblk1 V c 0 t : Vec Ideal S4000x16 .bf16) (ix2 p f) = (V c main_v91 : S800000x16.Idx → EReal) (ix2 e f) := by
  obtain ⟨h0, h1, -⟩ := idx1 t
  unfold iblk1
  rw [View.read_apply]
  show V c main_v91 _ = V c main_v91 _
  congr 1
  funext a
  apply Fin.ext
  match a with
  | ⟨0, _⟩ => show win1_0.index t (0 : Fin 2) * 4000 + 1 * p.val = e.val; rw [h0, he]; omega
  | ⟨1, _⟩ => show win1_0.index t (1 : Fin 2) * 16 + 1 * f.val = f.val; rw [h1]; omega

theorem bblk1_apply (c : Dev nD) (t : Fin cfg1.N) (p : Fin 4000) (j : Fin 4) (e : Fin 800000)
    (he : e.val = 4000 * t.val + p.val) :
    (iblk1 V c 1 t : Vec Ideal S4000x4 .f32) (ix2 p j) = (V c main_v43 : S800000x4.Idx → EReal) (ix2 e j) := by
  obtain ⟨-, -, h0, h1, -⟩ := idx1 t
  unfold iblk1
  rw [View.read_apply]
  show V c main_v43 _ = V c main_v43 _
  congr 1
  funext a
  apply Fin.ext
  match a with
  | ⟨0, _⟩ => show win1_1.index t (0 : Fin 2) * 4000 + 1 * p.val = e.val; rw [h0, he]; omega
  | ⟨1, _⟩ => show win1_1.index t (1 : Fin 2) * 4 + 1 * j.val = j.val; rw [h1]; omega

theorem iblk1_apply (c : Dev nD) (t : Fin cfg1.N) (p : Fin 4000) (j : Fin 4) (e : Fin 800000)
    (he : e.val = 4000 * t.val + p.val) :
    (iblk1 V c 2 t : Vec Ideal S4000x4 .i32) (ix2 p j) = (V c main_v68 : S800000x4.Idx → BitVec 32) (ix2 e j) := by
  obtain ⟨-, -, -, -, h0, h1, -⟩ := idx1 t
  unfold iblk1
  rw [View.read_apply]
  show V c main_v68 _ = V c main_v68 _
  congr 1
  funext a
  apply Fin.ext
  match a with
  | ⟨0, _⟩ => show win1_2.index t (0 : Fin 2) * 4000 + 1 * p.val = e.val; rw [h0, he]; omega
  | ⟨1, _⟩ => show win1_2.index t (1 : Fin 2) * 4 + 1 * j.val = j.val; rw [h1]; omega

theorem wblk1_apply (c : Dev nD) (t : Fin cfg1.N) (q : Fin 25) (f : Fin 16) (o : Fin 7) :
    (iblk1 V c 3 t : Vec Ideal S25x16x7 .bf16) (ix3 q f o) = (V c main_v92 : S25x16x7.Idx → EReal) (ix3 q f o) := by
  obtain ⟨-, -, -, -, -, -, h0, h1, h2, -⟩ := idx1 t
  unfold iblk1
  rw [View.read_apply]
  show V c main_v92 _ = V c main_v92 _
  congr 1
  funext a
  apply Fin.ext
  match a with
  | ⟨0, _⟩ => show win1_3.index t (0 : Fin 3) * 25 + 1 * q.val = q.val; rw [h0]; omega
  | ⟨1, _⟩ => show win1_3.index t (1 : Fin 3) * 16 + 1 * f.val = f.val; rw [h1]; omega
  | ⟨2, _⟩ => show win1_3.index t (2 : Fin 3) * 7 + 1 * o.val = o.val; rw [h2]; omega

def G1 (c : Dev nD) : S800000x7.Idx → EReal := fun i =>
  Cert.Spec.msgAt (V c main_v91 : S800000x16.Idx → EReal) (V c main_v43 : S800000x4.Idx → EReal)
    (V c main_v68 : S800000x4.Idx → BitVec 32) (V c main_v92 : S25x16x7.Idx → EReal) 25 (i 0) (i 1)

theorem G1_apply (c : Dev nD) (e : Fin 800000) (o : Fin 7) :
    G1 V c (ix2 e o) = Cert.Spec.msgAt (V c main_v91 : S800000x16.Idx → EReal) (V c main_v43 : S800000x4.Idx → EReal)
      (V c main_v68 : S800000x4.Idx → BitVec 32) (V c main_v92 : S25x16x7.Idx → EReal) 25 e o := rfl

theorem point1 (c : Dev nD) (t : Fin cfg1.N) (y : S4000x7.Idx) (i : S800000x7.Idx)
    (h0 : (i 0).val = 4000 * t.val + (y 0).val) (h1 : (i 1).val = (y 1).val) :
    out1_4 (F := Ideal) (iblk1 V c 0 t) (iblk1 V c 1 t) (iblk1 V c 2 t) (iblk1 V c 3 t) y = G1 V c i := by
  obtain ⟨p, o, rfl⟩ : ∃ (p : Fin 4000) (o : Fin 7), y = ix2 p o := ⟨y 0, y 1, eq_ix2 y⟩
  obtain ⟨e, o', rfl⟩ : ∃ (e : Fin 800000) (o' : Fin 7), i = ix2 e o' := ⟨i 0, i 1, eq_ix2 i⟩
  have ho : o' = o := Fin.ext h1
  subst ho
  have he : e.val = 4000 * t.val + p.val := h0
  rw [G1_apply]
  refine (Cert.KBody1.out1_4_at (iblk1 V c 0 t) (iblk1 V c 1 t) (iblk1 V c 2 t) (iblk1 V c 3 t) p o').trans ?_
  exact msgAt_block (V c main_v91 : S800000x16.Idx → EReal) (V c main_v43 : S800000x4.Idx → EReal)
    (V c main_v68 : S800000x4.Idx → BitVec 32) (V c main_v92 : S25x16x7.Idx → EReal)
    (iblk1 V c 0 t : Vec Ideal S4000x16 .bf16) (iblk1 V c 1 t : Vec Ideal S4000x4 .f32)
    (iblk1 V c 2 t : Vec Ideal S4000x4 .i32) (iblk1 V c 3 t : Vec Ideal S25x16x7 .bf16) e p
    (fun f => xblk1_apply V c t p f e he) (fun j => bblk1_apply V c t p j e he)
    (fun j => iblk1_apply V c t p j e he) (fun q f o => wblk1_apply V c t q f o) 25 o'

theorem flushed1_eq (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  obtain ⟨-, -, -, -, -, -, -, -, -, h0, h1⟩ := idx1 t
  funext y
  rw [View.read_apply]
  refine point1 V c t y _ ?_ ?_
  · show win1_4.index t (0 : Fin 2) * 4000 + 1 * (y 0).val = 4000 * t.val + (y 0).val
    rw [h0]; omega
  · show win1_4.index t (1 : Fin 2) * 7 + 1 * (y 1).val = (y 1).val
    rw [h1]; omega

theorem mem_blk1 (t : Fin cfg1.N) (i : S800000x7.Idx) :
    i ∈ ((cfg1.win 4).blk t).view.set ↔ ∀ a : Fin 2, win1_4.index t a * S4000x7.size a ≤ (i a).val
      ∧ (i a).val < win1_4.index t a * S4000x7.size a + S4000x7.size a := by
  show i ∈ ((View.whole main_v93).slice (win1_4.rect t)).set ↔ _
  rw [View.set_slice_whole, Rect.mem_set_unit]
  exact Iff.rfl

theorem cover1 (i : S800000x7.Idx) :
    ∃ t : Fin cfg1.N, (cfg1.win 4).flush t = true ∧ i ∈ ((cfg1.win 4).blk t).view.set := by
  have hi0 : (i 0).val < 800000 := (i 0).isLt
  have hi1 : (i 1).val < 7 := (i 1).isLt
  have hN : cfg1.N = 200 := N_1
  have ht : (i 0).val / 4000 < cfg1.N := by rw [hN]; omega
  obtain ⟨-, -, -, -, -, -, -, -, -, h0, h1⟩ := idx1 ⟨(i 0).val / 4000, ht⟩
  refine ⟨⟨(i 0).val / 4000, ht⟩, flush1_4 _, ?_⟩
  rw [mem_blk1]
  intro a
  match a with
  | ⟨0, _⟩ =>
    show win1_4.index ⟨(i 0).val / 4000, ht⟩ (0 : Fin 2) * 4000 ≤ (i 0).val
      ∧ (i 0).val < win1_4.index ⟨(i 0).val / 4000, ht⟩ (0 : Fin 2) * 4000 + 4000
    rw [h0]; show (i 0).val / 4000 * 4000 ≤ (i 0).val ∧ (i 0).val < (i 0).val / 4000 * 4000 + 4000; omega
  | ⟨1, _⟩ =>
    show win1_4.index ⟨(i 0).val / 4000, ht⟩ (1 : Fin 2) * 7 ≤ (i 1).val
      ∧ (i 1).val < win1_4.index ⟨(i 0).val / 4000, ht⟩ (1 : Fin 2) * 7 + 7
    rw [h1]; omega

theorem final1 (c : Dev nD) : (dat1 V c).arrAt 4 cfg1.N = G1 V c :=
  (dat1 V c).arrAt_eq_of_cover 4 (G1 V c) (fun t _ => flushed1_eq V c t) (cover1)

end Region1

theorem W6_msg (c : Dev nD) (e : Fin 800000) (o : Fin 16) :
    (W6 (F := Ideal) m ρ c (Proc.devRef .tc main_v72) : S800000x16.Idx → EReal) (ix2 e o)
      = Cert.Spec.msgAt (W5 (F := Ideal) m ρ c (Proc.devRef .tc main_v70) : S800000x64.Idx → EReal)
          (W5 (F := Ideal) m ρ c (Proc.devRef .tc main_v43) : S800000x4.Idx → EReal)
          (W5 (F := Ideal) m ρ c (Proc.devRef .tc main_v68) : S800000x4.Idx → BitVec 32)
          (W5 (F := Ideal) m ρ c (Proc.devRef .tc main_v71) : S25x64x16.Idx → EReal) 25 e o := by
  have h : W6 (F := Ideal) m ρ c (Proc.devRef .tc main_v72) = G0 (V5 (F := Ideal) m ρ) c :=
    (W6_arr (F := Ideal) m ρ c 4).trans (final0 (V5 (F := Ideal) m ρ) c)
  rw [h]
  rfl

theorem W13_msg (c : Dev nD) (e : Fin 800000) (o : Fin 7) :
    (W13 (F := Ideal) m ρ c (Proc.devRef .tc main_v93) : S800000x7.Idx → EReal) (ix2 e o)
      = Cert.Spec.msgAt (W12 (F := Ideal) m ρ c (Proc.devRef .tc main_v91) : S800000x16.Idx → EReal)
          (W12 (F := Ideal) m ρ c (Proc.devRef .tc main_v43) : S800000x4.Idx → EReal)
          (W12 (F := Ideal) m ρ c (Proc.devRef .tc main_v68) : S800000x4.Idx → BitVec 32)
          (W12 (F := Ideal) m ρ c (Proc.devRef .tc main_v92) : S25x16x7.Idx → EReal) 25 e o := by
  have h : W13 (F := Ideal) m ρ c (Proc.devRef .tc main_v93) = G1 (V12 (F := Ideal) m ρ) c :=
    (W13_arr (F := Ideal) m ρ c 4).trans (final1 (V12 (F := Ideal) m ρ) c)
  rw [h]
  rfl

end Cert.KArr

end
-- ==== Proof.KFacts.lean ====
/- Under the precondition every source index is non-negative; every flat index is 5 · i₀ + i₁ with i₀, i₁ clamped to 0 … 4, hence in 0 … 24. -/
import proofs.«409647_j39943195853539_2_alg».proof.Proof.Gen.KernelIdeal.Frame
import proofs.«409647_j39943195853539_2_alg».proof.Proof.Spec
import proofs.«409647_j39943195853539_2_alg».proof.Defs
import Idealize.ShloMosaic.Lib.ReduceAll
import Idealize.ShloMosaic.Lib.StableHlo.Predicate
import Idealize.ShloMosaic.Lib.StableHlo.Run
import Idealize.ShloMosaic.Lib.ValueLayout
import Idealize.ShloMosaic.Lib.IdealHost

noncomputable section

namespace Cert.KFacts

open Idealize.ShloMosaic Idealize.ShloMosaic.ValueIdx Idealize.ShloMosaic.TcCoe Idealize.SL.Sem Cert.KernelIdeal Cert.KernelIdeal.Gen
open scoped BigOperators

theorem row0_apply [hPre : Cert.Pre_finite_inputs.Facts] (A : Cert.Pre_finite_inputs.S2x800000.Idx → BitVec 32) (e : Fin 800000) :
    shapeCast Cert.Pre_finite_inputs.S800000
        (extractStridedSlice Cert.Pre_finite_inputs.S1x800000 ![0, 0] A Cert.Pre_finite_inputs.Facts.slices_S2x800000_S1x800000_0_0)
        Cert.Pre_finite_inputs.Facts.shapeCasts_S1x800000_S800000 (ix1 e)
      = A (ix2 0 e) := by
  refine (shapeCast_1a_a_apply _ _ e).trans ?_
  exact extractStridedSlice_apply _ _ _ (ix2 (0 : Fin 1) e) (ix2 (0 : Fin 2) e) (fun a =>
    match a with
    | ⟨0, _⟩ => rfl
    | ⟨1, _⟩ => (Nat.zero_add _).symm)

theorem src_nonneg [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) (e : Fin 800000) :
    0 ≤ ((m ((c.tc : Thread Cert.KernelIdeal.nD Cert.KernelIdeal.τ).loc Cert.KernelIdeal.main_arg1) : S2x800000.Idx → BitVec 32)
          (ix2 0 e)).toInt := by

  haveI : Subsingleton Cert.Pre_finite_inputs.S_.Idx := ⟨fun a b => funext fun d => d.elim0⟩
  have h0 := congrFun (h c) ValueIdx.ix0
  dsimp only [Cert.Pre_finite_inputs.fn, Cert.Pre_finite_inputs.fn_part1, Cert.Pre_finite_inputs.fn_part2] at h0

  have h1 := (IntOp.andi_eq_one.1 h0).2
  have h2 := Host.reduce_andi_all _ _ _ _ _ h1 (ix1 e)
  have h3 := IntOp.cmpi_sge.1 h2
  rw [row0_apply] at h3
  exact h3

theorem clip_range (x : BitVec 32) :
    0 ≤ (IntOp.minsi 4#32 (IntOp.maxsi 0#32 x)).toInt ∧ (IntOp.minsi 4#32 (IntOp.maxsi 0#32 x)).toInt ≤ 4 := by
  have h4 : (4#32 : BitVec 32).toInt = 4 := by decide
  have h0 : (0#32 : BitVec 32).toInt = 0 := by decide
  unfold IntOp.minsi IntOp.maxsi
  by_cases hx : x.slt 0#32 = true
  · rw [if_pos hx]
    by_cases h2 : (4#32 : BitVec 32).slt 0#32 = true
    · rw [if_pos h2]; omega
    · rw [if_neg h2]; omega
  · rw [if_neg hx]
    have hx' : ¬ x.toInt < (0#32 : BitVec 32).toInt := fun hh => hx (BitVec.slt_iff_toInt_lt.2 hh)
    by_cases h2 : (4#32 : BitVec 32).slt x = true
    · rw [if_pos h2]; omega
    · rw [if_neg h2]
      have h2' : ¬ (4#32 : BitVec 32).toInt < x.toInt := fun hh => h2 (BitVec.slt_iff_toInt_lt.2 hh)
      omega

theorem flat_range (a b : BitVec 32) (ha : 0 ≤ a.toInt ∧ a.toInt ≤ 4) (hb : 0 ≤ b.toInt ∧ b.toInt ≤ 4) :
    0 ≤ (IntOp.addi (IntOp.muli a 5#32) b).toInt ∧ (IntOp.addi (IntOp.muli a 5#32) b).toInt < 25 := by
  unfold IntOp.addi IntOp.muli
  have ea := BitVec.toInt_eq_toNat_cond a
  have eb := BitVec.toInt_eq_toNat_cond b
  have hla := a.isLt
  have hlb := b.isLt
  have ha4 : a.toNat ≤ 4 := by omega
  have hb4 : b.toNat ≤ 4 := by omega
  have en : (a * 5#32 + b).toNat = a.toNat * 5 + b.toNat := by
    rw [BitVec.toNat_add, BitVec.toNat_mul]
    show (a.toNat * 5 % 2 ^ 32 + b.toNat) % 2 ^ 32 = a.toNat * 5 + b.toNat
    rw [Nat.mod_eq_of_lt (by omega : a.toNat * 5 < 2 ^ 32), Nat.mod_eq_of_lt (by omega)]
  have er := BitVec.toInt_eq_toNat_cond (a * 5#32 + b)
  rw [en] at er
  omega

section Stages

theorem stage2 (V : Valuation τ sig (Elt Ideal)) :
    ∃ (I J : S4x2.Idx → BitVec 32),
      (StableHlo.after (hostOps0_2 (F := Ideal)) V (Proc.devRef .tc main_v68) : S800000x4.Idx → BitVec 32)
        = addi (muli (Host.gather gather_S800000x2x2_S4x2_S800000x4_0_12_n_n_12_1_80000011
                        (V (Proc.devRef .tc main_v20) : S800000x2x2.Idx → BitVec 32) I)
                      (broadcastInDim S800000x4 ![] Facts₀.bcast_S_S800000x4 (constantI S_ 32 5#32)))
               (Host.gather gather_S800000x2x2_S4x2_S800000x4_0_12_n_n_12_1_80000011
                        (V (Proc.devRef .tc main_v20) : S800000x2x2.Idx → BitVec 32) J) :=
  ⟨_, _, by after_results_simp; rfl⟩

theorem stage1 (V : Valuation τ sig (Elt Ideal)) :
    (StableHlo.after (hostOps0_1 (F := Ideal)) V (Proc.devRef .tc main_v20) : S800000x2x2.Idx → BitVec 32)
      = minsi (broadcastInDim S800000x2x2 ![] Facts₀.bcast_S_S800000x2x2 (V (Proc.devRef .tc main_c_3) : S_.Idx → BitVec 32))
          (maxsi (broadcastInDim S800000x2x2 ![] Facts₀.bcast_S_S800000x2x2 (V (Proc.devRef .tc main_c_2) : S_.Idx → BitVec 32))
            (V (Proc.devRef .tc main_v19) : S800000x2x2.Idx → BitVec 32)) := by
  after_results; rfl

theorem stage0_hi (V : Valuation τ sig (Elt Ideal)) :
    (StableHlo.after (hostOps0 (F := Ideal)) V (Proc.devRef .tc main_c_3) : S_.Idx → BitVec 32) = constantI S_ 32 4#32 := by
  after_results

theorem stage0_lo (V : Valuation τ sig (Elt Ideal)) :
    (StableHlo.after (hostOps0 (F := Ideal)) V (Proc.devRef .tc main_c_2) : S_.Idx → BitVec 32) = constantI S_ 32 0#32 := by
  after_results

end Stages

theorem skip4 (V : Valuation τ sig (Elt Ideal)) :
    StableHlo.after (hostOps0_4 (F := Ideal)) V (Proc.devRef .tc main_v68) = V (Proc.devRef .tc main_v68) := by
  after_results

theorem skip3 (V : Valuation τ sig (Elt Ideal)) :
    StableHlo.after (hostOps0_3 (F := Ideal)) V (Proc.devRef .tc main_v68) = V (Proc.devRef .tc main_v68) := by
  after_results

variable (m : (ℓ : Loc nD τ sig) → Buf (Elt Ideal) ℓ) (ρ : Dev nD → PrngReg)

theorem v20_range (c : Dev nD) (k : S800000x2x2.Idx) :
    0 ≤ ((W2 (F := Ideal) m ρ c (Proc.devRef .tc main_v20) : S800000x2x2.Idx → BitVec 32) k).toInt
      ∧ ((W2 (F := Ideal) m ρ c (Proc.devRef .tc main_v20) : S800000x2x2.Idx → BitVec 32) k).toInt ≤ 4 := by
  have h4 : ∀ j, (W1 (F := Ideal) m ρ c (Proc.devRef .tc main_c_3) : S_.Idx → BitVec 32) j = 4#32 :=
    fun j => congrFun (stage0_hi (W0 (F := Ideal) m ρ c)) j
  have h0 : ∀ j, (W1 (F := Ideal) m ρ c (Proc.devRef .tc main_c_2) : S_.Idx → BitVec 32) j = 0#32 :=
    fun j => congrFun (stage0_lo (W0 (F := Ideal) m ρ c)) j
  have e1 : (W2 (F := Ideal) m ρ c (Proc.devRef .tc main_v20) : S800000x2x2.Idx → BitVec 32) k
      = IntOp.minsi ((W1 (F := Ideal) m ρ c (Proc.devRef .tc main_c_3) : S_.Idx → BitVec 32) _)
          (IntOp.maxsi ((W1 (F := Ideal) m ρ c (Proc.devRef .tc main_c_2) : S_.Idx → BitVec 32) _)
            ((W1 (F := Ideal) m ρ c (Proc.devRef .tc main_v19) : S800000x2x2.Idx → BitVec 32) k)) :=
    congrFun (stage1 (W1 (F := Ideal) m ρ c)) k
  rw [h4, h0] at e1
  rw [e1]
  exact clip_range _

theorem wi_range (c : Dev nD) (i : S800000x4.Idx) :
    0 ≤ ((W5 (F := Ideal) m ρ c (Proc.devRef .tc main_v68) : S800000x4.Idx → BitVec 32) i).toInt
      ∧ ((W5 (F := Ideal) m ρ c (Proc.devRef .tc main_v68) : S800000x4.Idx → BitVec 32) i).toInt < 25 := by
  obtain ⟨I, J, e2⟩ := stage2 (W2 (F := Ideal) m ρ c)
  have e5 : (W5 (F := Ideal) m ρ c (Proc.devRef .tc main_v68) : S800000x4.Idx → BitVec 32)
      = (StableHlo.after (hostOps0_2 (F := Ideal)) (W2 (F := Ideal) m ρ c) (Proc.devRef .tc main_v68) : S800000x4.Idx → BitVec 32) :=
    (skip4 (W4 (F := Ideal) m ρ c)).trans (skip3 (W3 (F := Ideal) m ρ c))
  have e : (W5 (F := Ideal) m ρ c (Proc.devRef .tc main_v68) : S800000x4.Idx → BitVec 32) i
      = IntOp.addi (IntOp.muli ((W2 (F := Ideal) m ρ c (Proc.devRef .tc main_v20) : S800000x2x2.Idx → BitVec 32)
            (gather_S800000x2x2_S4x2_S800000x4_0_12_n_n_12_1_80000011.operandIdx i I)) 5#32)
          ((W2 (F := Ideal) m ρ c (Proc.devRef .tc main_v20) : S800000x2x2.Idx → BitVec 32)
            (gather_S800000x2x2_S4x2_S800000x4_0_12_n_n_12_1_80000011.operandIdx i J)) :=
    congrFun (e5.trans e2) i
  rw [e]
  exact flat_range _ _ (v20_range m ρ c _) (v20_range m ρ c _)

end Cert.KFacts

end
-- ==== Proof.ROps.lean ====
/-
  The reference program's @main as one list of host operations, cut where the stages of the computation end (the shared
  prefix, each layer's coefficient scatter and source gather, one segment per accumulation step, each layer's
  aggregation), and the buffer contents at each cut.
-/
import proofs.«409647_j39943195853539_2_alg».proof.Proof.Gen.ReferenceIdeal
import Idealize.ShloMosaic.Lib.StableHlo.Run
import Idealize.ShloMosaic.Lib.Pipeline.Frame

noncomputable section

namespace Cert.ROps

open Cert.ReferenceIdeal Cert.ReferenceIdeal.Gen Idealize.ShloMosaic Idealize.ShloMosaic.TcCoe Idealize.SL.Sem Idealize.ShloMosaic.StableHlo

variable {F : FTy → Type} [FloatOps F]

abbrev seg0a : List (HloOp τ sig (Elt F)) :=
  [ nullary main_c (fun i => lit0 (S4.rowMajor i)),
    nullary main_c_0 (fun i => lit1 (S4.rowMajor i)),
    unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x40800000#32),
    unary main_cst main_v4 (broadcastInDim S800000x2 ![] bcast_S_S800000x2 : (⟨S_, .f32⟩ : BufTy).Contents (Elt F) → (⟨S800000x2, .f32⟩ : BufTy).Contents (Elt F)),
    binary main_arg2 main_v4 main_v5 (mulf : (⟨S800000x2, .f32⟩ : BufTy).Contents (Elt F) → (⟨S800000x2, .f32⟩ : BufTy).Contents (Elt F) → (⟨S800000x2, .f32⟩ : BufTy).Contents (Elt F)),
    unary main_v5 main_v6 (Host.floor : (⟨S800000x2, .f32⟩ : BufTy).Contents (Elt F) → (⟨S800000x2, .f32⟩ : BufTy).Contents (Elt F)),
    binary main_v5 main_v6 main_v7 (subf : (⟨S800000x2, .f32⟩ : BufTy).Contents (Elt F) → (⟨S800000x2, .f32⟩ : BufTy).Contents (Elt F) → (⟨S800000x2, .f32⟩ : BufTy).Contents (Elt F)),
    unary main_v6 main_v8 (fptosi 32 : (⟨S800000x2, .f32⟩ : BufTy).Contents (Elt F) → (⟨S800000x2, .i32⟩ : BufTy).Contents (Elt F)),
    nullary main_cst_1 (constant S_ .f32 0x3F800000#32),
    unary main_cst_1 main_v9 (broadcastInDim S800000x2 ![] bcast_S_S800000x2 : (⟨S_, .f32⟩ : BufTy).Contents (Elt F) → (⟨S800000x2, .f32⟩ : BufTy).Contents (Elt F)),
    binary main_v9 main_v7 main_v10 (subf : (⟨S800000x2, .f32⟩ : BufTy).Contents (Elt F) → (⟨S800000x2, .f32⟩ : BufTy).Contents (Elt F) → (⟨S800000x2, .f32⟩ : BufTy).Contents (Elt F)),
    unary main_v10 main_v11 (broadcastInDim S800000x2x1 ![0, 1] bcast_S800000x2_S800000x2x1_0_1 : (⟨S800000x2, .f32⟩ : BufTy).Contents (Elt F) → (⟨S800000x2x1, .f32⟩ : BufTy).Contents (Elt F)),
    unary main_v7 main_v12 (broadcastInDim S800000x2x1 ![0, 1] bcast_S800000x2_S800000x2x1_0_1 : (⟨S800000x2, .f32⟩ : BufTy).Contents (Elt F) → (⟨S800000x2x1, .f32⟩ : BufTy).Contents (Elt F)),
    binary main_v11 main_v12 main_v13 ((fun a b => concatenate S800000x2x2 2 [⟨S800000x2x1, a⟩, ⟨S800000x2x1, b⟩] concatenates_S800000x2x1_S800000x2x1_S800000x2x2_d2) : (⟨S800000x2x1, .f32⟩ : BufTy).Contents (Elt F) → (⟨S800000x2x1, .f32⟩ : BufTy).Contents (Elt F) → (⟨S800000x2x2, .f32⟩ : BufTy).Contents (Elt F)),
    unary main_v8 main_v14 (broadcastInDim S800000x2x1 ![0, 1] bcast_S800000x2_S800000x2x1_0_1 : (⟨S800000x2, .i32⟩ : BufTy).Contents (Elt F) → (⟨S800000x2x1, .i32⟩ : BufTy).Contents (Elt F)),
    nullary main_v15 (iotaInDim S2 32 0),
    unary main_v15 main_v16 (broadcastInDim S1x1x2 ![2] bcast_S2_S1x1x2_2 : (⟨S2, .i32⟩ : BufTy).Contents (Elt F) → (⟨S1x1x2, .i32⟩ : BufTy).Contents (Elt F)),
    unary main_v14 main_v17 (broadcastInDim S800000x2x2 ![0, 1, 2] bcast_S800000x2x1_S800000x2x2_0_1_2 : (⟨S800000x2x1, .i32⟩ : BufTy).Contents (Elt F) → (⟨S800000x2x2, .i32⟩ : BufTy).Contents (Elt F)),
    unary main_v16 main_v18 (broadcastInDim S800000x2x2 ![0, 1, 2] bcast_S1x1x2_S800000x2x2_0_1_2 : (⟨S1x1x2, .i32⟩ : BufTy).Contents (Elt F) → (⟨S800000x2x2, .i32⟩ : BufTy).Contents (Elt F)),
    binary main_v17 main_v18 main_v19 (addi : (⟨S800000x2x2, .i32⟩ : BufTy).Contents (Elt F) → (⟨S800000x2x2, .i32⟩ : BufTy).Contents (Elt F) → (⟨S800000x2x2, .i32⟩ : BufTy).Contents (Elt F)),
    nullary main_c_2 (constantI S_ 32 0#32),
    nullary main_c_3 (constantI S_ 32 4#32),
    TRef.unary ((.of main_c_2) : TRef sig ⟨S_, .i32⟩) main_call0.v0 id,
    TRef.unary main_call0.v0 main_call0.v1 (broadcastInDim S800000x2x2 ![] bcast_S_S800000x2x2),
    TRef.binary main_call0.v1 ((.of main_v19) : TRef sig ⟨S800000x2x2, .i32⟩) main_call0.v2 maxsi,
    TRef.unary ((.of main_c_3) : TRef sig ⟨S_, .i32⟩) main_call0.v3 id,
    TRef.unary main_call0.v3 main_call0.v4 (broadcastInDim S800000x2x2 ![] bcast_S_S800000x2x2),
    TRef.binary main_call0.v4 main_call0.v2 main_call0.v5 minsi,
    nullary main_c_4 (constantI S_ 32 0#32),
    unary main_c_4 main_v21 (broadcastInDim S4 ![] bcast_S_S4 : (⟨S_, .i32⟩ : BufTy).Contents (Elt F) → (⟨S4, .i32⟩ : BufTy).Contents (Elt F)),
    binary main_c main_v21 main_v22 (cmpi .slt : (⟨S4, .i32⟩ : BufTy).Contents (Elt F) → (⟨S4, .i32⟩ : BufTy).Contents (Elt F) → (⟨S4, .i1⟩ : BufTy).Contents (Elt F)),
    nullary main_c_5 (constantI S_ 32 2#32),
    unary main_c_5 main_v23 (broadcastInDim S4 ![] bcast_S_S4 : (⟨S_, .i32⟩ : BufTy).Contents (Elt F) → (⟨S4, .i32⟩ : BufTy).Contents (Elt F)),
    binary main_c main_v23 main_v24 (addi : (⟨S4, .i32⟩ : BufTy).Contents (Elt F) → (⟨S4, .i32⟩ : BufTy).Contents (Elt F) → (⟨S4, .i32⟩ : BufTy).Contents (Elt F)),
    ternary main_v22 main_v24 main_c main_v25 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    nullary main_c_6 (constantI S_ 32 0#32),
    unary main_c_6 main_v26 (broadcastInDim S4 ![] bcast_S_S4 : (⟨S_, .i32⟩ : BufTy).Contents (Elt F) → (⟨S4, .i32⟩ : BufTy).Contents (Elt F)),
    unary main_v26 main_v27 (id : (⟨S4, .i32⟩ : BufTy).Contents (Elt F) → (⟨S4, .i32⟩ : BufTy).Contents (Elt F)),
    unary main_v27 main_v28 (broadcastInDim S4x1 ![0] bcast_S4_S4x1_0 : (⟨S4, .i32⟩ : BufTy).Contents (Elt F) → (⟨S4x1, .i32⟩ : BufTy).Contents (Elt F)),
    unary main_v25 main_v29 (broadcastInDim S4x1 ![0] bcast_S4_S4x1_0 : (⟨S4, .i32⟩ : BufTy).Contents (Elt F) → (⟨S4x1, .i32⟩ : BufTy).Contents (Elt F)),
    binary main_v28 main_v29 main_v30 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F)),
    binary main_v13 main_v30 main_v31 ((fun x i => Host.gather gather_S800000x2x2_S4x2_S800000x4_0_12_n_n_12_1_80000011 x i) : (⟨S800000x2x2, .f32⟩ : BufTy).Contents (Elt F) → (⟨S4x2, .i32⟩ : BufTy).Contents (Elt F) → (⟨S800000x4, .f32⟩ : BufTy).Contents (Elt F)),
    nullary main_c_7 (constantI S_ 32 0#32),
    unary main_c_7 main_v32 (broadcastInDim S4 ![] bcast_S_S4 : (⟨S_, .i32⟩ : BufTy).Contents (Elt F) → (⟨S4, .i32⟩ : BufTy).Contents (Elt F)),
    binary main_c_0 main_v32 main_v33 (cmpi .slt : (⟨S4, .i32⟩ : BufTy).Contents (Elt F) → (⟨S4, .i32⟩ : BufTy).Contents (Elt F) → (⟨S4, .i1⟩ : BufTy).Contents (Elt F)),
    nullary main_c_8 (constantI S_ 32 2#32),
    unary main_c_8 main_v34 (broadcastInDim S4 ![] bcast_S_S4 : (⟨S_, .i32⟩ : BufTy).Contents (Elt F) → (⟨S4, .i32⟩ : BufTy).Contents (Elt F)),
    binary main_c_0 main_v34 main_v35 (addi : (⟨S4, .i32⟩ : BufTy).Contents (Elt F) → (⟨S4, .i32⟩ : BufTy).Contents (Elt F) → (⟨S4, .i32⟩ : BufTy).Contents (Elt F)),
    ternary main_v33 main_v35 main_c_0 main_v36 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    nullary main_c_9 (constantI S_ 32 1#32),
    unary main_c_9 main_v37 (broadcastInDim S4 ![] bcast_S_S4 : (⟨S_, .i32⟩ : BufTy).Contents (Elt F) → (⟨S4, .i32⟩ : BufTy).Contents (Elt F)),
    unary main_v37 main_v38 (id : (⟨S4, .i32⟩ : BufTy).Contents (Elt F) → (⟨S4, .i32⟩ : BufTy).Contents (Elt F)),
    unary main_v38 main_v39 (broadcastInDim S4x1 ![0] bcast_S4_S4x1_0 : (⟨S4, .i32⟩ : BufTy).Contents (Elt F) → (⟨S4x1, .i32⟩ : BufTy).Contents (Elt F)),
    unary main_v36 main_v40 (broadcastInDim S4x1 ![0] bcast_S4_S4x1_0 : (⟨S4, .i32⟩ : BufTy).Contents (Elt F) → (⟨S4x1, .i32⟩ : BufTy).Contents (Elt F)),
    binary main_v39 main_v40 main_v41 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F)),
    binary main_v13 main_v41 main_v42 ((fun x i => Host.gather gather_S800000x2x2_S4x2_S800000x4_0_12_n_n_12_1_80000011 x i) : (⟨S800000x2x2, .f32⟩ : BufTy).Contents (Elt F) → (⟨S4x2, .i32⟩ : BufTy).Contents (Elt F) → (⟨S800000x4, .f32⟩ : BufTy).Contents (Elt F)),
    binary main_v31 main_v42 main_v43 (mulf : (⟨S800000x4, .f32⟩ : BufTy).Contents (Elt F) → (⟨S800000x4, .f32⟩ : BufTy).Contents (Elt F) → (⟨S800000x4, .f32⟩ : BufTy).Contents (Elt F)),
    nullary main_c_10 (constantI S_ 32 0#32),
    unary main_c_10 main_v44 (broadcastInDim S4 ![] bcast_S_S4 : (⟨S_, .i32⟩ : BufTy).Contents (Elt F) → (⟨S4, .i32⟩ : BufTy).Contents (Elt F)),
    binary main_c main_v44 main_v45 (cmpi .slt : (⟨S4, .i32⟩ : BufTy).Contents (Elt F) → (⟨S4, .i32⟩ : BufTy).Contents (Elt F) → (⟨S4, .i1⟩ : BufTy).Contents (Elt F)),
    nullary main_c_11 (constantI S_ 32 2#32) ]

abbrev seg0b : List (HloOp τ sig (Elt F)) :=
  [ unary main_c_11 main_v46 (broadcastInDim S4 ![] bcast_S_S4 : (⟨S_, .i32⟩ : BufTy).Contents (Elt F) → (⟨S4, .i32⟩ : BufTy).Contents (Elt F)),
    binary main_c main_v46 main_v47 (addi : (⟨S4, .i32⟩ : BufTy).Contents (Elt F) → (⟨S4, .i32⟩ : BufTy).Contents (Elt F) → (⟨S4, .i32⟩ : BufTy).Contents (Elt F)),
    ternary main_v45 main_v47 main_c main_v48 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    nullary main_c_12 (constantI S_ 32 0#32),
    unary main_c_12 main_v49 (broadcastInDim S4 ![] bcast_S_S4 : (⟨S_, .i32⟩ : BufTy).Contents (Elt F) → (⟨S4, .i32⟩ : BufTy).Contents (Elt F)),
    unary main_v49 main_v50 (id : (⟨S4, .i32⟩ : BufTy).Contents (Elt F) → (⟨S4, .i32⟩ : BufTy).Contents (Elt F)),
    unary main_v50 main_v51 (broadcastInDim S4x1 ![0] bcast_S4_S4x1_0 : (⟨S4, .i32⟩ : BufTy).Contents (Elt F) → (⟨S4x1, .i32⟩ : BufTy).Contents (Elt F)),
    unary main_v48 main_v52 (broadcastInDim S4x1 ![0] bcast_S4_S4x1_0 : (⟨S4, .i32⟩ : BufTy).Contents (Elt F) → (⟨S4x1, .i32⟩ : BufTy).Contents (Elt F)),
    binary main_v51 main_v52 main_v53 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F)),
    binary main_v20 main_v53 main_v54 ((fun x i => Host.gather gather_S800000x2x2_S4x2_S800000x4_0_12_n_n_12_1_80000011 x i) : (⟨S800000x2x2, .i32⟩ : BufTy).Contents (Elt F) → (⟨S4x2, .i32⟩ : BufTy).Contents (Elt F) → (⟨S800000x4, .i32⟩ : BufTy).Contents (Elt F)),
    nullary main_c_13 (constantI S_ 32 5#32),
    unary main_c_13 main_v55 (broadcastInDim S800000x4 ![] bcast_S_S800000x4 : (⟨S_, .i32⟩ : BufTy).Contents (Elt F) → (⟨S800000x4, .i32⟩ : BufTy).Contents (Elt F)),
    binary main_v54 main_v55 main_v56 (muli : (⟨S800000x4, .i32⟩ : BufTy).Contents (Elt F) → (⟨S800000x4, .i32⟩ : BufTy).Contents (Elt F) → (⟨S800000x4, .i32⟩ : BufTy).Contents (Elt F)),
    nullary main_c_14 (constantI S_ 32 0#32),
    unary main_c_14 main_v57 (broadcastInDim S4 ![] bcast_S_S4 : (⟨S_, .i32⟩ : BufTy).Contents (Elt F) → (⟨S4, .i32⟩ : BufTy).Contents (Elt F)),
    binary main_c_0 main_v57 main_v58 (cmpi .slt : (⟨S4, .i32⟩ : BufTy).Contents (Elt F) → (⟨S4, .i32⟩ : BufTy).Contents (Elt F) → (⟨S4, .i1⟩ : BufTy).Contents (Elt F)),
    nullary main_c_15 (constantI S_ 32 2#32),
    unary main_c_15 main_v59 (broadcastInDim S4 ![] bcast_S_S4 : (⟨S_, .i32⟩ : BufTy).Contents (Elt F) → (⟨S4, .i32⟩ : BufTy).Contents (Elt F)),
    binary main_c_0 main_v59 main_v60 (addi : (⟨S4, .i32⟩ : BufTy).Contents (Elt F) → (⟨S4, .i32⟩ : BufTy).Contents (Elt F) → (⟨S4, .i32⟩ : BufTy).Contents (Elt F)),
    ternary main_v58 main_v60 main_c_0 main_v61 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    nullary main_c_16 (constantI S_ 32 1#32),
    unary main_c_16 main_v62 (broadcastInDim S4 ![] bcast_S_S4 : (⟨S_, .i32⟩ : BufTy).Contents (Elt F) → (⟨S4, .i32⟩ : BufTy).Contents (Elt F)),
    unary main_v62 main_v63 (id : (⟨S4, .i32⟩ : BufTy).Contents (Elt F) → (⟨S4, .i32⟩ : BufTy).Contents (Elt F)),
    unary main_v63 main_v64 (broadcastInDim S4x1 ![0] bcast_S4_S4x1_0 : (⟨S4, .i32⟩ : BufTy).Contents (Elt F) → (⟨S4x1, .i32⟩ : BufTy).Contents (Elt F)),
    unary main_v61 main_v65 (broadcastInDim S4x1 ![0] bcast_S4_S4x1_0 : (⟨S4, .i32⟩ : BufTy).Contents (Elt F) → (⟨S4x1, .i32⟩ : BufTy).Contents (Elt F)),
    binary main_v64 main_v65 main_v66 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F)),
    binary main_v20 main_v66 main_v67 ((fun x i => Host.gather gather_S800000x2x2_S4x2_S800000x4_0_12_n_n_12_1_80000011 x i) : (⟨S800000x2x2, .i32⟩ : BufTy).Contents (Elt F) → (⟨S4x2, .i32⟩ : BufTy).Contents (Elt F) → (⟨S800000x4, .i32⟩ : BufTy).Contents (Elt F)),
    binary main_v56 main_v67 main_v68 (addi : (⟨S800000x4, .i32⟩ : BufTy).Contents (Elt F) → (⟨S800000x4, .i32⟩ : BufTy).Contents (Elt F) → (⟨S800000x4, .i32⟩ : BufTy).Contents (Elt F)) ]

abbrev seg0 : List (HloOp τ sig (Elt F)) := seg0a ++ seg0b

abbrev seg1a : List (HloOp τ sig (Elt F)) :=
  [ nullary main_cst_17 (constant S_ .f32 0x00000000#32),
    unary main_cst_17 main_v69 (broadcastInDim S800000x25 ![] bcast_S_S800000x25 : (⟨S_, .f32⟩ : BufTy).Contents (Elt F) → (⟨S800000x25, .f32⟩ : BufTy).Contents (Elt F)),
    nullary main_v70 (iotaInDim S800000 32 0),
    unary main_v70 main_v71 (broadcastInDim S800000x1 ![0] bcast_S800000_S800000x1_0 : (⟨S800000, .i32⟩ : BufTy).Contents (Elt F) → (⟨S800000x1, .i32⟩ : BufTy).Contents (Elt F)),
    nullary main_c_18 (constantI S_ 32 0#32),
    unary main_c_18 main_v72 (broadcastInDim S800000x1 ![] bcast_S_S800000x1 : (⟨S_, .i32⟩ : BufTy).Contents (Elt F) → (⟨S800000x1, .i32⟩ : BufTy).Contents (Elt F)),
    binary main_v71 main_v72 main_v73 (cmpi .slt : (⟨S800000x1, .i32⟩ : BufTy).Contents (Elt F) → (⟨S800000x1, .i32⟩ : BufTy).Contents (Elt F) → (⟨S800000x1, .i1⟩ : BufTy).Contents (Elt F)),
    nullary main_c_19 (constantI S_ 32 800000#32),
    unary main_c_19 main_v74 (broadcastInDim S800000x1 ![] bcast_S_S800000x1 : (⟨S_, .i32⟩ : BufTy).Contents (Elt F) → (⟨S800000x1, .i32⟩ : BufTy).Contents (Elt F)),
    binary main_v71 main_v74 main_v75 (addi : (⟨S800000x1, .i32⟩ : BufTy).Contents (Elt F) → (⟨S800000x1, .i32⟩ : BufTy).Contents (Elt F) → (⟨S800000x1, .i32⟩ : BufTy).Contents (Elt F)),
    ternary main_v73 main_v75 main_v71 main_v76 (select : (⟨S800000x1, .i1⟩ : BufTy).Contents (Elt F) → (⟨S800000x1, .i32⟩ : BufTy).Contents (Elt F) → (⟨S800000x1, .i32⟩ : BufTy).Contents (Elt F) → (⟨S800000x1, .i32⟩ : BufTy).Contents (Elt F)),
    nullary main_c_20 (constantI S_ 32 0#32),
    unary main_c_20 main_v77 (broadcastInDim S800000x4 ![] bcast_S_S800000x4 : (⟨S_, .i32⟩ : BufTy).Contents (Elt F) → (⟨S800000x4, .i32⟩ : BufTy).Contents (Elt F)),
    binary main_v68 main_v77 main_v78 (cmpi .slt : (⟨S800000x4, .i32⟩ : BufTy).Contents (Elt F) → (⟨S800000x4, .i32⟩ : BufTy).Contents (Elt F) → (⟨S800000x4, .i1⟩ : BufTy).Contents (Elt F)),
    nullary main_c_21 (constantI S_ 32 25#32),
    unary main_c_21 main_v79 (broadcastInDim S800000x4 ![] bcast_S_S800000x4 : (⟨S_, .i32⟩ : BufTy).Contents (Elt F) → (⟨S800000x4, .i32⟩ : BufTy).Contents (Elt F)),
    binary main_v68 main_v79 main_v80 (addi : (⟨S800000x4, .i32⟩ : BufTy).Contents (Elt F) → (⟨S800000x4, .i32⟩ : BufTy).Contents (Elt F) → (⟨S800000x4, .i32⟩ : BufTy).Contents (Elt F)),
    ternary main_v78 main_v80 main_v68 main_v81 (select : (⟨S800000x4, .i1⟩ : BufTy).Contents (Elt F) → (⟨S800000x4, .i32⟩ : BufTy).Contents (Elt F) → (⟨S800000x4, .i32⟩ : BufTy).Contents (Elt F) → (⟨S800000x4, .i32⟩ : BufTy).Contents (Elt F)),
    unary main_v76 main_v82 (broadcastInDim S800000x4 ![0, 1] bcast_S800000x1_S800000x4_0_1 : (⟨S800000x1, .i32⟩ : BufTy).Contents (Elt F) → (⟨S800000x4, .i32⟩ : BufTy).Contents (Elt F)),
    unary main_v82 main_v83 (broadcastInDim S800000x4x1 ![0, 1] bcast_S800000x4_S800000x4x1_0_1 : (⟨S800000x4, .i32⟩ : BufTy).Contents (Elt F) → (⟨S800000x4x1, .i32⟩ : BufTy).Contents (Elt F)),
    unary main_v81 main_v84 (broadcastInDim S800000x4x1 ![0, 1] bcast_S800000x4_S800000x4x1_0_1 : (⟨S800000x4, .i32⟩ : BufTy).Contents (Elt F) → (⟨S800000x4x1, .i32⟩ : BufTy).Contents (Elt F)),
    binary main_v83 main_v84 main_v85 ((fun a b => concatenate S800000x4x2 2 [⟨S800000x4x1, a⟩, ⟨S800000x4x1, b⟩] concatenates_S800000x4x1_S800000x4x1_S800000x4x2_d2) : (⟨S800000x4x1, .i32⟩ : BufTy).Contents (Elt F) → (⟨S800000x4x1, .i32⟩ : BufTy).Contents (Elt F) → (⟨S800000x4x2, .i32⟩ : BufTy).Contents (Elt F)),
    ternary main_v69 main_v85 main_v43 main_v86 ((fun x i u => Host.scatterAdd scatter_S800000x25_S800000x4x2_S800000x4_n_01_01_2 x i u) : (⟨S800000x25, .f32⟩ : BufTy).Contents (Elt F) → (⟨S800000x4x2, .i32⟩ : BufTy).Contents (Elt F) → (⟨S800000x4, .f32⟩ : BufTy).Contents (Elt F) → (⟨S800000x25, .f32⟩ : BufTy).Contents (Elt F)),
    nullary main_c_22 (constantI S_ 32 0#32),
    unary main_c_22 main_v87 (broadcastInDim S800000 ![] bcast_S_S800000 : (⟨S_, .i32⟩ : BufTy).Contents (Elt F) → (⟨S800000, .i32⟩ : BufTy).Contents (Elt F)),
    binary main_v1 main_v87 main_v88 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v89 (broadcastInDim S800000 ![] bcast_S_S800000 : (⟨S_, .i32⟩ : BufTy).Contents (Elt F) → (⟨S800000, .i32⟩ : BufTy).Contents (Elt F)),
    binary main_v1 main_v89 main_v90 (addi : (⟨S800000, .i32⟩ : BufTy).Contents (Elt F) → (⟨S800000, .i32⟩ : BufTy).Contents (Elt F) → (⟨S800000, .i32⟩ : BufTy).Contents (Elt F)),
    ternary main_v88 main_v90 main_v1 main_v91 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v91 main_v92 (broadcastInDim S800000x1 ![0] bcast_S800000_S800000x1_0 : (⟨S800000, .i32⟩ : BufTy).Contents (Elt F) → (⟨S800000x1, .i32⟩ : BufTy).Contents (Elt F)),
    binary main_arg0 main_v92 main_v93 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]

abbrev seg1b : List (HloOp τ sig (Elt F)) :=
  [ nullary main_cst_24 (constant S_ .f32 0x00000000#32),
    unary main_cst_24 main_v94 (broadcastInDim S800000x16 ![] bcast_S_S800000x16 : (⟨S_, .f32⟩ : BufTy).Contents (Elt F) → (⟨S800000x16, .f32⟩ : BufTy).Contents (Elt F)) ]

abbrev seg1 : List (HloOp τ sig (Elt F)) := seg1a ++ seg1b

abbrev seg2 : List (HloOp τ sig (Elt F)) :=
  [ unary main_v86 main_v95 ((extractStridedSlice S800000x1 ![0, 0] · slices_S800000x25_S800000x1_0_0) : (⟨S800000x25, .f32⟩ : BufTy).Contents (Elt F) → (⟨S800000x1, .f32⟩ : BufTy).Contents (Elt F)),
    unary main_arg3 main_v96 ((extractStridedSlice S1x64x16 ![0, 0, 0] · slices_S25x64x16_S1x64x16_0_0_0) : (⟨S25x64x16, .f32⟩ : BufTy).Contents (Elt F) → (⟨S1x64x16, .f32⟩ : BufTy).Contents (Elt F)),
    reshape main_v96 main_v97 rfl shapeCasts_S1x64x16_S64x16,
    binary main_v93 main_v97 main_v98 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v95 main_v99 (broadcastInDim S800000x16 ![0, 1] bcast_S800000x1_S800000x16_0_1 : (⟨S800000x1, .f32⟩ : BufTy).Contents (Elt F) → (⟨S800000x16, .f32⟩ : BufTy).Contents (Elt F)),
    binary main_v99 main_v98 main_v100 (mulf : (⟨S800000x16, .f32⟩ : BufTy).Contents (Elt F) → (⟨S800000x16, .f32⟩ : BufTy).Contents (Elt F) → (⟨S800000x16, .f32⟩ : BufTy).Contents (Elt F)),
    binary main_v94 main_v100 main_v101 (addf : (⟨S800000x16, .f32⟩ : BufTy).Contents (Elt F) → (⟨S800000x16, .f32⟩ : BufTy).Contents (Elt F) → (⟨S800000x16, .f32⟩ : BufTy).Contents (Elt F)) ]

abbrev seg3 : List (HloOp τ sig (Elt F)) :=
  [ unary main_v86 main_v102 ((extractStridedSlice S800000x1 ![0, 1] · slices_S800000x25_S800000x1_0_1) : (⟨S800000x25, .f32⟩ : BufTy).Contents (Elt F) → (⟨S800000x1, .f32⟩ : BufTy).Contents (Elt F)),
    unary main_arg3 main_v103 ((extractStridedSlice S1x64x16 ![1, 0, 0] · slices_S25x64x16_S1x64x16_1_0_0) : (⟨S25x64x16, .f32⟩ : BufTy).Contents (Elt F) → (⟨S1x64x16, .f32⟩ : BufTy).Contents (Elt F)),
    reshape main_v103 main_v104 rfl shapeCasts_S1x64x16_S64x16,
    binary main_v93 main_v104 main_v105 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v102 main_v106 (broadcastInDim S800000x16 ![0, 1] bcast_S800000x1_S800000x16_0_1 : (⟨S800000x1, .f32⟩ : BufTy).Contents (Elt F) → (⟨S800000x16, .f32⟩ : BufTy).Contents (Elt F)),
    binary main_v106 main_v105 main_v107 (mulf : (⟨S800000x16, .f32⟩ : BufTy).Contents (Elt F) → (⟨S800000x16, .f32⟩ : BufTy).Contents (Elt F) → (⟨S800000x16, .f32⟩ : BufTy).Contents (Elt F)),
    binary main_v101 main_v107 main_v108 (addf : (⟨S800000x16, .f32⟩ : BufTy).Contents (Elt F) → (⟨S800000x16, .f32⟩ : BufTy).Contents (Elt F) → (⟨S800000x16, .f32⟩ : BufTy).Contents (Elt F)) ]

abbrev seg4 : List (HloOp τ sig (Elt F)) :=
  [ unary main_v86 main_v109 ((extractStridedSlice S800000x1 ![0, 2] · slices_S800000x25_S800000x1_0_2) : (⟨S800000x25, .f32⟩ : BufTy).Contents (Elt F) → (⟨S800000x1, .f32⟩ : BufTy).Contents (Elt F)),
    unary main_arg3 main_v110 ((extractStridedSlice S1x64x16 ![2, 0, 0] · slices_S25x64x16_S1x64x16_2_0_0) : (⟨S25x64x16, .f32⟩ : BufTy).Contents (Elt F) → (⟨S1x64x16, .f32⟩ : BufTy).Contents (Elt F)),
    reshape main_v110 main_v111 rfl shapeCasts_S1x64x16_S64x16,
    binary main_v93 main_v111 main_v112 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v109 main_v113 (broadcastInDim S800000x16 ![0, 1] bcast_S800000x1_S800000x16_0_1 : (⟨S800000x1, .f32⟩ : BufTy).Contents (Elt F) → (⟨S800000x16, .f32⟩ : BufTy).Contents (Elt F)),
    binary main_v113 main_v112 main_v114 (mulf : (⟨S800000x16, .f32⟩ : BufTy).Contents (Elt F) → (⟨S800000x16, .f32⟩ : BufTy).Contents (Elt F) → (⟨S800000x16, .f32⟩ : BufTy).Contents (Elt F)),
    binary main_v108 main_v114 main_v115 (addf : (⟨S800000x16, .f32⟩ : BufTy).Contents (Elt F) → (⟨S800000x16, .f32⟩ : BufTy).Contents (Elt F) → (⟨S800000x16, .f32⟩ : BufTy).Contents (Elt F)) ]

abbrev seg5 : List (HloOp τ sig (Elt F)) :=
  [ unary main_v86 main_v116 ((extractStridedSlice S800000x1 ![0, 3] · slices_S800000x25_S800000x1_0_3) : (⟨S800000x25, .f32⟩ : BufTy).Contents (Elt F) → (⟨S800000x1, .f32⟩ : BufTy).Contents (Elt F)),
    unary main_arg3 main_v117 ((extractStridedSlice S1x64x16 ![3, 0, 0] · slices_S25x64x16_S1x64x16_3_0_0) : (⟨S25x64x16, .f32⟩ : BufTy).Contents (Elt F) → (⟨S1x64x16, .f32⟩ : BufTy).Contents (Elt F)),
    reshape main_v117 main_v118 rfl shapeCasts_S1x64x16_S64x16,
    binary main_v93 main_v118 main_v119 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v116 main_v120 (broadcastInDim S800000x16 ![0, 1] bcast_S800000x1_S800000x16_0_1 : (⟨S800000x1, .f32⟩ : BufTy).Contents (Elt F) → (⟨S800000x16, .f32⟩ : BufTy).Contents (Elt F)),
    binary main_v120 main_v119 main_v121 (mulf : (⟨S800000x16, .f32⟩ : BufTy).Contents (Elt F) → (⟨S800000x16, .f32⟩ : BufTy).Contents (Elt F) → (⟨S800000x16, .f32⟩ : BufTy).Contents (Elt F)),
    binary main_v115 main_v121 main_v122 (addf : (⟨S800000x16, .f32⟩ : BufTy).Contents (Elt F) → (⟨S800000x16, .f32⟩ : BufTy).Contents (Elt F) → (⟨S800000x16, .f32⟩ : BufTy).Contents (Elt F)) ]

abbrev seg6 : List (HloOp τ sig (Elt F)) :=
  [ unary main_v86 main_v123 ((extractStridedSlice S800000x1 ![0, 4] · slices_S800000x25_S800000x1_0_4) : (⟨S800000x25, .f32⟩ : BufTy).Contents (Elt F) → (⟨S800000x1, .f32⟩ : BufTy).Contents (Elt F)),
    unary main_arg3 main_v124 ((extractStridedSlice S1x64x16 ![4, 0, 0] · slices_S25x64x16_S1x64x16_4_0_0) : (⟨S25x64x16, .f32⟩ : BufTy).Contents (Elt F) → (⟨S1x64x16, .f32⟩ : BufTy).Contents (Elt F)),
    reshape main_v124 main_v125 rfl shapeCasts_S1x64x16_S64x16,
    binary main_v93 main_v125 main_v126 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v123 main_v127 (broadcastInDim S800000x16 ![0, 1] bcast_S800000x1_S800000x16_0_1 : (⟨S800000x1, .f32⟩ : BufTy).Contents (Elt F) → (⟨S800000x16, .f32⟩ : BufTy).Contents (Elt F)),
    binary main_v127 main_v126 main_v128 (mulf : (⟨S800000x16, .f32⟩ : BufTy).Contents (Elt F) → (⟨S800000x16, .f32⟩ : BufTy).Contents (Elt F) → (⟨S800000x16, .f32⟩ : BufTy).Contents (Elt F)),
    binary main_v122 main_v128 main_v129 (addf : (⟨S800000x16, .f32⟩ : BufTy).Contents (Elt F) → (⟨S800000x16, .f32⟩ : BufTy).Contents (Elt F) → (⟨S800000x16, .f32⟩ : BufTy).Contents (Elt F)) ]

abbrev seg7 : List (HloOp τ sig (Elt F)) :=
  [ unary main_v86 main_v130 ((extractStridedSlice S800000x1 ![0, 5] · slices_S800000x25_S800000x1_0_5) : (⟨S800000x25, .f32⟩ : BufTy).Contents (Elt F) → (⟨S800000x1, .f32⟩ : BufTy).Contents (Elt F)),
    unary main_arg3 main_v131 ((extractStridedSlice S1x64x16 ![5, 0, 0] · slices_S25x64x16_S1x64x16_5_0_0) : (⟨S25x64x16, .f32⟩ : BufTy).Contents (Elt F) → (⟨S1x64x16, .f32⟩ : BufTy).Contents (Elt F)),
    reshape main_v131 main_v132 rfl shapeCasts_S1x64x16_S64x16,
    binary main_v93 main_v132 main_v133 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v130 main_v134 (broadcastInDim S800000x16 ![0, 1] bcast_S800000x1_S800000x16_0_1 : (⟨S800000x1, .f32⟩ : BufTy).Contents (Elt F) → (⟨S800000x16, .f32⟩ : BufTy).Contents (Elt F)),
    binary main_v134 main_v133 main_v135 (mulf : (⟨S800000x16, .f32⟩ : BufTy).Contents (Elt F) → (⟨S800000x16, .f32⟩ : BufTy).Contents (Elt F) → (⟨S800000x16, .f32⟩ : BufTy).Contents (Elt F)),
    binary main_v129 main_v135 main_v136 (addf : (⟨S800000x16, .f32⟩ : BufTy).Contents (Elt F) → (⟨S800000x16, .f32⟩ : BufTy).Contents (Elt F) → (⟨S800000x16, .f32⟩ : BufTy).Contents (Elt F)) ]

abbrev seg8 : List (HloOp τ sig (Elt F)) :=
  [ unary main_v86 main_v137 ((extractStridedSlice S800000x1 ![0, 6] · slices_S800000x25_S800000x1_0_6) : (⟨S800000x25, .f32⟩ : BufTy).Contents (Elt F) → (⟨S800000x1, .f32⟩ : BufTy).Contents (Elt F)),
    unary main_arg3 main_v138 ((extractStridedSlice S1x64x16 ![6, 0, 0] · slices_S25x64x16_S1x64x16_6_0_0) : (⟨S25x64x16, .f32⟩ : BufTy).Contents (Elt F) → (⟨S1x64x16, .f32⟩ : BufTy).Contents (Elt F)),
    reshape main_v138 main_v139 rfl shapeCasts_S1x64x16_S64x16,
    binary main_v93 main_v139 main_v140 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v137 main_v141 (broadcastInDim S800000x16 ![0, 1] bcast_S800000x1_S800000x16_0_1 : (⟨S800000x1, .f32⟩ : BufTy).Contents (Elt F) → (⟨S800000x16, .f32⟩ : BufTy).Contents (Elt F)),
    binary main_v141 main_v140 main_v142 (mulf : (⟨S800000x16, .f32⟩ : BufTy).Contents (Elt F) → (⟨S800000x16, .f32⟩ : BufTy).Contents (Elt F) → (⟨S800000x16, .f32⟩ : BufTy).Contents (Elt F)),
    binary main_v136 main_v142 main_v143 (addf : (⟨S800000x16, .f32⟩ : BufTy).Contents (Elt F) → (⟨S800000x16, .f32⟩ : BufTy).Contents (Elt F) → (⟨S800000x16, .f32⟩ : BufTy).Contents (Elt F)) ]

abbrev seg9 : List (HloOp τ sig (Elt F)) :=
  [ unary main_v86 main_v144 ((extractStridedSlice S800000x1 ![0, 7] · slices_S800000x25_S800000x1_0_7) : (⟨S800000x25, .f32⟩ : BufTy).Contents (Elt F) → (⟨S800000x1, .f32⟩ : BufTy).Contents (Elt F)),
    unary main_arg3 main_v145 ((extractStridedSlice S1x64x16 ![7, 0, 0] · slices_S25x64x16_S1x64x16_7_0_0) : (⟨S25x64x16, .f32⟩ : BufTy).Contents (Elt F) → (⟨S1x64x16, .f32⟩ : BufTy).Contents (Elt F)),
    reshape main_v145 main_v146 rfl shapeCasts_S1x64x16_S64x16,
    binary main_v93 main_v146 main_v147 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v144 main_v148 (broadcastInDim S800000x16 ![0, 1] bcast_S800000x1_S800000x16_0_1 : (⟨S800000x1, .f32⟩ : BufTy).Contents (Elt F) → (⟨S800000x16, .f32⟩ : BufTy).Contents (Elt F)),
    binary main_v148 main_v147 main_v149 (mulf : (⟨S800000x16, .f32⟩ : BufTy).Contents (Elt F) → (⟨S800000x16, .f32⟩ : BufTy).Contents (Elt F) → (⟨S800000x16, .f32⟩ : BufTy).Contents (Elt F)),
    binary main_v143 main_v149 main_v150 (addf : (⟨S800000x16, .f32⟩ : BufTy).Contents (Elt F) → (⟨S800000x16, .f32⟩ : BufTy).Contents (Elt F) → (⟨S800000x16, .f32⟩ : BufTy).Contents (Elt F)) ]

abbrev seg10a : List (HloOp τ sig (Elt F)) :=
  [ unary main_v86 main_v151 ((extractStridedSlice S800000x1 ![0, 8] · slices_S800000x25_S800000x1_0_8) : (⟨S800000x25, .f32⟩ : BufTy).Contents (Elt F) → (⟨S800000x1, .f32⟩ : BufTy).Contents (Elt F)),
    unary main_arg3 main_v152 ((extractStridedSlice S1x64x16 ![8, 0, 0] · slices_S25x64x16_S1x64x16_8_0_0) : (⟨S25x64x16, .f32⟩ : BufTy).Contents (Elt F) → (⟨S1x64x16, .f32⟩ : BufTy).Contents (Elt F)) ]

abbrev seg10b : List (HloOp τ sig (Elt F)) :=
  [ reshape main_v152 main_v153 rfl shapeCasts_S1x64x16_S64x16,
    binary main_v93 main_v153 main_v154 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v151 main_v155 (broadcastInDim S800000x16 ![0, 1] bcast_S800000x1_S800000x16_0_1 : (⟨S800000x1, .f32⟩ : BufTy).Contents (Elt F) → (⟨S800000x16, .f32⟩ : BufTy).Contents (Elt F)),
    binary main_v155 main_v154 main_v156 (mulf : (⟨S800000x16, .f32⟩ : BufTy).Contents (Elt F) → (⟨S800000x16, .f32⟩ : BufTy).Contents (Elt F) → (⟨S800000x16, .f32⟩ : BufTy).Contents (Elt F)),
    binary main_v150 main_v156 main_v157 (addf : (⟨S800000x16, .f32⟩ : BufTy).Contents (Elt F) → (⟨S800000x16, .f32⟩ : BufTy).Contents (Elt F) → (⟨S800000x16, .f32⟩ : BufTy).Contents (Elt F)) ]

abbrev seg10 : List (HloOp τ sig (Elt F)) := seg10a ++ seg10b

abbrev seg11 : List (HloOp τ sig (Elt F)) :=
  [ unary main_v86 main_v158 ((extractStridedSlice S800000x1 ![0, 9] · slices_S800000x25_S800000x1_0_9) : (⟨S800000x25, .f32⟩ : BufTy).Contents (Elt F) → (⟨S800000x1, .f32⟩ : BufTy).Contents (Elt F)),
    unary main_arg3 main_v159 ((extractStridedSlice S1x64x16 ![9, 0, 0] · slices_S25x64x16_S1x64x16_9_0_0) : (⟨S25x64x16, .f32⟩ : BufTy).Contents (Elt F) → (⟨S1x64x16, .f32⟩ : BufTy).Contents (Elt F)),
    reshape main_v159 main_v160 rfl shapeCasts_S1x64x16_S64x16,
    binary main_v93 main_v160 main_v161 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v158 main_v162 (broadcastInDim S800000x16 ![0, 1] bcast_S800000x1_S800000x16_0_1 : (⟨S800000x1, .f32⟩ : BufTy).Contents (Elt F) → (⟨S800000x16, .f32⟩ : BufTy).Contents (Elt F)),
    binary main_v162 main_v161 main_v163 (mulf : (⟨S800000x16, .f32⟩ : BufTy).Contents (Elt F) → (⟨S800000x16, .f32⟩ : BufTy).Contents (Elt F) → (⟨S800000x16, .f32⟩ : BufTy).Contents (Elt F)),
    binary main_v157 main_v163 main_v164 (addf : (⟨S800000x16, .f32⟩ : BufTy).Contents (Elt F) → (⟨S800000x16, .f32⟩ : BufTy).Contents (Elt F) → (⟨S800000x16, .f32⟩ : BufTy).Contents (Elt F)) ]

abbrev seg12 : List (HloOp τ sig (Elt F)) :=
  [ unary main_v86 main_v165 ((extractStridedSlice S800000x1 ![0, 10] · slices_S800000x25_S800000x1_0_10) : (⟨S800000x25, .f32⟩ : BufTy).Contents (Elt F) → (⟨S800000x1, .f32⟩ : BufTy).Contents (Elt F)),
    unary main_arg3 main_v166 ((extractStridedSlice S1x64x16 ![10, 0, 0] · slices_S25x64x16_S1x64x16_10_0_0) : (⟨S25x64x16, .f32⟩ : BufTy).Contents (Elt F) → (⟨S1x64x16, .f32⟩ : BufTy).Contents (Elt F)),
    reshape main_v166 main_v167 rfl shapeCasts_S1x64x16_S64x16,
    binary main_v93 main_v167 main_v168 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v165 main_v169 (broadcastInDim S800000x16 ![0, 1] bcast_S800000x1_S800000x16_0_1 : (⟨S800000x1, .f32⟩ : BufTy).Contents (Elt F) → (⟨S800000x16, .f32⟩ : BufTy).Contents (Elt F)),
    binary main_v169 main_v168 main_v170 (mulf : (⟨S800000x16, .f32⟩ : BufTy).Contents (Elt F) → (⟨S800000x16, .f32⟩ : BufTy).Contents (Elt F) → (⟨S800000x16, .f32⟩ : BufTy).Contents (Elt F)),
    binary main_v164 main_v170 main_v171 (addf : (⟨S800000x16, .f32⟩ : BufTy).Contents (Elt F) → (⟨S800000x16, .f32⟩ : BufTy).Contents (Elt F) → (⟨S800000x16, .f32⟩ : BufTy).Contents (Elt F)) ]

abbrev seg13 : List (HloOp τ sig (Elt F)) :=
  [ unary main_v86 main_v172 ((extractStridedSlice S800000x1 ![0, 11] · slices_S800000x25_S800000x1_0_11) : (⟨S800000x25, .f32⟩ : BufTy).Contents (Elt F) → (⟨S800000x1, .f32⟩ : BufTy).Contents (Elt F)),
    unary main_arg3 main_v173 ((extractStridedSlice S1x64x16 ![11, 0, 0] · slices_S25x64x16_S1x64x16_11_0_0) : (⟨S25x64x16, .f32⟩ : BufTy).Contents (Elt F) → (⟨S1x64x16, .f32⟩ : BufTy).Contents (Elt F)),
    reshape main_v173 main_v174 rfl shapeCasts_S1x64x16_S64x16,
    binary main_v93 main_v174 main_v175 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v172 main_v176 (broadcastInDim S800000x16 ![0, 1] bcast_S800000x1_S800000x16_0_1 : (⟨S800000x1, .f32⟩ : BufTy).Contents (Elt F) → (⟨S800000x16, .f32⟩ : BufTy).Contents (Elt F)),
    binary main_v176 main_v175 main_v177 (mulf : (⟨S800000x16, .f32⟩ : BufTy).Contents (Elt F) → (⟨S800000x16, .f32⟩ : BufTy).Contents (Elt F) → (⟨S800000x16, .f32⟩ : BufTy).Contents (Elt F)),
    binary main_v171 main_v177 main_v178 (addf : (⟨S800000x16, .f32⟩ : BufTy).Contents (Elt F) → (⟨S800000x16, .f32⟩ : BufTy).Contents (Elt F) → (⟨S800000x16, .f32⟩ : BufTy).Contents (Elt F)) ]

abbrev seg14 : List (HloOp τ sig (Elt F)) :=
  [ unary main_v86 main_v179 ((extractStridedSlice S800000x1 ![0, 12] · slices_S800000x25_S800000x1_0_12) : (⟨S800000x25, .f32⟩ : BufTy).Contents (Elt F) → (⟨S800000x1, .f32⟩ : BufTy).Contents (Elt F)),
    unary main_arg3 main_v180 ((extractStridedSlice S1x64x16 ![12, 0, 0] · slices_S25x64x16_S1x64x16_12_0_0) : (⟨S25x64x16, .f32⟩ : BufTy).Contents (Elt F) → (⟨S1x64x16, .f32⟩ : BufTy).Contents (Elt F)),
    reshape main_v180 main_v181 rfl shapeCasts_S1x64x16_S64x16,
    binary main_v93 main_v181 main_v182 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v179 main_v183 (broadcastInDim S800000x16 ![0, 1] bcast_S800000x1_S800000x16_0_1 : (⟨S800000x1, .f32⟩ : BufTy).Contents (Elt F) → (⟨S800000x16, .f32⟩ : BufTy).Contents (Elt F)),
    binary main_v183 main_v182 main_v184 (mulf : (⟨S800000x16, .f32⟩ : BufTy).Contents (Elt F) → (⟨S800000x16, .f32⟩ : BufTy).Contents (Elt F) → (⟨S800000x16, .f32⟩ : BufTy).Contents (Elt F)),
    binary main_v178 main_v184 main_v185 (addf : (⟨S800000x16, .f32⟩ : BufTy).Contents (Elt F) → (⟨S800000x16, .f32⟩ : BufTy).Contents (Elt F) → (⟨S800000x16, .f32⟩ : BufTy).Contents (Elt F)) ]

abbrev seg15 : List (HloOp τ sig (Elt F)) :=
  [ unary main_v86 main_v186 ((extractStridedSlice S800000x1 ![0, 13] · slices_S800000x25_S800000x1_0_13) : (⟨S800000x25, .f32⟩ : BufTy).Contents (Elt F) → (⟨S800000x1, .f32⟩ : BufTy).Contents (Elt F)),
    unary main_arg3 main_v187 ((extractStridedSlice S1x64x16 ![13, 0, 0] · slices_S25x64x16_S1x64x16_13_0_0) : (⟨S25x64x16, .f32⟩ : BufTy).Contents (Elt F) → (⟨S1x64x16, .f32⟩ : BufTy).Contents (Elt F)),
    reshape main_v187 main_v188 rfl shapeCasts_S1x64x16_S64x16,
    binary main_v93 main_v188 main_v189 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v186 main_v190 (broadcastInDim S800000x16 ![0, 1] bcast_S800000x1_S800000x16_0_1 : (⟨S800000x1, .f32⟩ : BufTy).Contents (Elt F) → (⟨S800000x16, .f32⟩ : BufTy).Contents (Elt F)),
    binary main_v190 main_v189 main_v191 (mulf : (⟨S800000x16, .f32⟩ : BufTy).Contents (Elt F) → (⟨S800000x16, .f32⟩ : BufTy).Contents (Elt F) → (⟨S800000x16, .f32⟩ : BufTy).Contents (Elt F)),
    binary main_v185 main_v191 main_v192 (addf : (⟨S800000x16, .f32⟩ : BufTy).Contents (Elt F) → (⟨S800000x16, .f32⟩ : BufTy).Contents (Elt F) → (⟨S800000x16, .f32⟩ : BufTy).Contents (Elt F)) ]

abbrev seg16 : List (HloOp τ sig (Elt F)) :=
  [ unary main_v86 main_v193 ((extractStridedSlice S800000x1 ![0, 14] · slices_S800000x25_S800000x1_0_14) : (⟨S800000x25, .f32⟩ : BufTy).Contents (Elt F) → (⟨S800000x1, .f32⟩ : BufTy).Contents (Elt F)),
    unary main_arg3 main_v194 ((extractStridedSlice S1x64x16 ![14, 0, 0] · slices_S25x64x16_S1x64x16_14_0_0) : (⟨S25x64x16, .f32⟩ : BufTy).Contents (Elt F) → (⟨S1x64x16, .f32⟩ : BufTy).Contents (Elt F)),
    reshape main_v194 main_v195 rfl shapeCasts_S1x64x16_S64x16,
    binary main_v93 main_v195 main_v196 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v193 main_v197 (broadcastInDim S800000x16 ![0, 1] bcast_S800000x1_S800000x16_0_1 : (⟨S800000x1, .f32⟩ : BufTy).Contents (Elt F) → (⟨S800000x16, .f32⟩ : BufTy).Contents (Elt F)),
    binary main_v197 main_v196 main_v198 (mulf : (⟨S800000x16, .f32⟩ : BufTy).Contents (Elt F) → (⟨S800000x16, .f32⟩ : BufTy).Contents (Elt F) → (⟨S800000x16, .f32⟩ : BufTy).Contents (Elt F)),
    binary main_v192 main_v198 main_v199 (addf : (⟨S800000x16, .f32⟩ : BufTy).Contents (Elt F) → (⟨S800000x16, .f32⟩ : BufTy).Contents (Elt F) → (⟨S800000x16, .f32⟩ : BufTy).Contents (Elt F)) ]

abbrev seg17 : List (HloOp τ sig (Elt F)) :=
  [ unary main_v86 main_v200 ((extractStridedSlice S800000x1 ![0, 15] · slices_S800000x25_S800000x1_0_15) : (⟨S800000x25, .f32⟩ : BufTy).Contents (Elt F) → (⟨S800000x1, .f32⟩ : BufTy).Contents (Elt F)),
    unary main_arg3 main_v201 ((extractStridedSlice S1x64x16 ![15, 0, 0] · slices_S25x64x16_S1x64x16_15_0_0) : (⟨S25x64x16, .f32⟩ : BufTy).Contents (Elt F) → (⟨S1x64x16, .f32⟩ : BufTy).Contents (Elt F)),
    reshape main_v201 main_v202 rfl shapeCasts_S1x64x16_S64x16,
    binary main_v93 main_v202 main_v203 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v200 main_v204 (broadcastInDim S800000x16 ![0, 1] bcast_S800000x1_S800000x16_0_1 : (⟨S800000x1, .f32⟩ : BufTy).Contents (Elt F) → (⟨S800000x16, .f32⟩ : BufTy).Contents (Elt F)),
    binary main_v204 main_v203 main_v205 (mulf : (⟨S800000x16, .f32⟩ : BufTy).Contents (Elt F) → (⟨S800000x16, .f32⟩ : BufTy).Contents (Elt F) → (⟨S800000x16, .f32⟩ : BufTy).Contents (Elt F)),
    binary main_v199 main_v205 main_v206 (addf : (⟨S800000x16, .f32⟩ : BufTy).Contents (Elt F) → (⟨S800000x16, .f32⟩ : BufTy).Contents (Elt F) → (⟨S800000x16, .f32⟩ : BufTy).Contents (Elt F)) ]

abbrev seg18a : List (HloOp τ sig (Elt F)) :=
  [ unary main_v86 main_v207 ((extractStridedSlice S800000x1 ![0, 16] · slices_S800000x25_S800000x1_0_16) : (⟨S800000x25, .f32⟩ : BufTy).Contents (Elt F) → (⟨S800000x1, .f32⟩ : BufTy).Contents (Elt F)),
    unary main_arg3 main_v208 ((extractStridedSlice S1x64x16 ![16, 0, 0] · slices_S25x64x16_S1x64x16_16_0_0) : (⟨S25x64x16, .f32⟩ : BufTy).Contents (Elt F) → (⟨S1x64x16, .f32⟩ : BufTy).Contents (Elt F)),
    reshape main_v208 main_v209 rfl shapeCasts_S1x64x16_S64x16,
    binary main_v93 main_v209 main_v210 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v207 main_v211 (broadcastInDim S800000x16 ![0, 1] bcast_S800000x1_S800000x16_0_1 : (⟨S800000x1, .f32⟩ : BufTy).Contents (Elt F) → (⟨S800000x16, .f32⟩ : BufTy).Contents (Elt F)),
    binary main_v211 main_v210 main_v212 (mulf : (⟨S800000x16, .f32⟩ : BufTy).Contents (Elt F) → (⟨S800000x16, .f32⟩ : BufTy).Contents (Elt F) → (⟨S800000x16, .f32⟩ : BufTy).Contents (Elt F)) ]

abbrev seg18b : List (HloOp τ sig (Elt F)) :=
  [ binary main_v206 main_v212 main_v213 (addf : (⟨S800000x16, .f32⟩ : BufTy).Contents (Elt F) → (⟨S800000x16, .f32⟩ : BufTy).Contents (Elt F) → (⟨S800000x16, .f32⟩ : BufTy).Contents (Elt F)) ]

abbrev seg18 : List (HloOp τ sig (Elt F)) := seg18a ++ seg18b

abbrev seg19 : List (HloOp τ sig (Elt F)) :=
  [ unary main_v86 main_v214 ((extractStridedSlice S800000x1 ![0, 17] · slices_S800000x25_S800000x1_0_17) : (⟨S800000x25, .f32⟩ : BufTy).Contents (Elt F) → (⟨S800000x1, .f32⟩ : BufTy).Contents (Elt F)),
    unary main_arg3 main_v215 ((extractStridedSlice S1x64x16 ![17, 0, 0] · slices_S25x64x16_S1x64x16_17_0_0) : (⟨S25x64x16, .f32⟩ : BufTy).Contents (Elt F) → (⟨S1x64x16, .f32⟩ : BufTy).Contents (Elt F)),
    reshape main_v215 main_v216 rfl shapeCasts_S1x64x16_S64x16,
    binary main_v93 main_v216 main_v217 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v214 main_v218 (broadcastInDim S800000x16 ![0, 1] bcast_S800000x1_S800000x16_0_1 : (⟨S800000x1, .f32⟩ : BufTy).Contents (Elt F) → (⟨S800000x16, .f32⟩ : BufTy).Contents (Elt F)),
    binary main_v218 main_v217 main_v219 (mulf : (⟨S800000x16, .f32⟩ : BufTy).Contents (Elt F) → (⟨S800000x16, .f32⟩ : BufTy).Contents (Elt F) → (⟨S800000x16, .f32⟩ : BufTy).Contents (Elt F)),
    binary main_v213 main_v219 main_v220 (addf : (⟨S800000x16, .f32⟩ : BufTy).Contents (Elt F) → (⟨S800000x16, .f32⟩ : BufTy).Contents (Elt F) → (⟨S800000x16, .f32⟩ : BufTy).Contents (Elt F)) ]

abbrev seg20 : List (HloOp τ sig (Elt F)) :=
  [ unary main_v86 main_v221 ((extractStridedSlice S800000x1 ![0, 18] · slices_S800000x25_S800000x1_0_18) : (⟨S800000x25, .f32⟩ : BufTy).Contents (Elt F) → (⟨S800000x1, .f32⟩ : BufTy).Contents (Elt F)),
    unary main_arg3 main_v222 ((extractStridedSlice S1x64x16 ![18, 0, 0] · slices_S25x64x16_S1x64x16_18_0_0) : (⟨S25x64x16, .f32⟩ : BufTy).Contents (Elt F) → (⟨S1x64x16, .f32⟩ : BufTy).Contents (Elt F)),
    reshape main_v222 main_v223 rfl shapeCasts_S1x64x16_S64x16,
    binary main_v93 main_v223 main_v224 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v221 main_v225 (broadcastInDim S800000x16 ![0, 1] bcast_S800000x1_S800000x16_0_1 : (⟨S800000x1, .f32⟩ : BufTy).Contents (Elt F) → (⟨S800000x16, .f32⟩ : BufTy).Contents (Elt F)),
    binary main_v225 main_v224 main_v226 (mulf : (⟨S800000x16, .f32⟩ : BufTy).Contents (Elt F) → (⟨S800000x16, .f32⟩ : BufTy).Contents (Elt F) → (⟨S800000x16, .f32⟩ : BufTy).Contents (Elt F)),
    binary main_v220 main_v226 main_v227 (addf : (⟨S800000x16, .f32⟩ : BufTy).Contents (Elt F) → (⟨S800000x16, .f32⟩ : BufTy).Contents (Elt F) → (⟨S800000x16, .f32⟩ : BufTy).Contents (Elt F)) ]

abbrev seg21 : List (HloOp τ sig (Elt F)) :=
  [ unary main_v86 main_v228 ((extractStridedSlice S800000x1 ![0, 19] · slices_S800000x25_S800000x1_0_19) : (⟨S800000x25, .f32⟩ : BufTy).Contents (Elt F) → (⟨S800000x1, .f32⟩ : BufTy).Contents (Elt F)),
    unary main_arg3 main_v229 ((extractStridedSlice S1x64x16 ![19, 0, 0] · slices_S25x64x16_S1x64x16_19_0_0) : (⟨S25x64x16, .f32⟩ : BufTy).Contents (Elt F) → (⟨S1x64x16, .f32⟩ : BufTy).Contents (Elt F)),
    reshape main_v229 main_v230 rfl shapeCasts_S1x64x16_S64x16,
    binary main_v93 main_v230 main_v231 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v228 main_v232 (broadcastInDim S800000x16 ![0, 1] bcast_S800000x1_S800000x16_0_1 : (⟨S800000x1, .f32⟩ : BufTy).Contents (Elt F) → (⟨S800000x16, .f32⟩ : BufTy).Contents (Elt F)),
    binary main_v232 main_v231 main_v233 (mulf : (⟨S800000x16, .f32⟩ : BufTy).Contents (Elt F) → (⟨S800000x16, .f32⟩ : BufTy).Contents (Elt F) → (⟨S800000x16, .f32⟩ : BufTy).Contents (Elt F)),
    binary main_v227 main_v233 main_v234 (addf : (⟨S800000x16, .f32⟩ : BufTy).Contents (Elt F) → (⟨S800000x16, .f32⟩ : BufTy).Contents (Elt F) → (⟨S800000x16, .f32⟩ : BufTy).Contents (Elt F)) ]

abbrev seg22 : List (HloOp τ sig (Elt F)) :=
  [ unary main_v86 main_v235 ((extractStridedSlice S800000x1 ![0, 20] · slices_S800000x25_S800000x1_0_20) : (⟨S800000x25, .f32⟩ : BufTy).Contents (Elt F) → (⟨S800000x1, .f32⟩ : BufTy).Contents (Elt F)),
    unary main_arg3 main_v236 ((extractStridedSlice S1x64x16 ![20, 0, 0] · slices_S25x64x16_S1x64x16_20_0_0) : (⟨S25x64x16, .f32⟩ : BufTy).Contents (Elt F) → (⟨S1x64x16, .f32⟩ : BufTy).Contents (Elt F)),
    reshape main_v236 main_v237 rfl shapeCasts_S1x64x16_S64x16,
    binary main_v93 main_v237 main_v238 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v235 main_v239 (broadcastInDim S800000x16 ![0, 1] bcast_S800000x1_S800000x16_0_1 : (⟨S800000x1, .f32⟩ : BufTy).Contents (Elt F) → (⟨S800000x16, .f32⟩ : BufTy).Contents (Elt F)),
    binary main_v239 main_v238 main_v240 (mulf : (⟨S800000x16, .f32⟩ : BufTy).Contents (Elt F) → (⟨S800000x16, .f32⟩ : BufTy).Contents (Elt F) → (⟨S800000x16, .f32⟩ : BufTy).Contents (Elt F)),
    binary main_v234 main_v240 main_v241 (addf : (⟨S800000x16, .f32⟩ : BufTy).Contents (Elt F) → (⟨S800000x16, .f32⟩ : BufTy).Contents (Elt F) → (⟨S800000x16, .f32⟩ : BufTy).Contents (Elt F)) ]

abbrev seg23 : List (HloOp τ sig (Elt F)) :=
  [ unary main_v86 main_v242 ((extractStridedSlice S800000x1 ![0, 21] · slices_S800000x25_S800000x1_0_21) : (⟨S800000x25, .f32⟩ : BufTy).Contents (Elt F) → (⟨S800000x1, .f32⟩ : BufTy).Contents (Elt F)),
    unary main_arg3 main_v243 ((extractStridedSlice S1x64x16 ![21, 0, 0] · slices_S25x64x16_S1x64x16_21_0_0) : (⟨S25x64x16, .f32⟩ : BufTy).Contents (Elt F) → (⟨S1x64x16, .f32⟩ : BufTy).Contents (Elt F)),
    reshape main_v243 main_v244 rfl shapeCasts_S1x64x16_S64x16,
    binary main_v93 main_v244 main_v245 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v242 main_v246 (broadcastInDim S800000x16 ![0, 1] bcast_S800000x1_S800000x16_0_1 : (⟨S800000x1, .f32⟩ : BufTy).Contents (Elt F) → (⟨S800000x16, .f32⟩ : BufTy).Contents (Elt F)),
    binary main_v246 main_v245 main_v247 (mulf : (⟨S800000x16, .f32⟩ : BufTy).Contents (Elt F) → (⟨S800000x16, .f32⟩ : BufTy).Contents (Elt F) → (⟨S800000x16, .f32⟩ : BufTy).Contents (Elt F)),
    binary main_v241 main_v247 main_v248 (addf : (⟨S800000x16, .f32⟩ : BufTy).Contents (Elt F) → (⟨S800000x16, .f32⟩ : BufTy).Contents (Elt F) → (⟨S800000x16, .f32⟩ : BufTy).Contents (Elt F)) ]

abbrev seg24 : List (HloOp τ sig (Elt F)) :=
  [ unary main_v86 main_v249 ((extractStridedSlice S800000x1 ![0, 22] · slices_S800000x25_S800000x1_0_22) : (⟨S800000x25, .f32⟩ : BufTy).Contents (Elt F) → (⟨S800000x1, .f32⟩ : BufTy).Contents (Elt F)),
    unary main_arg3 main_v250 ((extractStridedSlice S1x64x16 ![22, 0, 0] · slices_S25x64x16_S1x64x16_22_0_0) : (⟨S25x64x16, .f32⟩ : BufTy).Contents (Elt F) → (⟨S1x64x16, .f32⟩ : BufTy).Contents (Elt F)),
    reshape main_v250 main_v251 rfl shapeCasts_S1x64x16_S64x16,
    binary main_v93 main_v251 main_v252 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v249 main_v253 (broadcastInDim S800000x16 ![0, 1] bcast_S800000x1_S800000x16_0_1 : (⟨S800000x1, .f32⟩ : BufTy).Contents (Elt F) → (⟨S800000x16, .f32⟩ : BufTy).Contents (Elt F)),
    binary main_v253 main_v252 main_v254 (mulf : (⟨S800000x16, .f32⟩ : BufTy).Contents (Elt F) → (⟨S800000x16, .f32⟩ : BufTy).Contents (Elt F) → (⟨S800000x16, .f32⟩ : BufTy).Contents (Elt F)),
    binary main_v248 main_v254 main_v255 (addf : (⟨S800000x16, .f32⟩ : BufTy).Contents (Elt F) → (⟨S800000x16, .f32⟩ : BufTy).Contents (Elt F) → (⟨S800000x16, .f32⟩ : BufTy).Contents (Elt F)) ]

abbrev seg25 : List (HloOp τ sig (Elt F)) :=
  [ unary main_v86 main_v256 ((extractStridedSlice S800000x1 ![0, 23] · slices_S800000x25_S800000x1_0_23) : (⟨S800000x25, .f32⟩ : BufTy).Contents (Elt F) → (⟨S800000x1, .f32⟩ : BufTy).Contents (Elt F)),
    unary main_arg3 main_v257 ((extractStridedSlice S1x64x16 ![23, 0, 0] · slices_S25x64x16_S1x64x16_23_0_0) : (⟨S25x64x16, .f32⟩ : BufTy).Contents (Elt F) → (⟨S1x64x16, .f32⟩ : BufTy).Contents (Elt F)),
    reshape main_v257 main_v258 rfl shapeCasts_S1x64x16_S64x16,
    binary main_v93 main_v258 main_v259 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v256 main_v260 (broadcastInDim S800000x16 ![0, 1] bcast_S800000x1_S800000x16_0_1 : (⟨S800000x1, .f32⟩ : BufTy).Contents (Elt F) → (⟨S800000x16, .f32⟩ : BufTy).Contents (Elt F)),
    binary main_v260 main_v259 main_v261 (mulf : (⟨S800000x16, .f32⟩ : BufTy).Contents (Elt F) → (⟨S800000x16, .f32⟩ : BufTy).Contents (Elt F) → (⟨S800000x16, .f32⟩ : BufTy).Contents (Elt F)),
    binary main_v255 main_v261 main_v262 (addf : (⟨S800000x16, .f32⟩ : BufTy).Contents (Elt F) → (⟨S800000x16, .f32⟩ : BufTy).Contents (Elt F) → (⟨S800000x16, .f32⟩ : BufTy).Contents (Elt F)) ]

abbrev seg26 : List (HloOp τ sig (Elt F)) :=
  [ unary main_v86 main_v263 ((extractStridedSlice S800000x1 ![0, 24] · slices_S800000x25_S800000x1_0_24) : (⟨S800000x25, .f32⟩ : BufTy).Contents (Elt F) → (⟨S800000x1, .f32⟩ : BufTy).Contents (Elt F)),
    unary main_arg3 main_v264 ((extractStridedSlice S1x64x16 ![24, 0, 0] · slices_S25x64x16_S1x64x16_24_0_0) : (⟨S25x64x16, .f32⟩ : BufTy).Contents (Elt F) → (⟨S1x64x16, .f32⟩ : BufTy).Contents (Elt F)),
    reshape main_v264 main_v265 rfl shapeCasts_S1x64x16_S64x16,
    binary main_v93 main_v265 main_v266 ((fun l r => Host.dotGeneral dot_S800000x64_S64x16_S800000x16_1_0_0_1_n_n none l r) : (⟨S800000x64, .f32⟩ : BufTy).Contents (Elt F) → (⟨S64x16, .f32⟩ : BufTy).Contents (Elt F) → (⟨S800000x16, .f32⟩ : BufTy).Contents (Elt F)),
    unary main_v263 main_v267 (broadcastInDim S800000x16 ![0, 1] bcast_S800000x1_S800000x16_0_1 : (⟨S800000x1, .f32⟩ : BufTy).Contents (Elt F) → (⟨S800000x16, .f32⟩ : BufTy).Contents (Elt F)),
    binary main_v267 main_v266 main_v268 (mulf : (⟨S800000x16, .f32⟩ : BufTy).Contents (Elt F) → (⟨S800000x16, .f32⟩ : BufTy).Contents (Elt F) → (⟨S800000x16, .f32⟩ : BufTy).Contents (Elt F)),
    binary main_v262 main_v268 main_v269 (addf : (⟨S800000x16, .f32⟩ : BufTy).Contents (Elt F) → (⟨S800000x16, .f32⟩ : BufTy).Contents (Elt F) → (⟨S800000x16, .f32⟩ : BufTy).Contents (Elt F)) ]

abbrev seg27a : List (HloOp τ sig (Elt F)) :=
  [ nullary main_cst_25 (constant S_ .f32 0x00000000#32),
    unary main_cst_25 main_v270 (broadcastInDim S50000x16 ![] bcast_S_S50000x16 : (⟨S_, .f32⟩ : BufTy).Contents (Elt F) → (⟨S50000x16, .f32⟩ : BufTy).Contents (Elt F)),
    unary main_v3 main_v271 (broadcastInDim S800000x1 ![0] bcast_S800000_S800000x1_0 : (⟨S800000, .i32⟩ : BufTy).Contents (Elt F) → (⟨S800000x1, .i32⟩ : BufTy).Contents (Elt F)) ]

abbrev seg27b : List (HloOp τ sig (Elt F)) :=
  [ ternary main_v270 main_v271 main_v269 main_v272 ((fun x i u => Host.scatterAdd scatter_S50000x16_S800000x1_S800000x16_1_0_0_1 x i u) : (⟨S50000x16, .f32⟩ : BufTy).Contents (Elt F) → (⟨S800000x1, .i32⟩ : BufTy).Contents (Elt F) → (⟨S800000x16, .f32⟩ : BufTy).Contents (Elt F) → (⟨S50000x16, .f32⟩ : BufTy).Contents (Elt F)),
    nullary main_cst_26 (constant S_ .f32 0x3F800000#32),
    unary main_cst_26 main_v273 (broadcastInDim S800000 ![] bcast_S_S800000 : (⟨S_, .f32⟩ : BufTy).Contents (Elt F) → (⟨S800000, .f32⟩ : BufTy).Contents (Elt F)),
    nullary main_cst_27 (constant S_ .f32 0x00000000#32),
    unary main_cst_27 main_v274 (broadcastInDim S50000 ![] bcast_S_S50000 : (⟨S_, .f32⟩ : BufTy).Contents (Elt F) → (⟨S50000, .f32⟩ : BufTy).Contents (Elt F)),
    unary main_v3 main_v275 (broadcastInDim S800000x1 ![0] bcast_S800000_S800000x1_0 : (⟨S800000, .i32⟩ : BufTy).Contents (Elt F) → (⟨S800000x1, .i32⟩ : BufTy).Contents (Elt F)),
    ternary main_v274 main_v275 main_v273 main_v276 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_28 (constant S_ .f32 0x3F800000#32),
    TRef.unary ((.of main_cst_28) : TRef sig ⟨S_, .f32⟩) main_call1.v0 id,
    TRef.unary main_call1.v0 main_call1.v1 (broadcastInDim S50000 ![] bcast_S_S50000),
    TRef.binary main_call1.v1 ((.of main_v276) : TRef sig ⟨S50000, .f32⟩) main_call1.v2 maximumf,
    unary main_v277 main_v278 (broadcastInDim S50000x1 ![0] bcast_S50000_S50000x1_0 : (⟨S50000, .f32⟩ : BufTy).Contents (Elt F) → (⟨S50000x1, .f32⟩ : BufTy).Contents (Elt F)),
    unary main_v278 main_v279 (broadcastInDim S50000x16 ![0, 1] bcast_S50000x1_S50000x16_0_1 : (⟨S50000x1, .f32⟩ : BufTy).Contents (Elt F) → (⟨S50000x16, .f32⟩ : BufTy).Contents (Elt F)),
    binary main_v272 main_v279 main_v280 (Host.divf : (⟨S50000x16, .f32⟩ : BufTy).Contents (Elt F) → (⟨S50000x16, .f32⟩ : BufTy).Contents (Elt F) → (⟨S50000x16, .f32⟩ : BufTy).Contents (Elt F)),
    binary main_arg0 main_arg4 main_v281 ((fun l r => Host.dotGeneral dot_S50000x64_S64x16_S50000x16_1_0_0_1_n_n none l r) : (⟨S50000x64, .f32⟩ : BufTy).Contents (Elt F) → (⟨S64x16, .f32⟩ : BufTy).Contents (Elt F) → (⟨S50000x16, .f32⟩ : BufTy).Contents (Elt F)),
    binary main_v280 main_v281 main_v282 (addf : (⟨S50000x16, .f32⟩ : BufTy).Contents (Elt F) → (⟨S50000x16, .f32⟩ : BufTy).Contents (Elt F) → (⟨S50000x16, .f32⟩ : BufTy).Contents (Elt F)),
    unary main_arg5 main_v283 (broadcastInDim S1x16 ![1] bcast_S16_S1x16_1 : (⟨S16, .f32⟩ : BufTy).Contents (Elt F) → (⟨S1x16, .f32⟩ : BufTy).Contents (Elt F)),
    unary main_v283 main_v284 (broadcastInDim S50000x16 ![0, 1] bcast_S1x16_S50000x16_0_1 : (⟨S1x16, .f32⟩ : BufTy).Contents (Elt F) → (⟨S50000x16, .f32⟩ : BufTy).Contents (Elt F)),
    binary main_v282 main_v284 main_v285 (addf : (⟨S50000x16, .f32⟩ : BufTy).Contents (Elt F) → (⟨S50000x16, .f32⟩ : BufTy).Contents (Elt F) → (⟨S50000x16, .f32⟩ : BufTy).Contents (Elt F)),
    TRef.nullary main_call2.cst (constant S_ .f32 0x00000000#32),
    TRef.unary main_call2.cst main_call2.v0 (broadcastInDim S50000x16 ![] bcast_S_S50000x16),
    TRef.binary ((.of main_v285) : TRef sig ⟨S50000x16, .f32⟩) main_call2.v0 main_call2.v1 maximumf ]

abbrev seg27 : List (HloOp τ sig (Elt F)) := seg27a ++ seg27b

abbrev seg28 : List (HloOp τ sig (Elt F)) :=
  [ nullary main_cst_29 (constant S_ .f32 0x00000000#32),
    unary main_cst_29 main_v287 (broadcastInDim S800000x25 ![] bcast_S_S800000x25 : (⟨S_, .f32⟩ : BufTy).Contents (Elt F) → (⟨S800000x25, .f32⟩ : BufTy).Contents (Elt F)),
    nullary main_v288 (iotaInDim S800000 32 0),
    unary main_v288 main_v289 (broadcastInDim S800000x1 ![0] bcast_S800000_S800000x1_0 : (⟨S800000, .i32⟩ : BufTy).Contents (Elt F) → (⟨S800000x1, .i32⟩ : BufTy).Contents (Elt F)),
    nullary main_c_30 (constantI S_ 32 0#32),
    unary main_c_30 main_v290 (broadcastInDim S800000x1 ![] bcast_S_S800000x1 : (⟨S_, .i32⟩ : BufTy).Contents (Elt F) → (⟨S800000x1, .i32⟩ : BufTy).Contents (Elt F)),
    binary main_v289 main_v290 main_v291 (cmpi .slt : (⟨S800000x1, .i32⟩ : BufTy).Contents (Elt F) → (⟨S800000x1, .i32⟩ : BufTy).Contents (Elt F) → (⟨S800000x1, .i1⟩ : BufTy).Contents (Elt F)),
    nullary main_c_31 (constantI S_ 32 800000#32),
    unary main_c_31 main_v292 (broadcastInDim S800000x1 ![] bcast_S_S800000x1 : (⟨S_, .i32⟩ : BufTy).Contents (Elt F) → (⟨S800000x1, .i32⟩ : BufTy).Contents (Elt F)),
    binary main_v289 main_v292 main_v293 (addi : (⟨S800000x1, .i32⟩ : BufTy).Contents (Elt F) → (⟨S800000x1, .i32⟩ : BufTy).Contents (Elt F) → (⟨S800000x1, .i32⟩ : BufTy).Contents (Elt F)),
    ternary main_v291 main_v293 main_v289 main_v294 (select : (⟨S800000x1, .i1⟩ : BufTy).Contents (Elt F) → (⟨S800000x1, .i32⟩ : BufTy).Contents (Elt F) → (⟨S800000x1, .i32⟩ : BufTy).Contents (Elt F) → (⟨S800000x1, .i32⟩ : BufTy).Contents (Elt F)),
    nullary main_c_32 (constantI S_ 32 0#32),
    unary main_c_32 main_v295 (broadcastInDim S800000x4 ![] bcast_S_S800000x4 : (⟨S_, .i32⟩ : BufTy).Contents (Elt F) → (⟨S800000x4, .i32⟩ : BufTy).Contents (Elt F)),
    binary main_v68 main_v295 main_v296 (cmpi .slt : (⟨S800000x4, .i32⟩ : BufTy).Contents (Elt F) → (⟨S800000x4, .i32⟩ : BufTy).Contents (Elt F) → (⟨S800000x4, .i1⟩ : BufTy).Contents (Elt F)),
    nullary main_c_33 (constantI S_ 32 25#32),
    unary main_c_33 main_v297 (broadcastInDim S800000x4 ![] bcast_S_S800000x4 : (⟨S_, .i32⟩ : BufTy).Contents (Elt F) → (⟨S800000x4, .i32⟩ : BufTy).Contents (Elt F)),
    binary main_v68 main_v297 main_v298 (addi : (⟨S800000x4, .i32⟩ : BufTy).Contents (Elt F) → (⟨S800000x4, .i32⟩ : BufTy).Contents (Elt F) → (⟨S800000x4, .i32⟩ : BufTy).Contents (Elt F)),
    ternary main_v296 main_v298 main_v68 main_v299 (select : (⟨S800000x4, .i1⟩ : BufTy).Contents (Elt F) → (⟨S800000x4, .i32⟩ : BufTy).Contents (Elt F) → (⟨S800000x4, .i32⟩ : BufTy).Contents (Elt F) → (⟨S800000x4, .i32⟩ : BufTy).Contents (Elt F)),
    unary main_v294 main_v300 (broadcastInDim S800000x4 ![0, 1] bcast_S800000x1_S800000x4_0_1 : (⟨S800000x1, .i32⟩ : BufTy).Contents (Elt F) → (⟨S800000x4, .i32⟩ : BufTy).Contents (Elt F)),
    unary main_v300 main_v301 (broadcastInDim S800000x4x1 ![0, 1] bcast_S800000x4_S800000x4x1_0_1 : (⟨S800000x4, .i32⟩ : BufTy).Contents (Elt F) → (⟨S800000x4x1, .i32⟩ : BufTy).Contents (Elt F)),
    unary main_v299 main_v302 (broadcastInDim S800000x4x1 ![0, 1] bcast_S800000x4_S800000x4x1_0_1 : (⟨S800000x4, .i32⟩ : BufTy).Contents (Elt F) → (⟨S800000x4x1, .i32⟩ : BufTy).Contents (Elt F)),
    binary main_v301 main_v302 main_v303 ((fun a b => concatenate S800000x4x2 2 [⟨S800000x4x1, a⟩, ⟨S800000x4x1, b⟩] concatenates_S800000x4x1_S800000x4x1_S800000x4x2_d2) : (⟨S800000x4x1, .i32⟩ : BufTy).Contents (Elt F) → (⟨S800000x4x1, .i32⟩ : BufTy).Contents (Elt F) → (⟨S800000x4x2, .i32⟩ : BufTy).Contents (Elt F)),
    ternary main_v287 main_v303 main_v43 main_v304 ((fun x i u => Host.scatterAdd scatter_S800000x25_S800000x4x2_S800000x4_n_01_01_2 x i u) : (⟨S800000x25, .f32⟩ : BufTy).Contents (Elt F) → (⟨S800000x4x2, .i32⟩ : BufTy).Contents (Elt F) → (⟨S800000x4, .f32⟩ : BufTy).Contents (Elt F) → (⟨S800000x25, .f32⟩ : BufTy).Contents (Elt F)),
    nullary main_c_34 (constantI S_ 32 0#32),
    unary main_c_34 main_v305 (broadcastInDim S800000 ![] bcast_S_S800000 : (⟨S_, .i32⟩ : BufTy).Contents (Elt F) → (⟨S800000, .i32⟩ : BufTy).Contents (Elt F)),
    binary main_v1 main_v305 main_v306 (cmpi .slt : (⟨S800000, .i32⟩ : BufTy).Contents (Elt F) → (⟨S800000, .i32⟩ : BufTy).Contents (Elt F) → (⟨S800000, .i1⟩ : BufTy).Contents (Elt F)),
    nullary main_c_35 (constantI S_ 32 50000#32),
    unary main_c_35 main_v307 (broadcastInDim S800000 ![] bcast_S_S800000 : (⟨S_, .i32⟩ : BufTy).Contents (Elt F) → (⟨S800000, .i32⟩ : BufTy).Contents (Elt F)),
    binary main_v1 main_v307 main_v308 (addi : (⟨S800000, .i32⟩ : BufTy).Contents (Elt F) → (⟨S800000, .i32⟩ : BufTy).Contents (Elt F) → (⟨S800000, .i32⟩ : BufTy).Contents (Elt F)),
    ternary main_v306 main_v308 main_v1 main_v309 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v309 main_v310 (broadcastInDim S800000x1 ![0] bcast_S800000_S800000x1_0 : (⟨S800000, .i32⟩ : BufTy).Contents (Elt F) → (⟨S800000x1, .i32⟩ : BufTy).Contents (Elt F)),
    binary main_v286 main_v310 main_v311 ((fun x i => Host.gather gather_S50000x16_S800000x1_S800000x16_1_0_n_n_0_1_116 x i) : (⟨S50000x16, .f32⟩ : BufTy).Contents (Elt F) → (⟨S800000x1, .i32⟩ : BufTy).Contents (Elt F) → (⟨S800000x16, .f32⟩ : BufTy).Contents (Elt F)),
    nullary main_cst_36 (constant S_ .f32 0x00000000#32),
    unary main_cst_36 main_v312 (broadcastInDim S800000x7 ![] bcast_S_S800000x7 : (⟨S_, .f32⟩ : BufTy).Contents (Elt F) → (⟨S800000x7, .f32⟩ : BufTy).Contents (Elt F)) ]

abbrev seg29 : List (HloOp τ sig (Elt F)) :=
  [ unary main_v304 main_v313 ((extractStridedSlice S800000x1 ![0, 0] · slices_S800000x25_S800000x1_0_0) : (⟨S800000x25, .f32⟩ : BufTy).Contents (Elt F) → (⟨S800000x1, .f32⟩ : BufTy).Contents (Elt F)),
    unary main_arg6 main_v314 ((extractStridedSlice S1x16x7 ![0, 0, 0] · slices_S25x16x7_S1x16x7_0_0_0) : (⟨S25x16x7, .f32⟩ : BufTy).Contents (Elt F) → (⟨S1x16x7, .f32⟩ : BufTy).Contents (Elt F)),
    reshape main_v314 main_v315 rfl shapeCasts_S1x16x7_S16x7,
    binary main_v311 main_v315 main_v316 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v313 main_v317 (broadcastInDim S800000x7 ![0, 1] bcast_S800000x1_S800000x7_0_1 : (⟨S800000x1, .f32⟩ : BufTy).Contents (Elt F) → (⟨S800000x7, .f32⟩ : BufTy).Contents (Elt F)),
    binary main_v317 main_v316 main_v318 (mulf : (⟨S800000x7, .f32⟩ : BufTy).Contents (Elt F) → (⟨S800000x7, .f32⟩ : BufTy).Contents (Elt F) → (⟨S800000x7, .f32⟩ : BufTy).Contents (Elt F)),
    binary main_v312 main_v318 main_v319 (addf : (⟨S800000x7, .f32⟩ : BufTy).Contents (Elt F) → (⟨S800000x7, .f32⟩ : BufTy).Contents (Elt F) → (⟨S800000x7, .f32⟩ : BufTy).Contents (Elt F)) ]

abbrev seg30a : List (HloOp τ sig (Elt F)) :=
  [ unary main_v304 main_v320 ((extractStridedSlice S800000x1 ![0, 1] · slices_S800000x25_S800000x1_0_1) : (⟨S800000x25, .f32⟩ : BufTy).Contents (Elt F) → (⟨S800000x1, .f32⟩ : BufTy).Contents (Elt F)) ]

abbrev seg30b : List (HloOp τ sig (Elt F)) :=
  [ unary main_arg6 main_v321 ((extractStridedSlice S1x16x7 ![1, 0, 0] · slices_S25x16x7_S1x16x7_1_0_0) : (⟨S25x16x7, .f32⟩ : BufTy).Contents (Elt F) → (⟨S1x16x7, .f32⟩ : BufTy).Contents (Elt F)),
    reshape main_v321 main_v322 rfl shapeCasts_S1x16x7_S16x7,
    binary main_v311 main_v322 main_v323 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v320 main_v324 (broadcastInDim S800000x7 ![0, 1] bcast_S800000x1_S800000x7_0_1 : (⟨S800000x1, .f32⟩ : BufTy).Contents (Elt F) → (⟨S800000x7, .f32⟩ : BufTy).Contents (Elt F)),
    binary main_v324 main_v323 main_v325 (mulf : (⟨S800000x7, .f32⟩ : BufTy).Contents (Elt F) → (⟨S800000x7, .f32⟩ : BufTy).Contents (Elt F) → (⟨S800000x7, .f32⟩ : BufTy).Contents (Elt F)),
    binary main_v319 main_v325 main_v326 (addf : (⟨S800000x7, .f32⟩ : BufTy).Contents (Elt F) → (⟨S800000x7, .f32⟩ : BufTy).Contents (Elt F) → (⟨S800000x7, .f32⟩ : BufTy).Contents (Elt F)) ]

abbrev seg30 : List (HloOp τ sig (Elt F)) := seg30a ++ seg30b

abbrev seg31 : List (HloOp τ sig (Elt F)) :=
  [ unary main_v304 main_v327 ((extractStridedSlice S800000x1 ![0, 2] · slices_S800000x25_S800000x1_0_2) : (⟨S800000x25, .f32⟩ : BufTy).Contents (Elt F) → (⟨S800000x1, .f32⟩ : BufTy).Contents (Elt F)),
    unary main_arg6 main_v328 ((extractStridedSlice S1x16x7 ![2, 0, 0] · slices_S25x16x7_S1x16x7_2_0_0) : (⟨S25x16x7, .f32⟩ : BufTy).Contents (Elt F) → (⟨S1x16x7, .f32⟩ : BufTy).Contents (Elt F)),
    reshape main_v328 main_v329 rfl shapeCasts_S1x16x7_S16x7,
    binary main_v311 main_v329 main_v330 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v327 main_v331 (broadcastInDim S800000x7 ![0, 1] bcast_S800000x1_S800000x7_0_1 : (⟨S800000x1, .f32⟩ : BufTy).Contents (Elt F) → (⟨S800000x7, .f32⟩ : BufTy).Contents (Elt F)),
    binary main_v331 main_v330 main_v332 (mulf : (⟨S800000x7, .f32⟩ : BufTy).Contents (Elt F) → (⟨S800000x7, .f32⟩ : BufTy).Contents (Elt F) → (⟨S800000x7, .f32⟩ : BufTy).Contents (Elt F)),
    binary main_v326 main_v332 main_v333 (addf : (⟨S800000x7, .f32⟩ : BufTy).Contents (Elt F) → (⟨S800000x7, .f32⟩ : BufTy).Contents (Elt F) → (⟨S800000x7, .f32⟩ : BufTy).Contents (Elt F)) ]

abbrev seg32 : List (HloOp τ sig (Elt F)) :=
  [ unary main_v304 main_v334 ((extractStridedSlice S800000x1 ![0, 3] · slices_S800000x25_S800000x1_0_3) : (⟨S800000x25, .f32⟩ : BufTy).Contents (Elt F) → (⟨S800000x1, .f32⟩ : BufTy).Contents (Elt F)),
    unary main_arg6 main_v335 ((extractStridedSlice S1x16x7 ![3, 0, 0] · slices_S25x16x7_S1x16x7_3_0_0) : (⟨S25x16x7, .f32⟩ : BufTy).Contents (Elt F) → (⟨S1x16x7, .f32⟩ : BufTy).Contents (Elt F)),
    reshape main_v335 main_v336 rfl shapeCasts_S1x16x7_S16x7,
    binary main_v311 main_v336 main_v337 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v334 main_v338 (broadcastInDim S800000x7 ![0, 1] bcast_S800000x1_S800000x7_0_1 : (⟨S800000x1, .f32⟩ : BufTy).Contents (Elt F) → (⟨S800000x7, .f32⟩ : BufTy).Contents (Elt F)),
    binary main_v338 main_v337 main_v339 (mulf : (⟨S800000x7, .f32⟩ : BufTy).Contents (Elt F) → (⟨S800000x7, .f32⟩ : BufTy).Contents (Elt F) → (⟨S800000x7, .f32⟩ : BufTy).Contents (Elt F)),
    binary main_v333 main_v339 main_v340 (addf : (⟨S800000x7, .f32⟩ : BufTy).Contents (Elt F) → (⟨S800000x7, .f32⟩ : BufTy).Contents (Elt F) → (⟨S800000x7, .f32⟩ : BufTy).Contents (Elt F)) ]

abbrev seg33 : List (HloOp τ sig (Elt F)) :=
  [ unary main_v304 main_v341 ((extractStridedSlice S800000x1 ![0, 4] · slices_S800000x25_S800000x1_0_4) : (⟨S800000x25, .f32⟩ : BufTy).Contents (Elt F) → (⟨S800000x1, .f32⟩ : BufTy).Contents (Elt F)),
    unary main_arg6 main_v342 ((extractStridedSlice S1x16x7 ![4, 0, 0] · slices_S25x16x7_S1x16x7_4_0_0) : (⟨S25x16x7, .f32⟩ : BufTy).Contents (Elt F) → (⟨S1x16x7, .f32⟩ : BufTy).Contents (Elt F)),
    reshape main_v342 main_v343 rfl shapeCasts_S1x16x7_S16x7,
    binary main_v311 main_v343 main_v344 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v341 main_v345 (broadcastInDim S800000x7 ![0, 1] bcast_S800000x1_S800000x7_0_1 : (⟨S800000x1, .f32⟩ : BufTy).Contents (Elt F) → (⟨S800000x7, .f32⟩ : BufTy).Contents (Elt F)),
    binary main_v345 main_v344 main_v346 (mulf : (⟨S800000x7, .f32⟩ : BufTy).Contents (Elt F) → (⟨S800000x7, .f32⟩ : BufTy).Contents (Elt F) → (⟨S800000x7, .f32⟩ : BufTy).Contents (Elt F)),
    binary main_v340 main_v346 main_v347 (addf : (⟨S800000x7, .f32⟩ : BufTy).Contents (Elt F) → (⟨S800000x7, .f32⟩ : BufTy).Contents (Elt F) → (⟨S800000x7, .f32⟩ : BufTy).Contents (Elt F)) ]

abbrev seg34 : List (HloOp τ sig (Elt F)) :=
  [ unary main_v304 main_v348 ((extractStridedSlice S800000x1 ![0, 5] · slices_S800000x25_S800000x1_0_5) : (⟨S800000x25, .f32⟩ : BufTy).Contents (Elt F) → (⟨S800000x1, .f32⟩ : BufTy).Contents (Elt F)),
    unary main_arg6 main_v349 ((extractStridedSlice S1x16x7 ![5, 0, 0] · slices_S25x16x7_S1x16x7_5_0_0) : (⟨S25x16x7, .f32⟩ : BufTy).Contents (Elt F) → (⟨S1x16x7, .f32⟩ : BufTy).Contents (Elt F)),
    reshape main_v349 main_v350 rfl shapeCasts_S1x16x7_S16x7,
    binary main_v311 main_v350 main_v351 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v348 main_v352 (broadcastInDim S800000x7 ![0, 1] bcast_S800000x1_S800000x7_0_1 : (⟨S800000x1, .f32⟩ : BufTy).Contents (Elt F) → (⟨S800000x7, .f32⟩ : BufTy).Contents (Elt F)),
    binary main_v352 main_v351 main_v353 (mulf : (⟨S800000x7, .f32⟩ : BufTy).Contents (Elt F) → (⟨S800000x7, .f32⟩ : BufTy).Contents (Elt F) → (⟨S800000x7, .f32⟩ : BufTy).Contents (Elt F)),
    binary main_v347 main_v353 main_v354 (addf : (⟨S800000x7, .f32⟩ : BufTy).Contents (Elt F) → (⟨S800000x7, .f32⟩ : BufTy).Contents (Elt F) → (⟨S800000x7, .f32⟩ : BufTy).Contents (Elt F)) ]

abbrev seg35 : List (HloOp τ sig (Elt F)) :=
  [ unary main_v304 main_v355 ((extractStridedSlice S800000x1 ![0, 6] · slices_S800000x25_S800000x1_0_6) : (⟨S800000x25, .f32⟩ : BufTy).Contents (Elt F) → (⟨S800000x1, .f32⟩ : BufTy).Contents (Elt F)),
    unary main_arg6 main_v356 ((extractStridedSlice S1x16x7 ![6, 0, 0] · slices_S25x16x7_S1x16x7_6_0_0) : (⟨S25x16x7, .f32⟩ : BufTy).Contents (Elt F) → (⟨S1x16x7, .f32⟩ : BufTy).Contents (Elt F)),
    reshape main_v356 main_v357 rfl shapeCasts_S1x16x7_S16x7,
    binary main_v311 main_v357 main_v358 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v355 main_v359 (broadcastInDim S800000x7 ![0, 1] bcast_S800000x1_S800000x7_0_1 : (⟨S800000x1, .f32⟩ : BufTy).Contents (Elt F) → (⟨S800000x7, .f32⟩ : BufTy).Contents (Elt F)),
    binary main_v359 main_v358 main_v360 (mulf : (⟨S800000x7, .f32⟩ : BufTy).Contents (Elt F) → (⟨S800000x7, .f32⟩ : BufTy).Contents (Elt F) → (⟨S800000x7, .f32⟩ : BufTy).Contents (Elt F)),
    binary main_v354 main_v360 main_v361 (addf : (⟨S800000x7, .f32⟩ : BufTy).Contents (Elt F) → (⟨S800000x7, .f32⟩ : BufTy).Contents (Elt F) → (⟨S800000x7, .f32⟩ : BufTy).Contents (Elt F)) ]

abbrev seg36 : List (HloOp τ sig (Elt F)) :=
  [ unary main_v304 main_v362 ((extractStridedSlice S800000x1 ![0, 7] · slices_S800000x25_S800000x1_0_7) : (⟨S800000x25, .f32⟩ : BufTy).Contents (Elt F) → (⟨S800000x1, .f32⟩ : BufTy).Contents (Elt F)),
    unary main_arg6 main_v363 ((extractStridedSlice S1x16x7 ![7, 0, 0] · slices_S25x16x7_S1x16x7_7_0_0) : (⟨S25x16x7, .f32⟩ : BufTy).Contents (Elt F) → (⟨S1x16x7, .f32⟩ : BufTy).Contents (Elt F)),
    reshape main_v363 main_v364 rfl shapeCasts_S1x16x7_S16x7,
    binary main_v311 main_v364 main_v365 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v362 main_v366 (broadcastInDim S800000x7 ![0, 1] bcast_S800000x1_S800000x7_0_1 : (⟨S800000x1, .f32⟩ : BufTy).Contents (Elt F) → (⟨S800000x7, .f32⟩ : BufTy).Contents (Elt F)),
    binary main_v366 main_v365 main_v367 (mulf : (⟨S800000x7, .f32⟩ : BufTy).Contents (Elt F) → (⟨S800000x7, .f32⟩ : BufTy).Contents (Elt F) → (⟨S800000x7, .f32⟩ : BufTy).Contents (Elt F)),
    binary main_v361 main_v367 main_v368 (addf : (⟨S800000x7, .f32⟩ : BufTy).Contents (Elt F) → (⟨S800000x7, .f32⟩ : BufTy).Contents (Elt F) → (⟨S800000x7, .f32⟩ : BufTy).Contents (Elt F)) ]

abbrev seg37 : List (HloOp τ sig (Elt F)) :=
  [ unary main_v304 main_v369 ((extractStridedSlice S800000x1 ![0, 8] · slices_S800000x25_S800000x1_0_8) : (⟨S800000x25, .f32⟩ : BufTy).Contents (Elt F) → (⟨S800000x1, .f32⟩ : BufTy).Contents (Elt F)),
    unary main_arg6 main_v370 ((extractStridedSlice S1x16x7 ![8, 0, 0] · slices_S25x16x7_S1x16x7_8_0_0) : (⟨S25x16x7, .f32⟩ : BufTy).Contents (Elt F) → (⟨S1x16x7, .f32⟩ : BufTy).Contents (Elt F)),
    reshape main_v370 main_v371 rfl shapeCasts_S1x16x7_S16x7,
    binary main_v311 main_v371 main_v372 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v369 main_v373 (broadcastInDim S800000x7 ![0, 1] bcast_S800000x1_S800000x7_0_1 : (⟨S800000x1, .f32⟩ : BufTy).Contents (Elt F) → (⟨S800000x7, .f32⟩ : BufTy).Contents (Elt F)),
    binary main_v373 main_v372 main_v374 (mulf : (⟨S800000x7, .f32⟩ : BufTy).Contents (Elt F) → (⟨S800000x7, .f32⟩ : BufTy).Contents (Elt F) → (⟨S800000x7, .f32⟩ : BufTy).Contents (Elt F)),
    binary main_v368 main_v374 main_v375 (addf : (⟨S800000x7, .f32⟩ : BufTy).Contents (Elt F) → (⟨S800000x7, .f32⟩ : BufTy).Contents (Elt F) → (⟨S800000x7, .f32⟩ : BufTy).Contents (Elt F)) ]

abbrev seg38a : List (HloOp τ sig (Elt F)) :=
  [ unary main_v304 main_v376 ((extractStridedSlice S800000x1 ![0, 9] · slices_S800000x25_S800000x1_0_9) : (⟨S800000x25, .f32⟩ : BufTy).Contents (Elt F) → (⟨S800000x1, .f32⟩ : BufTy).Contents (Elt F)),
    unary main_arg6 main_v377 ((extractStridedSlice S1x16x7 ![9, 0, 0] · slices_S25x16x7_S1x16x7_9_0_0) : (⟨S25x16x7, .f32⟩ : BufTy).Contents (Elt F) → (⟨S1x16x7, .f32⟩ : BufTy).Contents (Elt F)),
    reshape main_v377 main_v378 rfl shapeCasts_S1x16x7_S16x7,
    binary main_v311 main_v378 main_v379 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v376 main_v380 (broadcastInDim S800000x7 ![0, 1] bcast_S800000x1_S800000x7_0_1 : (⟨S800000x1, .f32⟩ : BufTy).Contents (Elt F) → (⟨S800000x7, .f32⟩ : BufTy).Contents (Elt F)) ]

abbrev seg38b : List (HloOp τ sig (Elt F)) :=
  [ binary main_v380 main_v379 main_v381 (mulf : (⟨S800000x7, .f32⟩ : BufTy).Contents (Elt F) → (⟨S800000x7, .f32⟩ : BufTy).Contents (Elt F) → (⟨S800000x7, .f32⟩ : BufTy).Contents (Elt F)),
    binary main_v375 main_v381 main_v382 (addf : (⟨S800000x7, .f32⟩ : BufTy).Contents (Elt F) → (⟨S800000x7, .f32⟩ : BufTy).Contents (Elt F) → (⟨S800000x7, .f32⟩ : BufTy).Contents (Elt F)) ]

abbrev seg38 : List (HloOp τ sig (Elt F)) := seg38a ++ seg38b

abbrev seg39 : List (HloOp τ sig (Elt F)) :=
  [ unary main_v304 main_v383 ((extractStridedSlice S800000x1 ![0, 10] · slices_S800000x25_S800000x1_0_10) : (⟨S800000x25, .f32⟩ : BufTy).Contents (Elt F) → (⟨S800000x1, .f32⟩ : BufTy).Contents (Elt F)),
    unary main_arg6 main_v384 ((extractStridedSlice S1x16x7 ![10, 0, 0] · slices_S25x16x7_S1x16x7_10_0_0) : (⟨S25x16x7, .f32⟩ : BufTy).Contents (Elt F) → (⟨S1x16x7, .f32⟩ : BufTy).Contents (Elt F)),
    reshape main_v384 main_v385 rfl shapeCasts_S1x16x7_S16x7,
    binary main_v311 main_v385 main_v386 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v383 main_v387 (broadcastInDim S800000x7 ![0, 1] bcast_S800000x1_S800000x7_0_1 : (⟨S800000x1, .f32⟩ : BufTy).Contents (Elt F) → (⟨S800000x7, .f32⟩ : BufTy).Contents (Elt F)),
    binary main_v387 main_v386 main_v388 (mulf : (⟨S800000x7, .f32⟩ : BufTy).Contents (Elt F) → (⟨S800000x7, .f32⟩ : BufTy).Contents (Elt F) → (⟨S800000x7, .f32⟩ : BufTy).Contents (Elt F)),
    binary main_v382 main_v388 main_v389 (addf : (⟨S800000x7, .f32⟩ : BufTy).Contents (Elt F) → (⟨S800000x7, .f32⟩ : BufTy).Contents (Elt F) → (⟨S800000x7, .f32⟩ : BufTy).Contents (Elt F)) ]

abbrev seg40 : List (HloOp τ sig (Elt F)) :=
  [ unary main_v304 main_v390 ((extractStridedSlice S800000x1 ![0, 11] · slices_S800000x25_S800000x1_0_11) : (⟨S800000x25, .f32⟩ : BufTy).Contents (Elt F) → (⟨S800000x1, .f32⟩ : BufTy).Contents (Elt F)),
    unary main_arg6 main_v391 ((extractStridedSlice S1x16x7 ![11, 0, 0] · slices_S25x16x7_S1x16x7_11_0_0) : (⟨S25x16x7, .f32⟩ : BufTy).Contents (Elt F) → (⟨S1x16x7, .f32⟩ : BufTy).Contents (Elt F)),
    reshape main_v391 main_v392 rfl shapeCasts_S1x16x7_S16x7,
    binary main_v311 main_v392 main_v393 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v390 main_v394 (broadcastInDim S800000x7 ![0, 1] bcast_S800000x1_S800000x7_0_1 : (⟨S800000x1, .f32⟩ : BufTy).Contents (Elt F) → (⟨S800000x7, .f32⟩ : BufTy).Contents (Elt F)),
    binary main_v394 main_v393 main_v395 (mulf : (⟨S800000x7, .f32⟩ : BufTy).Contents (Elt F) → (⟨S800000x7, .f32⟩ : BufTy).Contents (Elt F) → (⟨S800000x7, .f32⟩ : BufTy).Contents (Elt F)),
    binary main_v389 main_v395 main_v396 (addf : (⟨S800000x7, .f32⟩ : BufTy).Contents (Elt F) → (⟨S800000x7, .f32⟩ : BufTy).Contents (Elt F) → (⟨S800000x7, .f32⟩ : BufTy).Contents (Elt F)) ]

abbrev seg41 : List (HloOp τ sig (Elt F)) :=
  [ unary main_v304 main_v397 ((extractStridedSlice S800000x1 ![0, 12] · slices_S800000x25_S800000x1_0_12) : (⟨S800000x25, .f32⟩ : BufTy).Contents (Elt F) → (⟨S800000x1, .f32⟩ : BufTy).Contents (Elt F)),
    unary main_arg6 main_v398 ((extractStridedSlice S1x16x7 ![12, 0, 0] · slices_S25x16x7_S1x16x7_12_0_0) : (⟨S25x16x7, .f32⟩ : BufTy).Contents (Elt F) → (⟨S1x16x7, .f32⟩ : BufTy).Contents (Elt F)),
    reshape main_v398 main_v399 rfl shapeCasts_S1x16x7_S16x7,
    binary main_v311 main_v399 main_v400 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v397 main_v401 (broadcastInDim S800000x7 ![0, 1] bcast_S800000x1_S800000x7_0_1 : (⟨S800000x1, .f32⟩ : BufTy).Contents (Elt F) → (⟨S800000x7, .f32⟩ : BufTy).Contents (Elt F)),
    binary main_v401 main_v400 main_v402 (mulf : (⟨S800000x7, .f32⟩ : BufTy).Contents (Elt F) → (⟨S800000x7, .f32⟩ : BufTy).Contents (Elt F) → (⟨S800000x7, .f32⟩ : BufTy).Contents (Elt F)),
    binary main_v396 main_v402 main_v403 (addf : (⟨S800000x7, .f32⟩ : BufTy).Contents (Elt F) → (⟨S800000x7, .f32⟩ : BufTy).Contents (Elt F) → (⟨S800000x7, .f32⟩ : BufTy).Contents (Elt F)) ]

abbrev seg42 : List (HloOp τ sig (Elt F)) :=
  [ unary main_v304 main_v404 ((extractStridedSlice S800000x1 ![0, 13] · slices_S800000x25_S800000x1_0_13) : (⟨S800000x25, .f32⟩ : BufTy).Contents (Elt F) → (⟨S800000x1, .f32⟩ : BufTy).Contents (Elt F)),
    unary main_arg6 main_v405 ((extractStridedSlice S1x16x7 ![13, 0, 0] · slices_S25x16x7_S1x16x7_13_0_0) : (⟨S25x16x7, .f32⟩ : BufTy).Contents (Elt F) → (⟨S1x16x7, .f32⟩ : BufTy).Contents (Elt F)),
    reshape main_v405 main_v406 rfl shapeCasts_S1x16x7_S16x7,
    binary main_v311 main_v406 main_v407 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v404 main_v408 (broadcastInDim S800000x7 ![0, 1] bcast_S800000x1_S800000x7_0_1 : (⟨S800000x1, .f32⟩ : BufTy).Contents (Elt F) → (⟨S800000x7, .f32⟩ : BufTy).Contents (Elt F)),
    binary main_v408 main_v407 main_v409 (mulf : (⟨S800000x7, .f32⟩ : BufTy).Contents (Elt F) → (⟨S800000x7, .f32⟩ : BufTy).Contents (Elt F) → (⟨S800000x7, .f32⟩ : BufTy).Contents (Elt F)),
    binary main_v403 main_v409 main_v410 (addf : (⟨S800000x7, .f32⟩ : BufTy).Contents (Elt F) → (⟨S800000x7, .f32⟩ : BufTy).Contents (Elt F) → (⟨S800000x7, .f32⟩ : BufTy).Contents (Elt F)) ]

abbrev seg43 : List (HloOp τ sig (Elt F)) :=
  [ unary main_v304 main_v411 ((extractStridedSlice S800000x1 ![0, 14] · slices_S800000x25_S800000x1_0_14) : (⟨S800000x25, .f32⟩ : BufTy).Contents (Elt F) → (⟨S800000x1, .f32⟩ : BufTy).Contents (Elt F)),
    unary main_arg6 main_v412 ((extractStridedSlice S1x16x7 ![14, 0, 0] · slices_S25x16x7_S1x16x7_14_0_0) : (⟨S25x16x7, .f32⟩ : BufTy).Contents (Elt F) → (⟨S1x16x7, .f32⟩ : BufTy).Contents (Elt F)),
    reshape main_v412 main_v413 rfl shapeCasts_S1x16x7_S16x7,
    binary main_v311 main_v413 main_v414 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v411 main_v415 (broadcastInDim S800000x7 ![0, 1] bcast_S800000x1_S800000x7_0_1 : (⟨S800000x1, .f32⟩ : BufTy).Contents (Elt F) → (⟨S800000x7, .f32⟩ : BufTy).Contents (Elt F)),
    binary main_v415 main_v414 main_v416 (mulf : (⟨S800000x7, .f32⟩ : BufTy).Contents (Elt F) → (⟨S800000x7, .f32⟩ : BufTy).Contents (Elt F) → (⟨S800000x7, .f32⟩ : BufTy).Contents (Elt F)),
    binary main_v410 main_v416 main_v417 (addf : (⟨S800000x7, .f32⟩ : BufTy).Contents (Elt F) → (⟨S800000x7, .f32⟩ : BufTy).Contents (Elt F) → (⟨S800000x7, .f32⟩ : BufTy).Contents (Elt F)) ]

abbrev seg44 : List (HloOp τ sig (Elt F)) :=
  [ unary main_v304 main_v418 ((extractStridedSlice S800000x1 ![0, 15] · slices_S800000x25_S800000x1_0_15) : (⟨S800000x25, .f32⟩ : BufTy).Contents (Elt F) → (⟨S800000x1, .f32⟩ : BufTy).Contents (Elt F)),
    unary main_arg6 main_v419 ((extractStridedSlice S1x16x7 ![15, 0, 0] · slices_S25x16x7_S1x16x7_15_0_0) : (⟨S25x16x7, .f32⟩ : BufTy).Contents (Elt F) → (⟨S1x16x7, .f32⟩ : BufTy).Contents (Elt F)),
    reshape main_v419 main_v420 rfl shapeCasts_S1x16x7_S16x7,
    binary main_v311 main_v420 main_v421 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v418 main_v422 (broadcastInDim S800000x7 ![0, 1] bcast_S800000x1_S800000x7_0_1 : (⟨S800000x1, .f32⟩ : BufTy).Contents (Elt F) → (⟨S800000x7, .f32⟩ : BufTy).Contents (Elt F)),
    binary main_v422 main_v421 main_v423 (mulf : (⟨S800000x7, .f32⟩ : BufTy).Contents (Elt F) → (⟨S800000x7, .f32⟩ : BufTy).Contents (Elt F) → (⟨S800000x7, .f32⟩ : BufTy).Contents (Elt F)),
    binary main_v417 main_v423 main_v424 (addf : (⟨S800000x7, .f32⟩ : BufTy).Contents (Elt F) → (⟨S800000x7, .f32⟩ : BufTy).Contents (Elt F) → (⟨S800000x7, .f32⟩ : BufTy).Contents (Elt F)) ]

abbrev seg45 : List (HloOp τ sig (Elt F)) :=
  [ unary main_v304 main_v425 ((extractStridedSlice S800000x1 ![0, 16] · slices_S800000x25_S800000x1_0_16) : (⟨S800000x25, .f32⟩ : BufTy).Contents (Elt F) → (⟨S800000x1, .f32⟩ : BufTy).Contents (Elt F)),
    unary main_arg6 main_v426 ((extractStridedSlice S1x16x7 ![16, 0, 0] · slices_S25x16x7_S1x16x7_16_0_0) : (⟨S25x16x7, .f32⟩ : BufTy).Contents (Elt F) → (⟨S1x16x7, .f32⟩ : BufTy).Contents (Elt F)),
    reshape main_v426 main_v427 rfl shapeCasts_S1x16x7_S16x7,
    binary main_v311 main_v427 main_v428 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v425 main_v429 (broadcastInDim S800000x7 ![0, 1] bcast_S800000x1_S800000x7_0_1 : (⟨S800000x1, .f32⟩ : BufTy).Contents (Elt F) → (⟨S800000x7, .f32⟩ : BufTy).Contents (Elt F)),
    binary main_v429 main_v428 main_v430 (mulf : (⟨S800000x7, .f32⟩ : BufTy).Contents (Elt F) → (⟨S800000x7, .f32⟩ : BufTy).Contents (Elt F) → (⟨S800000x7, .f32⟩ : BufTy).Contents (Elt F)),
    binary main_v424 main_v430 main_v431 (addf : (⟨S800000x7, .f32⟩ : BufTy).Contents (Elt F) → (⟨S800000x7, .f32⟩ : BufTy).Contents (Elt F) → (⟨S800000x7, .f32⟩ : BufTy).Contents (Elt F)) ]

abbrev seg46 : List (HloOp τ sig (Elt F)) :=
  [ unary main_v304 main_v432 ((extractStridedSlice S800000x1 ![0, 17] · slices_S800000x25_S800000x1_0_17) : (⟨S800000x25, .f32⟩ : BufTy).Contents (Elt F) → (⟨S800000x1, .f32⟩ : BufTy).Contents (Elt F)),
    unary main_arg6 main_v433 ((extractStridedSlice S1x16x7 ![17, 0, 0] · slices_S25x16x7_S1x16x7_17_0_0) : (⟨S25x16x7, .f32⟩ : BufTy).Contents (Elt F) → (⟨S1x16x7, .f32⟩ : BufTy).Contents (Elt F)),
    reshape main_v433 main_v434 rfl shapeCasts_S1x16x7_S16x7,
    binary main_v311 main_v434 main_v435 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v432 main_v436 (broadcastInDim S800000x7 ![0, 1] bcast_S800000x1_S800000x7_0_1 : (⟨S800000x1, .f32⟩ : BufTy).Contents (Elt F) → (⟨S800000x7, .f32⟩ : BufTy).Contents (Elt F)),
    binary main_v436 main_v435 main_v437 (mulf : (⟨S800000x7, .f32⟩ : BufTy).Contents (Elt F) → (⟨S800000x7, .f32⟩ : BufTy).Contents (Elt F) → (⟨S800000x7, .f32⟩ : BufTy).Contents (Elt F)),
    binary main_v431 main_v437 main_v438 (addf : (⟨S800000x7, .f32⟩ : BufTy).Contents (Elt F) → (⟨S800000x7, .f32⟩ : BufTy).Contents (Elt F) → (⟨S800000x7, .f32⟩ : BufTy).Contents (Elt F)) ]

abbrev seg47a : List (HloOp τ sig (Elt F)) :=
  [ unary main_v304 main_v439 ((extractStridedSlice S800000x1 ![0, 18] · slices_S800000x25_S800000x1_0_18) : (⟨S800000x25, .f32⟩ : BufTy).Contents (Elt F) → (⟨S800000x1, .f32⟩ : BufTy).Contents (Elt F)),
    unary main_arg6 main_v440 ((extractStridedSlice S1x16x7 ![18, 0, 0] · slices_S25x16x7_S1x16x7_18_0_0) : (⟨S25x16x7, .f32⟩ : BufTy).Contents (Elt F) → (⟨S1x16x7, .f32⟩ : BufTy).Contents (Elt F)) ]

abbrev seg47b : List (HloOp τ sig (Elt F)) :=
  [ reshape main_v440 main_v441 rfl shapeCasts_S1x16x7_S16x7,
    binary main_v311 main_v441 main_v442 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v439 main_v443 (broadcastInDim S800000x7 ![0, 1] bcast_S800000x1_S800000x7_0_1 : (⟨S800000x1, .f32⟩ : BufTy).Contents (Elt F) → (⟨S800000x7, .f32⟩ : BufTy).Contents (Elt F)),
    binary main_v443 main_v442 main_v444 (mulf : (⟨S800000x7, .f32⟩ : BufTy).Contents (Elt F) → (⟨S800000x7, .f32⟩ : BufTy).Contents (Elt F) → (⟨S800000x7, .f32⟩ : BufTy).Contents (Elt F)),
    binary main_v438 main_v444 main_v445 (addf : (⟨S800000x7, .f32⟩ : BufTy).Contents (Elt F) → (⟨S800000x7, .f32⟩ : BufTy).Contents (Elt F) → (⟨S800000x7, .f32⟩ : BufTy).Contents (Elt F)) ]

abbrev seg47 : List (HloOp τ sig (Elt F)) := seg47a ++ seg47b

abbrev seg48 : List (HloOp τ sig (Elt F)) :=
  [ unary main_v304 main_v446 ((extractStridedSlice S800000x1 ![0, 19] · slices_S800000x25_S800000x1_0_19) : (⟨S800000x25, .f32⟩ : BufTy).Contents (Elt F) → (⟨S800000x1, .f32⟩ : BufTy).Contents (Elt F)),
    unary main_arg6 main_v447 ((extractStridedSlice S1x16x7 ![19, 0, 0] · slices_S25x16x7_S1x16x7_19_0_0) : (⟨S25x16x7, .f32⟩ : BufTy).Contents (Elt F) → (⟨S1x16x7, .f32⟩ : BufTy).Contents (Elt F)),
    reshape main_v447 main_v448 rfl shapeCasts_S1x16x7_S16x7,
    binary main_v311 main_v448 main_v449 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v446 main_v450 (broadcastInDim S800000x7 ![0, 1] bcast_S800000x1_S800000x7_0_1 : (⟨S800000x1, .f32⟩ : BufTy).Contents (Elt F) → (⟨S800000x7, .f32⟩ : BufTy).Contents (Elt F)),
    binary main_v450 main_v449 main_v451 (mulf : (⟨S800000x7, .f32⟩ : BufTy).Contents (Elt F) → (⟨S800000x7, .f32⟩ : BufTy).Contents (Elt F) → (⟨S800000x7, .f32⟩ : BufTy).Contents (Elt F)),
    binary main_v445 main_v451 main_v452 (addf : (⟨S800000x7, .f32⟩ : BufTy).Contents (Elt F) → (⟨S800000x7, .f32⟩ : BufTy).Contents (Elt F) → (⟨S800000x7, .f32⟩ : BufTy).Contents (Elt F)) ]

abbrev seg49 : List (HloOp τ sig (Elt F)) :=
  [ unary main_v304 main_v453 ((extractStridedSlice S800000x1 ![0, 20] · slices_S800000x25_S800000x1_0_20) : (⟨S800000x25, .f32⟩ : BufTy).Contents (Elt F) → (⟨S800000x1, .f32⟩ : BufTy).Contents (Elt F)),
    unary main_arg6 main_v454 ((extractStridedSlice S1x16x7 ![20, 0, 0] · slices_S25x16x7_S1x16x7_20_0_0) : (⟨S25x16x7, .f32⟩ : BufTy).Contents (Elt F) → (⟨S1x16x7, .f32⟩ : BufTy).Contents (Elt F)),
    reshape main_v454 main_v455 rfl shapeCasts_S1x16x7_S16x7,
    binary main_v311 main_v455 main_v456 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v453 main_v457 (broadcastInDim S800000x7 ![0, 1] bcast_S800000x1_S800000x7_0_1 : (⟨S800000x1, .f32⟩ : BufTy).Contents (Elt F) → (⟨S800000x7, .f32⟩ : BufTy).Contents (Elt F)),
    binary main_v457 main_v456 main_v458 (mulf : (⟨S800000x7, .f32⟩ : BufTy).Contents (Elt F) → (⟨S800000x7, .f32⟩ : BufTy).Contents (Elt F) → (⟨S800000x7, .f32⟩ : BufTy).Contents (Elt F)),
    binary main_v452 main_v458 main_v459 (addf : (⟨S800000x7, .f32⟩ : BufTy).Contents (Elt F) → (⟨S800000x7, .f32⟩ : BufTy).Contents (Elt F) → (⟨S800000x7, .f32⟩ : BufTy).Contents (Elt F)) ]

abbrev seg50 : List (HloOp τ sig (Elt F)) :=
  [ unary main_v304 main_v460 ((extractStridedSlice S800000x1 ![0, 21] · slices_S800000x25_S800000x1_0_21) : (⟨S800000x25, .f32⟩ : BufTy).Contents (Elt F) → (⟨S800000x1, .f32⟩ : BufTy).Contents (Elt F)),
    unary main_arg6 main_v461 ((extractStridedSlice S1x16x7 ![21, 0, 0] · slices_S25x16x7_S1x16x7_21_0_0) : (⟨S25x16x7, .f32⟩ : BufTy).Contents (Elt F) → (⟨S1x16x7, .f32⟩ : BufTy).Contents (Elt F)),
    reshape main_v461 main_v462 rfl shapeCasts_S1x16x7_S16x7,
    binary main_v311 main_v462 main_v463 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v460 main_v464 (broadcastInDim S800000x7 ![0, 1] bcast_S800000x1_S800000x7_0_1 : (⟨S800000x1, .f32⟩ : BufTy).Contents (Elt F) → (⟨S800000x7, .f32⟩ : BufTy).Contents (Elt F)),
    binary main_v464 main_v463 main_v465 (mulf : (⟨S800000x7, .f32⟩ : BufTy).Contents (Elt F) → (⟨S800000x7, .f32⟩ : BufTy).Contents (Elt F) → (⟨S800000x7, .f32⟩ : BufTy).Contents (Elt F)),
    binary main_v459 main_v465 main_v466 (addf : (⟨S800000x7, .f32⟩ : BufTy).Contents (Elt F) → (⟨S800000x7, .f32⟩ : BufTy).Contents (Elt F) → (⟨S800000x7, .f32⟩ : BufTy).Contents (Elt F)) ]

abbrev seg51 : List (HloOp τ sig (Elt F)) :=
  [ unary main_v304 main_v467 ((extractStridedSlice S800000x1 ![0, 22] · slices_S800000x25_S800000x1_0_22) : (⟨S800000x25, .f32⟩ : BufTy).Contents (Elt F) → (⟨S800000x1, .f32⟩ : BufTy).Contents (Elt F)),
    unary main_arg6 main_v468 ((extractStridedSlice S1x16x7 ![22, 0, 0] · slices_S25x16x7_S1x16x7_22_0_0) : (⟨S25x16x7, .f32⟩ : BufTy).Contents (Elt F) → (⟨S1x16x7, .f32⟩ : BufTy).Contents (Elt F)),
    reshape main_v468 main_v469 rfl shapeCasts_S1x16x7_S16x7,
    binary main_v311 main_v469 main_v470 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v467 main_v471 (broadcastInDim S800000x7 ![0, 1] bcast_S800000x1_S800000x7_0_1 : (⟨S800000x1, .f32⟩ : BufTy).Contents (Elt F) → (⟨S800000x7, .f32⟩ : BufTy).Contents (Elt F)),
    binary main_v471 main_v470 main_v472 (mulf : (⟨S800000x7, .f32⟩ : BufTy).Contents (Elt F) → (⟨S800000x7, .f32⟩ : BufTy).Contents (Elt F) → (⟨S800000x7, .f32⟩ : BufTy).Contents (Elt F)),
    binary main_v466 main_v472 main_v473 (addf : (⟨S800000x7, .f32⟩ : BufTy).Contents (Elt F) → (⟨S800000x7, .f32⟩ : BufTy).Contents (Elt F) → (⟨S800000x7, .f32⟩ : BufTy).Contents (Elt F)) ]

abbrev seg52 : List (HloOp τ sig (Elt F)) :=
  [ unary main_v304 main_v474 ((extractStridedSlice S800000x1 ![0, 23] · slices_S800000x25_S800000x1_0_23) : (⟨S800000x25, .f32⟩ : BufTy).Contents (Elt F) → (⟨S800000x1, .f32⟩ : BufTy).Contents (Elt F)),
    unary main_arg6 main_v475 ((extractStridedSlice S1x16x7 ![23, 0, 0] · slices_S25x16x7_S1x16x7_23_0_0) : (⟨S25x16x7, .f32⟩ : BufTy).Contents (Elt F) → (⟨S1x16x7, .f32⟩ : BufTy).Contents (Elt F)),
    reshape main_v475 main_v476 rfl shapeCasts_S1x16x7_S16x7,
    binary main_v311 main_v476 main_v477 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v474 main_v478 (broadcastInDim S800000x7 ![0, 1] bcast_S800000x1_S800000x7_0_1 : (⟨S800000x1, .f32⟩ : BufTy).Contents (Elt F) → (⟨S800000x7, .f32⟩ : BufTy).Contents (Elt F)),
    binary main_v478 main_v477 main_v479 (mulf : (⟨S800000x7, .f32⟩ : BufTy).Contents (Elt F) → (⟨S800000x7, .f32⟩ : BufTy).Contents (Elt F) → (⟨S800000x7, .f32⟩ : BufTy).Contents (Elt F)),
    binary main_v473 main_v479 main_v480 (addf : (⟨S800000x7, .f32⟩ : BufTy).Contents (Elt F) → (⟨S800000x7, .f32⟩ : BufTy).Contents (Elt F) → (⟨S800000x7, .f32⟩ : BufTy).Contents (Elt F)) ]

abbrev seg53 : List (HloOp τ sig (Elt F)) :=
  [ unary main_v304 main_v481 ((extractStridedSlice S800000x1 ![0, 24] · slices_S800000x25_S800000x1_0_24) : (⟨S800000x25, .f32⟩ : BufTy).Contents (Elt F) → (⟨S800000x1, .f32⟩ : BufTy).Contents (Elt F)),
    unary main_arg6 main_v482 ((extractStridedSlice S1x16x7 ![24, 0, 0] · slices_S25x16x7_S1x16x7_24_0_0) : (⟨S25x16x7, .f32⟩ : BufTy).Contents (Elt F) → (⟨S1x16x7, .f32⟩ : BufTy).Contents (Elt F)),
    reshape main_v482 main_v483 rfl shapeCasts_S1x16x7_S16x7,
    binary main_v311 main_v483 main_v484 ((fun l r => Host.dotGeneral dot_S800000x16_S16x7_S800000x7_1_0_0_1_n_n none l r) : (⟨S800000x16, .f32⟩ : BufTy).Contents (Elt F) → (⟨S16x7, .f32⟩ : BufTy).Contents (Elt F) → (⟨S800000x7, .f32⟩ : BufTy).Contents (Elt F)),
    unary main_v481 main_v485 (broadcastInDim S800000x7 ![0, 1] bcast_S800000x1_S800000x7_0_1 : (⟨S800000x1, .f32⟩ : BufTy).Contents (Elt F) → (⟨S800000x7, .f32⟩ : BufTy).Contents (Elt F)),
    binary main_v485 main_v484 main_v486 (mulf : (⟨S800000x7, .f32⟩ : BufTy).Contents (Elt F) → (⟨S800000x7, .f32⟩ : BufTy).Contents (Elt F) → (⟨S800000x7, .f32⟩ : BufTy).Contents (Elt F)),
    binary main_v480 main_v486 main_v487 (addf : (⟨S800000x7, .f32⟩ : BufTy).Contents (Elt F) → (⟨S800000x7, .f32⟩ : BufTy).Contents (Elt F) → (⟨S800000x7, .f32⟩ : BufTy).Contents (Elt F)) ]

abbrev seg54a : List (HloOp τ sig (Elt F)) :=
  [ nullary main_cst_37 (constant S_ .f32 0x00000000#32),
    unary main_cst_37 main_v488 (broadcastInDim S50000x7 ![] bcast_S_S50000x7 : (⟨S_, .f32⟩ : BufTy).Contents (Elt F) → (⟨S50000x7, .f32⟩ : BufTy).Contents (Elt F)),
    unary main_v3 main_v489 (broadcastInDim S800000x1 ![0] bcast_S800000_S800000x1_0 : (⟨S800000, .i32⟩ : BufTy).Contents (Elt F) → (⟨S800000x1, .i32⟩ : BufTy).Contents (Elt F)),
    ternary main_v488 main_v489 main_v487 main_v490 ((fun x i u => Host.scatterAdd scatter_S50000x7_S800000x1_S800000x7_1_0_0_1 x i u) : (⟨S50000x7, .f32⟩ : BufTy).Contents (Elt F) → (⟨S800000x1, .i32⟩ : BufTy).Contents (Elt F) → (⟨S800000x7, .f32⟩ : BufTy).Contents (Elt F) → (⟨S50000x7, .f32⟩ : BufTy).Contents (Elt F)),
    nullary main_cst_38 (constant S_ .f32 0x3F800000#32),
    unary main_cst_38 main_v491 (broadcastInDim S800000 ![] bcast_S_S800000 : (⟨S_, .f32⟩ : BufTy).Contents (Elt F) → (⟨S800000, .f32⟩ : BufTy).Contents (Elt F)),
    nullary main_cst_39 (constant S_ .f32 0x00000000#32),
    unary main_cst_39 main_v492 (broadcastInDim S50000 ![] bcast_S_S50000 : (⟨S_, .f32⟩ : BufTy).Contents (Elt F) → (⟨S50000, .f32⟩ : BufTy).Contents (Elt F)),
    unary main_v3 main_v493 (broadcastInDim S800000x1 ![0] bcast_S800000_S800000x1_0 : (⟨S800000, .i32⟩ : BufTy).Contents (Elt F) → (⟨S800000x1, .i32⟩ : BufTy).Contents (Elt F)),
    ternary main_v492 main_v493 main_v491 main_v494 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_40 (constant S_ .f32 0x3F800000#32),
    TRef.unary ((.of main_cst_40) : TRef sig ⟨S_, .f32⟩) main_call3.v0 id,
    TRef.unary main_call3.v0 main_call3.v1 (broadcastInDim S50000 ![] bcast_S_S50000),
    TRef.binary main_call3.v1 ((.of main_v494) : TRef sig ⟨S50000, .f32⟩) main_call3.v2 maximumf,
    unary main_v495 main_v496 (broadcastInDim S50000x1 ![0] bcast_S50000_S50000x1_0 : (⟨S50000, .f32⟩ : BufTy).Contents (Elt F) → (⟨S50000x1, .f32⟩ : BufTy).Contents (Elt F)) ]

abbrev seg54b : List (HloOp τ sig (Elt F)) :=
  [ unary main_v496 main_v497 (broadcastInDim S50000x7 ![0, 1] bcast_S50000x1_S50000x7_0_1 : (⟨S50000x1, .f32⟩ : BufTy).Contents (Elt F) → (⟨S50000x7, .f32⟩ : BufTy).Contents (Elt F)),
    binary main_v490 main_v497 main_v498 (Host.divf : (⟨S50000x7, .f32⟩ : BufTy).Contents (Elt F) → (⟨S50000x7, .f32⟩ : BufTy).Contents (Elt F) → (⟨S50000x7, .f32⟩ : BufTy).Contents (Elt F)),
    binary main_v286 main_arg7 main_v499 ((fun l r => Host.dotGeneral dot_S50000x16_S16x7_S50000x7_1_0_0_1_n_n none l r) : (⟨S50000x16, .f32⟩ : BufTy).Contents (Elt F) → (⟨S16x7, .f32⟩ : BufTy).Contents (Elt F) → (⟨S50000x7, .f32⟩ : BufTy).Contents (Elt F)),
    binary main_v498 main_v499 main_v500 (addf : (⟨S50000x7, .f32⟩ : BufTy).Contents (Elt F) → (⟨S50000x7, .f32⟩ : BufTy).Contents (Elt F) → (⟨S50000x7, .f32⟩ : BufTy).Contents (Elt F)),
    unary main_arg8 main_v501 (broadcastInDim S1x7 ![1] bcast_S7_S1x7_1 : (⟨S7, .f32⟩ : BufTy).Contents (Elt F) → (⟨S1x7, .f32⟩ : BufTy).Contents (Elt F)),
    unary main_v501 main_v502 (broadcastInDim S50000x7 ![0, 1] bcast_S1x7_S50000x7_0_1 : (⟨S1x7, .f32⟩ : BufTy).Contents (Elt F) → (⟨S50000x7, .f32⟩ : BufTy).Contents (Elt F)),
    binary main_v500 main_v502 main_v503 (addf : (⟨S50000x7, .f32⟩ : BufTy).Contents (Elt F) → (⟨S50000x7, .f32⟩ : BufTy).Contents (Elt F) → (⟨S50000x7, .f32⟩ : BufTy).Contents (Elt F)),
    TRef.nullary main_call4.cst (constant S_ .f32 0xFF800000#32),
    TRef.binary ((.of main_v503) : TRef sig ⟨S50000x7, .f32⟩) main_call4.cst main_call4.v0 (fun x v => Host.reduce FloatOps.maximumf x v reducesTo_S50000x7_S50000_d1 h_S_),
    TRef.nullary main_call4.cst_0 (constant S_ .f32 0xFF800000#32),
    TRef.unary main_call4.cst_0 main_call4.v1 (broadcastInDim S50000 ![] bcast_S_S50000),
    TRef.binary main_call4.v1 main_call4.v0 main_call4.v2 maximumf,
    TRef.unary main_call4.v2 main_call4.v3 (broadcastInDim S50000x1 ![0] bcast_S50000_S50000x1_0),
    TRef.unary main_call4.v3 main_call4.v4 (broadcastInDim S50000x7 ![0, 1] bcast_S50000x1_S50000x7_0_1),
    TRef.binary ((.of main_v503) : TRef sig ⟨S50000x7, .f32⟩) main_call4.v4 main_call4.v5 subf,
    TRef.unary main_call4.v5 main_call4.v6 Host.exp,
    TRef.nullary main_call4.cst_1 (constant S_ .f32 0x00000000#32),
    TRef.binary main_call4.v6 main_call4.cst_1 main_call4.v7 (fun x v => Host.reduceAdd x v reducesTo_S50000x7_S50000_d1 h_S_),
    TRef.unary main_call4.v7 main_call4.v8 (broadcastInDim S50000x1 ![0] bcast_S50000_S50000x1_0),
    TRef.unary main_call4.v8 main_call4.v9 Host.log,
    TRef.unary main_call4.v9 main_call4.v10 (broadcastInDim S50000x7 ![0, 1] bcast_S50000x1_S50000x7_0_1),
    TRef.binary main_call4.v5 main_call4.v10 main_call4.v11 subf ]

abbrev seg54 : List (HloOp τ sig (Elt F)) := seg54a ++ seg54b

abbrev ops_part0 : List (HloOp τ sig (Elt F)) := seg0a
abbrev ops_part1 : List (HloOp τ sig (Elt F)) := seg0b ++ seg1a
abbrev ops_part2 : List (HloOp τ sig (Elt F)) := seg1b ++ (seg2 ++ (seg3 ++ (seg4 ++ (seg5 ++ (seg6 ++ (seg7 ++ (seg8 ++ (seg9 ++ seg10a))))))))
abbrev ops_part3 : List (HloOp τ sig (Elt F)) := seg10b ++ (seg11 ++ (seg12 ++ (seg13 ++ (seg14 ++ (seg15 ++ (seg16 ++ (seg17 ++ seg18a)))))))
abbrev ops_part4 : List (HloOp τ sig (Elt F)) := seg18b ++ (seg19 ++ (seg20 ++ (seg21 ++ (seg22 ++ (seg23 ++ (seg24 ++ (seg25 ++ (seg26 ++ seg27a))))))))
abbrev ops_part5 : List (HloOp τ sig (Elt F)) := seg27b ++ (seg28 ++ (seg29 ++ seg30a))
abbrev ops_part6 : List (HloOp τ sig (Elt F)) := seg30b ++ (seg31 ++ (seg32 ++ (seg33 ++ (seg34 ++ (seg35 ++ (seg36 ++ (seg37 ++ seg38a)))))))
abbrev ops_part7 : List (HloOp τ sig (Elt F)) := seg38b ++ (seg39 ++ (seg40 ++ (seg41 ++ (seg42 ++ (seg43 ++ (seg44 ++ (seg45 ++ (seg46 ++ seg47a))))))))
abbrev ops_part8 : List (HloOp τ sig (Elt F)) := seg47b ++ (seg48 ++ (seg49 ++ (seg50 ++ (seg51 ++ (seg52 ++ (seg53 ++ seg54a))))))
abbrev ops_part9 : List (HloOp τ sig (Elt F)) := seg54b

abbrev ops : List (HloOp τ sig (Elt F)) :=
  ops_part0 ++ (ops_part1 ++ (ops_part2 ++ (ops_part3 ++ (ops_part4 ++ (ops_part5 ++ (ops_part6 ++ (ops_part7 ++ (ops_part8 ++ ops_part9))))))))

theorem main_part0_eq (c : Dev nD) : main_part0 (F := F) c = seq ops_part0 := by
  simp only [ops_part0, seg0a, List.cons_append, List.nil_append, main_part0, fn_clip.body, seq, bind_assoc, pure_bind]
  all_goals rfl
theorem main_part1_eq (c : Dev nD) : main_part1 (F := F) c = seq ops_part1 := rfl
theorem main_part2_eq (c : Dev nD) : main_part2 (F := F) c = seq ops_part2 := rfl
theorem main_part3_eq (c : Dev nD) : main_part3 (F := F) c = seq ops_part3 := rfl
theorem main_part4_eq (c : Dev nD) : main_part4 (F := F) c = seq ops_part4 := rfl
theorem main_part5_eq (c : Dev nD) : main_part5 (F := F) c = seq ops_part5 := by
  simp only [ops_part5, seg27b, seg28, seg29, seg30a, List.cons_append, List.nil_append, main_part5, fn_clip_0.body, fn_relu.body, seq, bind_assoc, pure_bind]
  all_goals rfl
theorem main_part6_eq (c : Dev nD) : main_part6 (F := F) c = seq ops_part6 := rfl
theorem main_part7_eq (c : Dev nD) : main_part7 (F := F) c = seq ops_part7 := rfl
theorem main_part8_eq (c : Dev nD) : main_part8 (F := F) c = seq ops_part8 := by
  simp only [ops_part8, seg47b, seg48, seg49, seg50, seg51, seg52, seg53, seg54a, List.cons_append, List.nil_append, main_part8, fn_clip_0.body, seq, bind_assoc, pure_bind]
  all_goals rfl
theorem main_part9_eq (c : Dev nD) : main_part9 (F := F) c = seq ops_part9 := by
  simp only [ops_part9, seg54b, List.cons_append, List.nil_append, main_part9, fn_log_softmax.body, seq, bind_assoc, pure_bind]
  all_goals rfl
theorem main_eq (c : Dev nD) : main (F := F) c = seq ops := by
  simp only [ops, seq_append, ← main_part0_eq c, ← main_part1_eq c, ← main_part2_eq c, ← main_part3_eq c, ← main_part4_eq c, ← main_part5_eq c, ← main_part6_eq c, ← main_part7_eq c, ← main_part8_eq c, ← main_part9_eq c]
  rfl
theorem scopedRefs_eq : (Finset.univ.filter fun b : Ref sig .tc => b.isScoped) = ∅ := by decide
theorem scopedSems_eq : (Finset.univ.filter fun sm : SemLoc sig => sm.isScoped .tc) = ∅ := by decide

def Sub (s : List (HloOp τ sig (Elt F))) : Prop := s.Forall fun op => op.bufs ⊆ tcRefs τ sig

theorem Sub.append {a b : List (HloOp τ sig (Elt F))} (ha : Sub a) (hb : Sub b) : Sub (a ++ b) :=
  List.forall_iff_forall_mem.mpr fun op h =>
    (List.mem_append.mp h).elim (List.forall_iff_forall_mem.mp ha op) (List.forall_iff_forall_mem.mp hb op)

theorem ops_part0_sub : Sub (F := F) ops_part0 := by
  simp only [Sub, ops_part0, seg0a, List.cons_append, List.nil_append, List.Forall, nullary_bufs_sub, unary_bufs_sub, reshape_bufs_sub, binary_bufs_sub, ternary_bufs_sub, and_self]
theorem ops_part1_sub : Sub (F := F) ops_part1 := by
  simp only [Sub, ops_part1, seg0b, seg1a, List.cons_append, List.nil_append, List.Forall, nullary_bufs_sub, unary_bufs_sub, reshape_bufs_sub, binary_bufs_sub, ternary_bufs_sub, and_self]
theorem ops_part2_sub : Sub (F := F) ops_part2 := by
  simp only [Sub, ops_part2, seg1b, seg2, seg3, seg4, seg5, seg6, seg7, seg8, seg9, seg10a, List.cons_append, List.nil_append, List.Forall, nullary_bufs_sub, unary_bufs_sub, reshape_bufs_sub, binary_bufs_sub, ternary_bufs_sub, and_self]
theorem ops_part3_sub : Sub (F := F) ops_part3 := by
  simp only [Sub, ops_part3, seg10b, seg11, seg12, seg13, seg14, seg15, seg16, seg17, seg18a, List.cons_append, List.nil_append, List.Forall, nullary_bufs_sub, unary_bufs_sub, reshape_bufs_sub, binary_bufs_sub, ternary_bufs_sub, and_self]
theorem ops_part4_sub : Sub (F := F) ops_part4 := by
  simp only [Sub, ops_part4, seg18b, seg19, seg20, seg21, seg22, seg23, seg24, seg25, seg26, seg27a, List.cons_append, List.nil_append, List.Forall, nullary_bufs_sub, unary_bufs_sub, reshape_bufs_sub, binary_bufs_sub, ternary_bufs_sub, and_self]
theorem ops_part5_sub : Sub (F := F) ops_part5 := by
  simp only [Sub, ops_part5, seg27b, seg28, seg29, seg30a, List.cons_append, List.nil_append, List.Forall, nullary_bufs_sub, unary_bufs_sub, reshape_bufs_sub, binary_bufs_sub, ternary_bufs_sub, and_self]
theorem ops_part6_sub : Sub (F := F) ops_part6 := by
  simp only [Sub, ops_part6, seg30b, seg31, seg32, seg33, seg34, seg35, seg36, seg37, seg38a, List.cons_append, List.nil_append, List.Forall, nullary_bufs_sub, unary_bufs_sub, reshape_bufs_sub, binary_bufs_sub, ternary_bufs_sub, and_self]
theorem ops_part7_sub : Sub (F := F) ops_part7 := by
  simp only [Sub, ops_part7, seg38b, seg39, seg40, seg41, seg42, seg43, seg44, seg45, seg46, seg47a, List.cons_append, List.nil_append, List.Forall, nullary_bufs_sub, unary_bufs_sub, reshape_bufs_sub, binary_bufs_sub, ternary_bufs_sub, and_self]
theorem ops_part8_sub : Sub (F := F) ops_part8 := by
  simp only [Sub, ops_part8, seg47b, seg48, seg49, seg50, seg51, seg52, seg53, seg54a, List.cons_append, List.nil_append, List.Forall, nullary_bufs_sub, unary_bufs_sub, reshape_bufs_sub, binary_bufs_sub, ternary_bufs_sub, and_self]
theorem ops_part9_sub : Sub (F := F) ops_part9 := by
  simp only [Sub, ops_part9, seg54b, List.cons_append, List.nil_append, List.Forall, nullary_bufs_sub, unary_bufs_sub, reshape_bufs_sub, binary_bufs_sub, ternary_bufs_sub, and_self]

theorem ops_sub : Sub (F := F) ops :=
  ops_part0_sub.append (ops_part1_sub.append (ops_part2_sub.append (ops_part3_sub.append (ops_part4_sub.append (ops_part5_sub.append (ops_part6_sub.append (ops_part7_sub.append (ops_part8_sub.append (ops_part9_sub)))))))))

theorem ops_segs : (ops : List (HloOp τ sig (Elt F))) = seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19 ++ (seg20 ++ (seg21 ++ (seg22 ++ (seg23 ++ (seg24 ++ (seg25 ++ (seg26 ++ (seg27 ++ (seg28 ++ (seg29 ++ (seg30 ++ (seg31 ++ (seg32 ++ (seg33 ++ (seg34 ++ (seg35 ++ (seg36 ++ (seg37 ++ (seg38 ++ (seg39 ++ (seg40 ++ (seg41 ++ (seg42 ++ (seg43 ++ (seg44 ++ (seg45 ++ (seg46 ++ (seg47 ++ (seg48 ++ (seg49 ++ (seg50 ++ (seg51 ++ (seg52 ++ (seg53 ++ (seg54)))))))))))))))))))))))))))))))))))))))))))))))))))))) := rfl

abbrev seg0_W : List (Ref sig .tc) := [main_c, main_c_0, main_v0, main_v1, main_v2, main_v3, main_cst, main_v4, main_v5, main_v6, main_v7, main_v8, main_cst_1, main_v9, main_v10, main_v11, main_v12, main_v13, main_v14, main_v15, main_v16, main_v17, main_v18, main_v19, main_c_2, main_c_3, main_call0_v0, main_call0_v1, main_call0_v2, main_call0_v3, main_call0_v4, main_v20, main_c_4, main_v21, main_v22, main_c_5, main_v23, main_v24, main_v25, main_c_6, main_v26, main_v27, main_v28, main_v29, main_v30, main_v31, main_c_7, main_v32, main_v33, main_c_8, main_v34, main_v35, main_v36, main_c_9, main_v37, main_v38, main_v39, main_v40, main_v41, main_v42, main_v43, main_c_10, main_v44, main_v45, main_c_11, main_v46, main_v47, main_v48, main_c_12, main_v49, main_v50, main_v51, main_v52, main_v53, main_v54, main_c_13, main_v55, main_v56, main_c_14, main_v57, main_v58, main_c_15, main_v59, main_v60, main_v61, main_c_16, main_v62, main_v63, main_v64, main_v65, main_v66, main_v67, main_v68]
abbrev seg1_W : List (Ref sig .tc) := [main_cst_17, main_v69, main_v70, main_v71, main_c_18, main_v72, main_v73, main_c_19, main_v74, main_v75, main_v76, main_c_20, main_v77, main_v78, main_c_21, main_v79, main_v80, main_v81, main_v82, main_v83, main_v84, main_v85, main_v86, main_c_22, main_v87, main_v88, main_c_23, main_v89, main_v90, main_v91, main_v92, main_v93, main_cst_24, main_v94]
abbrev seg2_W : List (Ref sig .tc) := [main_v95, main_v96, main_v97, main_v98, main_v99, main_v100, main_v101]
abbrev seg3_W : List (Ref sig .tc) := [main_v102, main_v103, main_v104, main_v105, main_v106, main_v107, main_v108]
abbrev seg4_W : List (Ref sig .tc) := [main_v109, main_v110, main_v111, main_v112, main_v113, main_v114, main_v115]
abbrev seg5_W : List (Ref sig .tc) := [main_v116, main_v117, main_v118, main_v119, main_v120, main_v121, main_v122]
abbrev seg6_W : List (Ref sig .tc) := [main_v123, main_v124, main_v125, main_v126, main_v127, main_v128, main_v129]
abbrev seg7_W : List (Ref sig .tc) := [main_v130, main_v131, main_v132, main_v133, main_v134, main_v135, main_v136]
abbrev seg8_W : List (Ref sig .tc) := [main_v137, main_v138, main_v139, main_v140, main_v141, main_v142, main_v143]
abbrev seg9_W : List (Ref sig .tc) := [main_v144, main_v145, main_v146, main_v147, main_v148, main_v149, main_v150]
abbrev seg10_W : List (Ref sig .tc) := [main_v151, main_v152, main_v153, main_v154, main_v155, main_v156, main_v157]
abbrev seg11_W : List (Ref sig .tc) := [main_v158, main_v159, main_v160, main_v161, main_v162, main_v163, main_v164]
abbrev seg12_W : List (Ref sig .tc) := [main_v165, main_v166, main_v167, main_v168, main_v169, main_v170, main_v171]
abbrev seg13_W : List (Ref sig .tc) := [main_v172, main_v173, main_v174, main_v175, main_v176, main_v177, main_v178]
abbrev seg14_W : List (Ref sig .tc) := [main_v179, main_v180, main_v181, main_v182, main_v183, main_v184, main_v185]
abbrev seg15_W : List (Ref sig .tc) := [main_v186, main_v187, main_v188, main_v189, main_v190, main_v191, main_v192]
abbrev seg16_W : List (Ref sig .tc) := [main_v193, main_v194, main_v195, main_v196, main_v197, main_v198, main_v199]
abbrev seg17_W : List (Ref sig .tc) := [main_v200, main_v201, main_v202, main_v203, main_v204, main_v205, main_v206]
abbrev seg18_W : List (Ref sig .tc) := [main_v207, main_v208, main_v209, main_v210, main_v211, main_v212, main_v213]
abbrev seg19_W : List (Ref sig .tc) := [main_v214, main_v215, main_v216, main_v217, main_v218, main_v219, main_v220]
abbrev seg20_W : List (Ref sig .tc) := [main_v221, main_v222, main_v223, main_v224, main_v225, main_v226, main_v227]
abbrev seg21_W : List (Ref sig .tc) := [main_v228, main_v229, main_v230, main_v231, main_v232, main_v233, main_v234]
abbrev seg22_W : List (Ref sig .tc) := [main_v235, main_v236, main_v237, main_v238, main_v239, main_v240, main_v241]
abbrev seg23_W : List (Ref sig .tc) := [main_v242, main_v243, main_v244, main_v245, main_v246, main_v247, main_v248]
abbrev seg24_W : List (Ref sig .tc) := [main_v249, main_v250, main_v251, main_v252, main_v253, main_v254, main_v255]
abbrev seg25_W : List (Ref sig .tc) := [main_v256, main_v257, main_v258, main_v259, main_v260, main_v261, main_v262]
abbrev seg26_W : List (Ref sig .tc) := [main_v263, main_v264, main_v265, main_v266, main_v267, main_v268, main_v269]
abbrev seg27_W : List (Ref sig .tc) := [main_cst_25, main_v270, main_v271, main_v272, main_cst_26, main_v273, main_cst_27, main_v274, main_v275, main_v276, main_cst_28, main_call1_v0, main_call1_v1, main_v277, main_v278, main_v279, main_v280, main_v281, main_v282, main_v283, main_v284, main_v285, main_call2_cst, main_call2_v0, main_v286]
abbrev seg28_W : List (Ref sig .tc) := [main_cst_29, main_v287, main_v288, main_v289, main_c_30, main_v290, main_v291, main_c_31, main_v292, main_v293, main_v294, main_c_32, main_v295, main_v296, main_c_33, main_v297, main_v298, main_v299, main_v300, main_v301, main_v302, main_v303, main_v304, main_c_34, main_v305, main_v306, main_c_35, main_v307, main_v308, main_v309, main_v310, main_v311, main_cst_36, main_v312]
abbrev seg29_W : List (Ref sig .tc) := [main_v313, main_v314, main_v315, main_v316, main_v317, main_v318, main_v319]
abbrev seg30_W : List (Ref sig .tc) := [main_v320, main_v321, main_v322, main_v323, main_v324, main_v325, main_v326]
abbrev seg31_W : List (Ref sig .tc) := [main_v327, main_v328, main_v329, main_v330, main_v331, main_v332, main_v333]
abbrev seg32_W : List (Ref sig .tc) := [main_v334, main_v335, main_v336, main_v337, main_v338, main_v339, main_v340]
abbrev seg33_W : List (Ref sig .tc) := [main_v341, main_v342, main_v343, main_v344, main_v345, main_v346, main_v347]
abbrev seg34_W : List (Ref sig .tc) := [main_v348, main_v349, main_v350, main_v351, main_v352, main_v353, main_v354]
abbrev seg35_W : List (Ref sig .tc) := [main_v355, main_v356, main_v357, main_v358, main_v359, main_v360, main_v361]
abbrev seg36_W : List (Ref sig .tc) := [main_v362, main_v363, main_v364, main_v365, main_v366, main_v367, main_v368]
abbrev seg37_W : List (Ref sig .tc) := [main_v369, main_v370, main_v371, main_v372, main_v373, main_v374, main_v375]
abbrev seg38_W : List (Ref sig .tc) := [main_v376, main_v377, main_v378, main_v379, main_v380, main_v381, main_v382]
abbrev seg39_W : List (Ref sig .tc) := [main_v383, main_v384, main_v385, main_v386, main_v387, main_v388, main_v389]
abbrev seg40_W : List (Ref sig .tc) := [main_v390, main_v391, main_v392, main_v393, main_v394, main_v395, main_v396]
abbrev seg41_W : List (Ref sig .tc) := [main_v397, main_v398, main_v399, main_v400, main_v401, main_v402, main_v403]
abbrev seg42_W : List (Ref sig .tc) := [main_v404, main_v405, main_v406, main_v407, main_v408, main_v409, main_v410]
abbrev seg43_W : List (Ref sig .tc) := [main_v411, main_v412, main_v413, main_v414, main_v415, main_v416, main_v417]
abbrev seg44_W : List (Ref sig .tc) := [main_v418, main_v419, main_v420, main_v421, main_v422, main_v423, main_v424]
abbrev seg45_W : List (Ref sig .tc) := [main_v425, main_v426, main_v427, main_v428, main_v429, main_v430, main_v431]
abbrev seg46_W : List (Ref sig .tc) := [main_v432, main_v433, main_v434, main_v435, main_v436, main_v437, main_v438]
abbrev seg47_W : List (Ref sig .tc) := [main_v439, main_v440, main_v441, main_v442, main_v443, main_v444, main_v445]
abbrev seg48_W : List (Ref sig .tc) := [main_v446, main_v447, main_v448, main_v449, main_v450, main_v451, main_v452]
abbrev seg49_W : List (Ref sig .tc) := [main_v453, main_v454, main_v455, main_v456, main_v457, main_v458, main_v459]
abbrev seg50_W : List (Ref sig .tc) := [main_v460, main_v461, main_v462, main_v463, main_v464, main_v465, main_v466]
abbrev seg51_W : List (Ref sig .tc) := [main_v467, main_v468, main_v469, main_v470, main_v471, main_v472, main_v473]
abbrev seg52_W : List (Ref sig .tc) := [main_v474, main_v475, main_v476, main_v477, main_v478, main_v479, main_v480]
abbrev seg53_W : List (Ref sig .tc) := [main_v481, main_v482, main_v483, main_v484, main_v485, main_v486, main_v487]
abbrev seg54_W : List (Ref sig .tc) := [main_cst_37, main_v488, main_v489, main_v490, main_cst_38, main_v491, main_cst_39, main_v492, main_v493, main_v494, main_cst_40, main_call3_v0, main_call3_v1, main_v495, main_v496, main_v497, main_v498, main_v499, main_v500, main_v501, main_v502, main_v503, main_call4_cst, main_call4_v0, main_call4_cst_0, main_call4_v1, main_call4_v2, main_call4_v3, main_call4_v4, main_call4_v5, main_call4_v6, main_call4_cst_1, main_call4_v7, main_call4_v8, main_call4_v9, main_call4_v10, main_v504]

/-- Every buffer the operations `s` write is in the list `W`. -/
def Writes (s : List (HloOp τ sig (Elt F))) (W : List (Ref sig .tc)) : Prop :=
  s.Forall fun op => op.writes ⊆ (W.map (Proc.devRef (τ := τ) .tc)).toFinset

theorem seg0_writes : Writes (F := F) seg0 seg0_W := by
  simp only [Writes, seg0, seg0a, seg0b, List.cons_append, List.nil_append, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg1_writes : Writes (F := F) seg1 seg1_W := by
  simp only [Writes, seg1, seg1a, seg1b, List.cons_append, List.nil_append, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg2_writes : Writes (F := F) seg2 seg2_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg3_writes : Writes (F := F) seg3 seg3_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg4_writes : Writes (F := F) seg4 seg4_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg5_writes : Writes (F := F) seg5 seg5_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg6_writes : Writes (F := F) seg6 seg6_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg7_writes : Writes (F := F) seg7 seg7_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg8_writes : Writes (F := F) seg8 seg8_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg9_writes : Writes (F := F) seg9 seg9_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg10_writes : Writes (F := F) seg10 seg10_W := by
  simp only [Writes, seg10, seg10a, seg10b, List.cons_append, List.nil_append, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg11_writes : Writes (F := F) seg11 seg11_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg12_writes : Writes (F := F) seg12 seg12_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg13_writes : Writes (F := F) seg13 seg13_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg14_writes : Writes (F := F) seg14 seg14_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg15_writes : Writes (F := F) seg15 seg15_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg16_writes : Writes (F := F) seg16 seg16_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg17_writes : Writes (F := F) seg17 seg17_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg18_writes : Writes (F := F) seg18 seg18_W := by
  simp only [Writes, seg18, seg18a, seg18b, List.cons_append, List.nil_append, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg19_writes : Writes (F := F) seg19 seg19_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg20_writes : Writes (F := F) seg20 seg20_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg21_writes : Writes (F := F) seg21 seg21_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg22_writes : Writes (F := F) seg22 seg22_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg23_writes : Writes (F := F) seg23 seg23_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg24_writes : Writes (F := F) seg24 seg24_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg25_writes : Writes (F := F) seg25 seg25_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg26_writes : Writes (F := F) seg26 seg26_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg27_writes : Writes (F := F) seg27 seg27_W := by
  simp only [Writes, seg27, seg27a, seg27b, List.cons_append, List.nil_append, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg28_writes : Writes (F := F) seg28 seg28_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg29_writes : Writes (F := F) seg29 seg29_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg30_writes : Writes (F := F) seg30 seg30_W := by
  simp only [Writes, seg30, seg30a, seg30b, List.cons_append, List.nil_append, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg31_writes : Writes (F := F) seg31 seg31_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg32_writes : Writes (F := F) seg32 seg32_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg33_writes : Writes (F := F) seg33 seg33_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg34_writes : Writes (F := F) seg34 seg34_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg35_writes : Writes (F := F) seg35 seg35_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg36_writes : Writes (F := F) seg36 seg36_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg37_writes : Writes (F := F) seg37 seg37_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg38_writes : Writes (F := F) seg38 seg38_W := by
  simp only [Writes, seg38, seg38a, seg38b, List.cons_append, List.nil_append, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg39_writes : Writes (F := F) seg39 seg39_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg40_writes : Writes (F := F) seg40 seg40_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg41_writes : Writes (F := F) seg41 seg41_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg42_writes : Writes (F := F) seg42 seg42_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg43_writes : Writes (F := F) seg43 seg43_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg44_writes : Writes (F := F) seg44 seg44_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg45_writes : Writes (F := F) seg45 seg45_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg46_writes : Writes (F := F) seg46 seg46_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg47_writes : Writes (F := F) seg47 seg47_W := by
  simp only [Writes, seg47, seg47a, seg47b, List.cons_append, List.nil_append, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg48_writes : Writes (F := F) seg48 seg48_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg49_writes : Writes (F := F) seg49 seg49_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg50_writes : Writes (F := F) seg50 seg50_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg51_writes : Writes (F := F) seg51 seg51_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg52_writes : Writes (F := F) seg52 seg52_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg53_writes : Writes (F := F) seg53 seg53_W := by
  simp only [Writes, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)
theorem seg54_writes : Writes (F := F) seg54 seg54_W := by
  simp only [Writes, seg54, seg54a, seg54b, List.cons_append, List.nil_append, List.Forall, nullary_writes, unary_writes, binary_writes, ternary_writes, quaternary_writes, reshape_writes, binaryIndexed_writes, nary_writes, unaryIndexed_writes, Finset.singleton_subset_iff, List.mem_toFinset]
  repeat' apply And.intro
  all_goals exact List.mem_map_of_mem (by decide)

def segs : List (List (HloOp τ sig (Elt F))) := [seg0, seg1, seg2, seg3, seg4, seg5, seg6, seg7, seg8, seg9, seg10, seg11, seg12, seg13, seg14, seg15, seg16, seg17, seg18, seg19, seg20, seg21, seg22, seg23, seg24, seg25, seg26, seg27, seg28, seg29, seg30, seg31, seg32, seg33, seg34, seg35, seg36, seg37, seg38, seg39, seg40, seg41, seg42, seg43, seg44, seg45, seg46, seg47, seg48, seg49, seg50, seg51, seg52, seg53, seg54]

def segWs : List (List (Ref sig .tc)) := [seg0_W, seg1_W, seg2_W, seg3_W, seg4_W, seg5_W, seg6_W, seg7_W, seg8_W, seg9_W, seg10_W, seg11_W, seg12_W, seg13_W, seg14_W, seg15_W, seg16_W, seg17_W, seg18_W, seg19_W, seg20_W, seg21_W, seg22_W, seg23_W, seg24_W, seg25_W, seg26_W, seg27_W, seg28_W, seg29_W, seg30_W, seg31_W, seg32_W, seg33_W, seg34_W, seg35_W, seg36_W, seg37_W, seg38_W, seg39_W, seg40_W, seg41_W, seg42_W, seg43_W, seg44_W, seg45_W, seg46_W, seg47_W, seg48_W, seg49_W, seg50_W, seg51_W, seg52_W, seg53_W, seg54_W]

theorem seg_writes : ∀ k, Writes (F := F) (segs.getD k []) (segWs.getD k [])
  | 0 => seg0_writes
  | 1 => seg1_writes
  | 2 => seg2_writes
  | 3 => seg3_writes
  | 4 => seg4_writes
  | 5 => seg5_writes
  | 6 => seg6_writes
  | 7 => seg7_writes
  | 8 => seg8_writes
  | 9 => seg9_writes
  | 10 => seg10_writes
  | 11 => seg11_writes
  | 12 => seg12_writes
  | 13 => seg13_writes
  | 14 => seg14_writes
  | 15 => seg15_writes
  | 16 => seg16_writes
  | 17 => seg17_writes
  | 18 => seg18_writes
  | 19 => seg19_writes
  | 20 => seg20_writes
  | 21 => seg21_writes
  | 22 => seg22_writes
  | 23 => seg23_writes
  | 24 => seg24_writes
  | 25 => seg25_writes
  | 26 => seg26_writes
  | 27 => seg27_writes
  | 28 => seg28_writes
  | 29 => seg29_writes
  | 30 => seg30_writes
  | 31 => seg31_writes
  | 32 => seg32_writes
  | 33 => seg33_writes
  | 34 => seg34_writes
  | 35 => seg35_writes
  | 36 => seg36_writes
  | 37 => seg37_writes
  | 38 => seg38_writes
  | 39 => seg39_writes
  | 40 => seg40_writes
  | 41 => seg41_writes
  | 42 => seg42_writes
  | 43 => seg43_writes
  | 44 => seg44_writes
  | 45 => seg45_writes
  | 46 => seg46_writes
  | 47 => seg47_writes
  | 48 => seg48_writes
  | 49 => seg49_writes
  | 50 => seg50_writes
  | 51 => seg51_writes
  | 52 => seg52_writes
  | 53 => seg53_writes
  | 54 => seg54_writes
  | _ + 55 => trivial

/-- The buffer contents at boundary `k`: the launch contents after the first `k` segments. -/
def u (V0 : Valuation τ sig (Elt F)) : ℕ → Valuation τ sig (Elt F)
  | 0 => V0
  | k + 1 => after (segs.getD k []) (u V0 k)

/-- A buffer that none of the segments `i … j - 1` writes holds at boundary `j` what it held at boundary `i`. -/
theorem u_keep (V0 : Valuation τ sig (Elt F)) (r : Ref sig .tc) (i j : ℕ)
    (h : i ≤ j ∧ ∀ k < j, i ≤ k → r ∉ segWs.getD k []) :
    u V0 j (Proc.devRef .tc r) = u V0 i (Proc.devRef .tc r) := by
  obtain ⟨hij, h⟩ := h
  induction j, hij using Nat.le_induction with
  | base => rfl
  | succ j hij ih =>
    exact (after_of_writes_sub _ _ (seg_writes j) (h j (Nat.lt_succ_self j) hij)).trans
      (ih fun k hk => h k (Nat.lt_succ_of_lt hk))

/-- The same from the launch contents. -/
theorem u_arg (V0 : Valuation τ sig (Elt F)) (r : Ref sig .tc) (j : ℕ) (h : ∀ k < j, r ∉ segWs.getD k []) :
    u V0 j (Proc.devRef .tc r) = V0 (Proc.devRef .tc r) :=
  u_keep V0 r 0 j ⟨Nat.zero_le _, fun k hk _ => h k hk⟩

theorem after_ops (V0 : Valuation τ sig (Elt F)) : after ops V0 = u V0 55 := by
  rw [ops_segs]
  simp only [after_append]
  rfl

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = u (launchContents m c) 55 (b : DevRef τ sig) :=
  (θ_run defs _ _).mono (fun _ h c b => (h c b).trans (congrFun (after_ops (launchContents m c)) _))
    (run_seq scopedRefs_eq scopedSems_eq defs main (fun _ => ops) main_eq (fun _ => ops_sub) m ρ)

end Cert.ROps

end
-- ==== Proof.RStep.lean ====
/- One accumulation step of the reference at an index; its scatter-added coefficient array at (e, k) is the sum of edge e's basis values with flat index k, all flat indices being column numbers. -/
import proofs.«409647_j39943195853539_2_alg».proof.Proof.Gen.ReferenceIdeal
import proofs.«409647_j39943195853539_2_alg».proof.Proof.Spec
import proofs.«409647_j39943195853539_2_alg».proof.Proof.LibDotPlain
import Idealize.ShloMosaic.PureOps.Ideal.Laws
import Idealize.ShloMosaic.Lib.Pipeline.Value
import Idealize.ShloMosaic.Lib.ValueLayout

noncomputable section

namespace Cert.RStep

open Idealize.ShloMosaic Idealize.ShloMosaic.ValueIdx Cert.ReferenceIdeal Cert.ReferenceIdeal.Gen
open scoped BigOperators

variable {F : FTy → Type} [FloatOps F]

theorem slices_coeff (k : Fin 25) : S800000x25.Slices ![0, k.val] S800000x1 := by
  refine ⟨rfl, fun a => ?_⟩
  match a with
  | ⟨0, _⟩ => show 0 + 800000 ≤ 800000; omega
  | ⟨1, _⟩ => show k.val + 1 ≤ 25; have := k.isLt; omega

theorem slices_w1 (k : Fin 25) : S25x64x16.Slices ![k.val, 0, 0] S1x64x16 := by
  refine ⟨rfl, fun a => ?_⟩
  match a with
  | ⟨0, _⟩ => show k.val + 1 ≤ 25; have := k.isLt; omega
  | ⟨1, _⟩ => show 0 + 64 ≤ 64; omega
  | ⟨2, _⟩ => show 0 + 16 ≤ 16; omega

theorem slices_w2 (k : Fin 25) : S25x16x7.Slices ![k.val, 0, 0] S1x16x7 := by
  refine ⟨rfl, fun a => ?_⟩
  match a with
  | ⟨0, _⟩ => show k.val + 1 ≤ 25; have := k.isLt; omega
  | ⟨1, _⟩ => show 0 + 16 ≤ 16; omega
  | ⟨2, _⟩ => show 0 + 7 ≤ 7; omega

def refStep1 (k : Fin 25) (acc : FVec F S800000x16 .f32) (coeff : FVec F S800000x25 .f32) (xj : FVec F S800000x64 .f32)
    (W : FVec F S25x64x16 .f32) : FVec F S800000x16 .f32 :=
  addf acc (mulf (broadcastInDim S800000x16 ![0, 1] bcast_S800000x1_S800000x16_0_1 (extractStridedSlice S800000x1 ![0, k.val] coeff (slices_coeff k)))
    (Host.dotGeneral dot_S800000x64_S64x16_S800000x16_1_0_0_1_n_n none xj
      (shapeCast S64x16 (extractStridedSlice S1x64x16 ![k.val, 0, 0] W (slices_w1 k)) shapeCasts_S1x64x16_S64x16)))

def refStep2 (k : Fin 25) (acc : FVec F S800000x7 .f32) (coeff : FVec F S800000x25 .f32) (xj : FVec F S800000x16 .f32)
    (W : FVec F S25x16x7 .f32) : FVec F S800000x7 .f32 :=
  addf acc (mulf (broadcastInDim S800000x7 ![0, 1] bcast_S800000x1_S800000x7_0_1 (extractStridedSlice S800000x1 ![0, k.val] coeff (slices_coeff k)))
    (Host.dotGeneral dot_S800000x16_S16x7_S800000x7_1_0_0_1_n_n none xj
      (shapeCast S16x7 (extractStridedSlice S1x16x7 ![k.val, 0, 0] W (slices_w2 k)) shapeCasts_S1x16x7_S16x7)))

theorem coeffCol_at {α : Type} {n : ℕ} {k : Fin 25} (hs : S800000x25.Slices ![0, k.val] S800000x1)
    (hb : S800000x1.BroadcastsInDim (⟨2, ![800000, n]⟩ : Shape) ![0, 1]) (coeff : S800000x25.Idx → α)
    (e : Fin 800000) (o : Fin n) :
    broadcastInDim (⟨2, ![800000, n]⟩ : Shape) ![0, 1] hb (extractStridedSlice S800000x1 ![0, k.val] coeff hs) (ix2 e o)
      = coeff (ix2 e k) := by
  refine (broadcastInDim_apply _ hb _ (ix2 e o) (ix2 e (0 : Fin 1)) (fun a => ?_)).trans ?_
  · match a with
    | ⟨0, _⟩ => rfl
    | ⟨1, _⟩ => rfl
  · exact slice2_axis1_apply k.val coeff hs e (0 : Fin 1) k rfl

theorem weightMat_at {α : Type} {a b : ℕ} {k : Fin 25}
    (hs : (⟨3, ![25, a, b]⟩ : Shape).Slices ![k.val, 0, 0] (⟨3, ![1, a, b]⟩ : Shape))
    (hc : (⟨3, ![1, a, b]⟩ : Shape).ShapeCasts (⟨2, ![a, b]⟩ : Shape)) (W : (⟨3, ![25, a, b]⟩ : Shape).Idx → α)
    (f : Fin a) (o : Fin b) :
    shapeCast (⟨2, ![a, b]⟩ : Shape) (extractStridedSlice (⟨3, ![1, a, b]⟩ : Shape) ![k.val, 0, 0] W hs) hc (ix2 f o)
      = W (ix3 k f o) := by
  rw [shapeCast_1ab_ab_apply]
  exact extractStridedSlice_apply _ _ _ _ _ (fun ax => by
    match ax with
    | ⟨0, _⟩ => exact (Nat.add_zero _).symm
    | ⟨1, _⟩ => exact (Nat.zero_add _).symm
    | ⟨2, _⟩ => exact (Nat.zero_add _).symm)

theorem refStep1_at (k : Fin 25) (acc : FVec Ideal S800000x16 .f32) (coeff : FVec Ideal S800000x25 .f32)
    (xj : FVec Ideal S800000x64 .f32) (W : FVec Ideal S25x64x16 .f32) (e : Fin 800000) (o : Fin 16) :
    refStep1 (F := Ideal) k acc coeff xj W (ix2 e o)
      = acc (ix2 e o) + coeff (ix2 e k) * ∑ f : Fin 64, xj (ix2 e f) * W (ix3 k f o) := by
  unfold refStep1 Host.dotGeneral
  rw [addf_apply, mulf_apply, coeffCol_at (slices_coeff k) bcast_S800000x1_S800000x16_0_1 coeff e o,
    Cert.DotPlain.dotGeneral_rows_cols (M := 800000) (K := 64) (N := 16) dot_S800000x64_S64x16_S800000x16_1_0_0_1_n_n
      rfl rfl rfl rfl rfl rfl none .single xj _ e o]
  simp only [weightMat_at (slices_w1 k) shapeCasts_S1x64x16_S64x16 W]

theorem refStep2_at (k : Fin 25) (acc : FVec Ideal S800000x7 .f32) (coeff : FVec Ideal S800000x25 .f32)
    (xj : FVec Ideal S800000x16 .f32) (W : FVec Ideal S25x16x7 .f32) (e : Fin 800000) (o : Fin 7) :
    refStep2 (F := Ideal) k acc coeff xj W (ix2 e o)
      = acc (ix2 e o) + coeff (ix2 e k) * ∑ f : Fin 16, xj (ix2 e f) * W (ix3 k f o) := by
  unfold refStep2 Host.dotGeneral
  rw [addf_apply, mulf_apply, coeffCol_at (slices_coeff k) bcast_S800000x1_S800000x7_0_1 coeff e o,
    Cert.DotPlain.dotGeneral_rows_cols (M := 800000) (K := 16) (N := 7) dot_S800000x16_S16x7_S800000x7_1_0_0_1_n_n
      rfl rfl rfl rfl rfl rfl none .single xj _ e o]
  simp only [weightMat_at (slices_w2 k) shapeCasts_S1x16x7_S16x7 W]

local notation "dS" => scatter_S800000x25_S800000x4x2_S800000x4_n_01_01_2

theorem word_eq_iff (w : BitVec 32) (k : ℕ) (hk : k < 25) (h0 : 0 ≤ w.toInt) (h1 : w.toInt < 25) :
    w.toInt.toNat = k ↔ w = BitVec.ofNat 32 k := by
  have hcond := BitVec.toInt_eq_toNat_cond w
  have hlt : w.toNat < 2 ^ 32 := w.isLt
  have hnat : (w.toNat : ℤ) = w.toInt := by
    split_ifs at hcond <;> omega
  constructor
  · intro h
    apply BitVec.eq_of_toNat_eq
    rw [BitVec.toNat_ofNat]
    omega
  · intro h
    have h2 := congrArg BitVec.toNat h
    rw [BitVec.toNat_ofNat] at h2
    omega

theorem siIdx_at (e' : Fin 800000) (j : Fin 4) (c : Fin (dS).scatterDimsToOperandDims.length) (c' : Fin 2)
    (hc : c.val = c'.val) : (dS).siIdx (ix2 e' j) c = ix3 e' j c' := by
  funext b
  match b with
  | ⟨0, _⟩ => exact Fin.ext rfl
  | ⟨1, _⟩ => exact Fin.ext rfl
  | ⟨2, _⟩ => exact Fin.ext hc

theorem start_at (idx : IVec S800000x4x2 32) (e' : Fin 800000) (j : Fin 4) (a : Fin 2) :
    (dS).start (ix2 e' j) idx a = (idx (ix3 e' j a)).toInt := by
  revert a
  refine Fin.forall_fin_two.2 ⟨?_, ?_⟩
  · unfold ScatterDims.start
    rw [dif_pos (by decide)]
    exact congrArg (fun i => (idx i).toInt) (siIdx_at e' j _ 0 rfl)
  · unfold ScatterDims.start
    rw [dif_pos (by decide)]
    exact congrArg (fun i => (idx i).toInt) (siIdx_at e' j _ 1 rfl)

theorem window_at (e' : Fin 800000) (j : Fin 4) (a : Fin 2) : (dS).window (ix2 e' j) a = 0 := by
  revert a
  refine Fin.forall_fin_two.2 ⟨?_, ?_⟩
  · unfold ScatterDims.window
    exact dif_neg (by decide)
  · unfold ScatterDims.window
    exact dif_neg (by decide)

theorem resultIdx_eq_iff (idx : IVec S800000x4x2 32) (wi : IVec S800000x4 32)
    (hrow : ∀ (e : Fin 800000) (j : Fin 4), (idx (ix3 e j 0)).toInt = (e.val : ℤ))
    (hcol : ∀ (e : Fin 800000) (j : Fin 4), idx (ix3 e j 1) = wi (ix2 e j))
    (hwi : ∀ i, 0 ≤ (wi i).toInt ∧ (wi i).toInt < 25)
    (e' : Fin 800000) (j : Fin 4) (e : Fin 800000) (k : Fin 25) :
    (dS).resultIdx? (ix2 e' j) idx = some (ix2 e k) ↔ e' = e ∧ wi (ix2 e' j) = BitVec.ofNat 32 k.val := by
  have hval : ∀ a : Fin 2, (dS).start (ix2 e' j) idx a + ((dS).window (ix2 e' j) a : ℤ) = (idx (ix3 e' j a)).toInt := by
    intro a
    rw [start_at, window_at, Nat.cast_zero, add_zero]
  have hw := hwi (ix2 e' j)
  have hin : ∀ a, 0 ≤ (dS).start (ix2 e' j) idx a + ((dS).window (ix2 e' j) a : ℤ)
      ∧ (dS).start (ix2 e' j) idx a + ((dS).window (ix2 e' j) a : ℤ) < (S800000x25.size a : ℤ) := by
    refine Fin.forall_fin_two.2 ⟨?_, ?_⟩
    · rw [hval, hrow]
      show 0 ≤ (e'.val : ℤ) ∧ (e'.val : ℤ) < ((800000 : ℕ) : ℤ)
      omega
    · rw [hval, hcol]
      show 0 ≤ (wi (ix2 e' j)).toInt ∧ (wi (ix2 e' j)).toInt < ((25 : ℕ) : ℤ)
      omega
  unfold ScatterDims.resultIdx?
  rw [dif_pos hin, Option.some.injEq]
  constructor
  · intro h
    have h0 : ((dS).start (ix2 e' j) idx 0 + ((dS).window (ix2 e' j) 0 : ℤ)).toNat = e.val :=
      congrArg (fun i => (i 0).val) h
    have h1 : ((dS).start (ix2 e' j) idx 1 + ((dS).window (ix2 e' j) 1 : ℤ)).toNat = k.val :=
      congrArg (fun i => (i 1).val) h
    rw [hval, hrow] at h0
    rw [hval, hcol] at h1
    exact ⟨Fin.ext (by omega), (word_eq_iff _ k.val k.isLt hw.1 hw.2).1 h1⟩
  · rintro ⟨rfl, hwk⟩
    funext a
    apply Fin.ext
    revert a
    refine Fin.forall_fin_two.2 ⟨?_, ?_⟩
    · show ((dS).start (ix2 e' j) idx 0 + ((dS).window (ix2 e' j) 0 : ℤ)).toNat = e'.val
      rw [hval, hrow]
      omega
    · show ((dS).start (ix2 e' j) idx 1 + ((dS).window (ix2 e' j) 1 : ℤ)).toNat = k.val
      rw [hval, hcol]
      exact (word_eq_iff _ k.val k.isLt hw.1 hw.2).2 hwk

theorem coeff_at (idx : IVec S800000x4x2 32) (wi : IVec S800000x4 32) (basis : FVec Ideal S800000x4 .f32)
    (zeros : FVec Ideal S800000x25 .f32) (hz : ∀ i, zeros i = 0)
    (hrow : ∀ (e : Fin 800000) (j : Fin 4), (idx (ix3 e j 0)).toInt = (e.val : ℤ))
    (hcol : ∀ (e : Fin 800000) (j : Fin 4), idx (ix3 e j 1) = wi (ix2 e j))
    (hwi : ∀ i, 0 ≤ (wi i).toInt ∧ (wi i).toInt < 25)
    (e : Fin 800000) (k : Fin 25) :
    Host.scatterAdd (F := Ideal) scatter_S800000x25_S800000x4x2_S800000x4_n_01_01_2 zeros idx basis (ix2 e k)
      = ∑ j : Fin 4, if wi (ix2 e j) = BitVec.ofNat 32 k.val then basis (ix2 e j) else 0 := by
  have hchar := resultIdx_eq_iff idx wi hrow hcol hwi
  unfold Host.scatterAdd
  rw [Ideal.hostScatterAdd_def]
  unfold Ideal.hostScatterAdd
  rw [hz, zero_add, Finset.sum_filter, sum_idx2, Finset.sum_comm]
  refine Finset.sum_congr rfl fun j _ => ?_

  rw [Finset.sum_eq_single e (fun e' _ hne => if_neg (fun h => hne ((hchar e' j e k).1 h).1))
    (fun h => absurd (Finset.mem_univ e) h)]
  by_cases h2 : wi (ix2 e j) = BitVec.ofNat 32 k.val
  · rw [if_pos h2, if_pos ((hchar e j e k).2 ⟨rfl, h2⟩)]
  · rw [if_neg h2, if_neg (fun h => h2 ((hchar e j e k).1 h).2)]

end Cert.RStep

end
-- ==== Proof.RFoldBase.lean ====
/- The reference's coefficient arrays and zero accumulators, and the step that carries the recurrence from k to k + 1 matrices. -/
import proofs.«409647_j39943195853539_2_alg».proof.Proof.ROps
import proofs.«409647_j39943195853539_2_alg».proof.Proof.RStep
import proofs.«409647_j39943195853539_2_alg».proof.Proof.Spec
import Idealize.ShloMosaic.Lib.Affine
import Idealize.ShloMosaic.Lib.IdealHost

noncomputable section

namespace Cert.RFold

open Idealize.ShloMosaic Idealize.ShloMosaic.ValueIdx Idealize.ShloMosaic.TcCoe Idealize.SL.Sem Idealize.ShloMosaic.StableHlo
open Cert.ReferenceIdeal Cert.ROps
open scoped BigOperators

variable (V0 : Valuation τ sig (Elt Ideal))

open Cert.ReferenceIdeal.Gen

def edgeCol : IVec S800000x1 32 :=
  select
    (cmpi .slt (broadcastInDim S800000x1 ![0] bcast_S800000_S800000x1_0 (iotaInDim S800000 32 0))
      (broadcastInDim S800000x1 ![] bcast_S_S800000x1 (constantI S_ 32 0#32)))
    (addi (broadcastInDim S800000x1 ![0] bcast_S800000_S800000x1_0 (iotaInDim S800000 32 0))
      (broadcastInDim S800000x1 ![] bcast_S_S800000x1 (constantI S_ 32 800000#32)))
    (broadcastInDim S800000x1 ![0] bcast_S800000_S800000x1_0 (iotaInDim S800000 32 0))

def wrapCol (wi : IVec S800000x4 32) : IVec S800000x4 32 :=
  select (cmpi .slt wi (broadcastInDim S800000x4 ![] bcast_S_S800000x4 (constantI S_ 32 0#32)))
    (addi wi (broadcastInDim S800000x4 ![] bcast_S_S800000x4 (constantI S_ 32 25#32))) wi

def idxArr (wi : IVec S800000x4 32) : IVec S800000x4x2 32 :=
  concatenate S800000x4x2 2
    [⟨S800000x4x1, broadcastInDim S800000x4x1 ![0, 1] bcast_S800000x4_S800000x4x1_0_1
        (broadcastInDim S800000x4 ![0, 1] bcast_S800000x1_S800000x4_0_1 edgeCol)⟩,
     ⟨S800000x4x1, broadcastInDim S800000x4x1 ![0, 1] bcast_S800000x4_S800000x4x1_0_1 (wrapCol wi)⟩]
    concatenates_S800000x4x1_S800000x4x1_S800000x4x2_d2

theorem slt_zero_of_nonneg (w : BitVec 32) (h : 0 ≤ w.toInt) : IntOp.cmpi .slt w 0#32 = 0#1 :=
  eq_zero_of_ne_one fun h1 => by
    have h2 := IntOp.cmpi_slt.mp h1
    have h0 : (0#32 : BitVec 32).toInt = 0 := by decide
    omega

theorem edgeCol_at (e : Fin 800000) : edgeCol (ix2 e (0 : Fin 1)) = BitVec.ofNat 32 e.val := by
  have hio : broadcastInDim S800000x1 ![0] bcast_S800000_S800000x1_0 (iotaInDim S800000 32 0) (ix2 e (0 : Fin 1))
      = BitVec.ofNat 32 e.val :=
    broadcastInDim_apply _ bcast_S800000_S800000x1_0 _ (ix2 e (0 : Fin 1)) (ix1 e) (fun a => by
      match a with
      | ⟨0, _⟩ => rfl)
  have hnn : 0 ≤ (BitVec.ofNat 32 e.val).toInt := by
    have hcond := BitVec.toInt_eq_toNat_cond (BitVec.ofNat 32 e.val)
    rw [BitVec.toNat_ofNat] at hcond
    have := e.isLt
    split_ifs at hcond <;> omega
  unfold edgeCol
  rw [select_apply]
  show Scalar.select (IntOp.cmpi .slt _ _) _ _ = _
  rw [hio]
  show Scalar.select (IntOp.cmpi .slt (BitVec.ofNat 32 e.val) 0#32) _ _ = _
  rw [slt_zero_of_nonneg _ hnn, select_zero]

theorem idxArr_row (wi : IVec S800000x4 32) (e : Fin 800000) (j : Fin 4) :
    (idxArr wi (ix3 e j (0 : Fin 2))).toInt = (e.val : ℤ) := by
  have h1 : idxArr wi (ix3 e j (0 : Fin 2)) = BitVec.ofNat 32 e.val := by
    unfold idxArr
    refine (concatenate_pair_apply_left (t := S800000x4x2) (s₁ := S800000x4x1) (s₂ := S800000x4x1) (2 : Fin 3) _ _ concatenates_S800000x4x1_S800000x4x1_S800000x4x2_d2
      (ix3 e j (0 : Fin 2)) rfl (ix3 e j (0 : Fin 1)) (fun b => by
        match b with
        | ⟨0, _⟩ => rfl
        | ⟨1, _⟩ => rfl
        | ⟨2, _⟩ => rfl)).trans ?_
    refine (broadcastInDim_apply _ bcast_S800000x4_S800000x4x1_0_1 _ (ix3 e j (0 : Fin 1)) (ix2 e j) (fun a => by
      match a with
      | ⟨0, _⟩ => rfl
      | ⟨1, _⟩ => rfl)).trans ?_
    refine (broadcastInDim_apply _ bcast_S800000x1_S800000x4_0_1 _ (ix2 e j) (ix2 e (0 : Fin 1)) (fun a => by
      match a with
      | ⟨0, _⟩ => rfl
      | ⟨1, _⟩ => rfl)).trans ?_
    exact edgeCol_at e
  rw [h1]
  have hcond := BitVec.toInt_eq_toNat_cond (BitVec.ofNat 32 e.val)
  rw [BitVec.toNat_ofNat] at hcond
  have := e.isLt
  split_ifs at hcond <;> omega

theorem idxArr_col (wi : IVec S800000x4 32) (e : Fin 800000) (j : Fin 4) (h : 0 ≤ (wi (ix2 e j)).toInt) :
    idxArr wi (ix3 e j (1 : Fin 2)) = wi (ix2 e j) := by
  unfold idxArr
  refine (concatenate_pair_apply_right (t := S800000x4x2) (s₁ := S800000x4x1) (s₂ := S800000x4x1) (2 : Fin 3) _ _ concatenates_S800000x4x1_S800000x4x1_S800000x4x2_d2
    (ix3 e j (1 : Fin 2)) rfl rfl (ix3 e j (0 : Fin 1)) (fun b hb => by
      match b with
      | ⟨0, _⟩ => rfl
      | ⟨1, _⟩ => rfl
      | ⟨2, _⟩ => exact absurd rfl hb) rfl).trans ?_
  refine (broadcastInDim_apply _ bcast_S800000x4_S800000x4x1_0_1 _ (ix3 e j (0 : Fin 1)) (ix2 e j) (fun a => by
    match a with
    | ⟨0, _⟩ => rfl
    | ⟨1, _⟩ => rfl)).trans ?_
  unfold wrapCol
  rw [select_apply]
  show Scalar.select (IntOp.cmpi .slt (wi (ix2 e j)) 0#32) _ _ = _
  rw [slt_zero_of_nonneg _ h, select_zero]

theorem zeros_at {T : Shape} (h : S_.BroadcastsInDim T ![]) (i : T.Idx) :
    broadcastInDim T ![] h (constant (F := Ideal) S_ .f32 0x00000000#32) i = 0 := by
  rw [broadcastInDim_scalar_apply, constant_apply]
  exact Ideal.ofBits_zero_f32

theorem coeff_of_scatter (wi : IVec S800000x4 32) (basis : FVec Ideal S800000x4 .f32)
    (hwi : ∀ i, 0 ≤ (wi i).toInt ∧ (wi i).toInt < 25) (e : Fin 800000) (k : Fin 25) :
    Host.scatterAdd (F := Ideal) scatter_S800000x25_S800000x4x2_S800000x4_n_01_01_2
        (broadcastInDim S800000x25 ![] bcast_S_S800000x25 (constant (F := Ideal) S_ .f32 0x00000000#32)) (idxArr wi) basis (ix2 e k)
      = ∑ j : Fin 4, if wi (ix2 e j) = BitVec.ofNat 32 k.val then basis (ix2 e j) else 0 :=
  Cert.RStep.coeff_at (idxArr wi) wi basis _ (zeros_at bcast_S_S800000x25) (idxArr_row wi)
    (fun e j => idxArr_col wi e j (hwi (ix2 e j)).1) hwi e k

theorem fold_step1 (n : ℕ) (hn : n < 25) (accNext accPrev : FVec Ideal S800000x16 .f32)
    (coeff : FVec Ideal S800000x25 .f32) (xj : FVec Ideal S800000x64 .f32) (W : FVec Ideal S25x64x16 .f32)
    (basis : FVec Ideal S800000x4 .f32) (wi : IVec S800000x4 32)
    (hstep : accNext = Cert.RStep.refStep1 (F := Ideal) ⟨n, hn⟩ accPrev coeff xj W)
    (hcoeff : ∀ (e : Fin 800000) (k : Fin 25),
      coeff (ix2 e k) = ∑ j : Fin 4, if wi (ix2 e j) = BitVec.ofNat 32 k.val then basis (ix2 e j) else 0)
    (e : Fin 800000) (o : Fin 16)
    (hprev : accPrev (ix2 e o) = Cert.Spec.msgAt xj basis wi W n e o) :
    accNext (ix2 e o) = Cert.Spec.msgAt xj basis wi W (n + 1) e o := by
  rw [hstep, Cert.RStep.refStep1_at, Cert.Spec.msgAt_succ xj basis wi W n hn e o, hprev, hcoeff e ⟨n, hn⟩]

theorem fold_step2 (n : ℕ) (hn : n < 25) (accNext accPrev : FVec Ideal S800000x7 .f32)
    (coeff : FVec Ideal S800000x25 .f32) (xj : FVec Ideal S800000x16 .f32) (W : FVec Ideal S25x16x7 .f32)
    (basis : FVec Ideal S800000x4 .f32) (wi : IVec S800000x4 32)
    (hstep : accNext = Cert.RStep.refStep2 (F := Ideal) ⟨n, hn⟩ accPrev coeff xj W)
    (hcoeff : ∀ (e : Fin 800000) (k : Fin 25),
      coeff (ix2 e k) = ∑ j : Fin 4, if wi (ix2 e j) = BitVec.ofNat 32 k.val then basis (ix2 e j) else 0)
    (e : Fin 800000) (o : Fin 7)
    (hprev : accPrev (ix2 e o) = Cert.Spec.msgAt xj basis wi W n e o) :
    accNext (ix2 e o) = Cert.Spec.msgAt xj basis wi W (n + 1) e o := by
  rw [hstep, Cert.RStep.refStep2_at, Cert.Spec.msgAt_succ xj basis wi W n hn e o, hprev, hcoeff e ⟨n, hn⟩]

abbrev basisR : S800000x4.Idx → EReal := u V0 1 (Proc.devRef .tc main_v43)

abbrev wiR : S800000x4.Idx → BitVec 32 := u V0 1 (Proc.devRef .tc main_v68)

set_option maxHeartbeats 2000000 in

theorem v86_eq : u V0 2 (no_index (Proc.devRef .tc main_v86))
    = Host.scatterAdd (F := Ideal) scatter_S800000x25_S800000x4x2_S800000x4_n_01_01_2
        (broadcastInDim S800000x25 ![] bcast_S_S800000x25 (constant (F := Ideal) S_ .f32 0x00000000#32))
        (idxArr (u V0 1 (Proc.devRef .tc main_v68))) (u V0 1 (Proc.devRef .tc main_v43)) := by
  change after seg1 (u V0 1) _ = _
  unfold idxArr
  simp only [seg1, seg1a, seg1b, List.cons_append, List.nil_append]
  after_results_simp
  refine congrArg₂ (fun (a b : IVec S800000x4x1 32) =>
    Host.scatterAdd (F := Ideal) scatter_S800000x25_S800000x4x2_S800000x4_n_01_01_2
      (broadcastInDim S800000x25 ![] bcast_S_S800000x25 (constant (F := Ideal) S_ .f32 0x00000000#32))
      (concatenate S800000x4x2 2 [⟨S800000x4x1, a⟩, ⟨S800000x4x1, b⟩] concatenates_S800000x4x1_S800000x4x1_S800000x4x2_d2)
      (u V0 1 (Proc.devRef .tc main_v43))) ?_ ?_
  · after_results_simp <;> rfl
  · after_results_simp <;> rfl

set_option maxHeartbeats 2000000 in

theorem v94_eq : u V0 2 (no_index (Proc.devRef .tc main_v94))
    = broadcastInDim S800000x16 ![] bcast_S_S800000x16 (constant (F := Ideal) S_ .f32 0x00000000#32) := by
  change after seg1 (u V0 1) _ = _
  simp only [seg1, seg1a, seg1b, List.cons_append, List.nil_append]
  after_results_simp <;> rfl

set_option maxHeartbeats 2000000 in

theorem v304_eq : u V0 29 (no_index (Proc.devRef .tc main_v304))
    = Host.scatterAdd (F := Ideal) scatter_S800000x25_S800000x4x2_S800000x4_n_01_01_2
        (broadcastInDim S800000x25 ![] bcast_S_S800000x25 (constant (F := Ideal) S_ .f32 0x00000000#32))
        (idxArr (u V0 28 (Proc.devRef .tc main_v68))) (u V0 28 (Proc.devRef .tc main_v43)) := by
  change after seg28 (u V0 28) _ = _
  unfold idxArr
  simp only [seg28]
  after_results_simp
  refine congrArg₂ (fun (a b : IVec S800000x4x1 32) =>
    Host.scatterAdd (F := Ideal) scatter_S800000x25_S800000x4x2_S800000x4_n_01_01_2
      (broadcastInDim S800000x25 ![] bcast_S_S800000x25 (constant (F := Ideal) S_ .f32 0x00000000#32))
      (concatenate S800000x4x2 2 [⟨S800000x4x1, a⟩, ⟨S800000x4x1, b⟩] concatenates_S800000x4x1_S800000x4x1_S800000x4x2_d2)
      (u V0 28 (Proc.devRef .tc main_v43))) ?_ ?_
  · after_results_simp <;> rfl
  · after_results_simp <;> rfl

set_option maxHeartbeats 2000000 in

theorem v312_eq : u V0 29 (no_index (Proc.devRef .tc main_v312))
    = broadcastInDim S800000x7 ![] bcast_S_S800000x7 (constant (F := Ideal) S_ .f32 0x00000000#32) := by
  change after seg28 (u V0 28) _ = _
  simp only [seg28]
  after_results_simp <;> rfl

theorem coeff1_at
    (hwi : ∀ i, 0 ≤ ((u V0 1 (Proc.devRef .tc main_v68) : S800000x4.Idx → BitVec 32) i).toInt
              ∧ ((u V0 1 (Proc.devRef .tc main_v68) : S800000x4.Idx → BitVec 32) i).toInt < 25)
    (e : Fin 800000) (k : Fin 25) :
    (u V0 2 (Proc.devRef .tc main_v86) : S800000x25.Idx → EReal) (ix2 e k)
      = ∑ j : Fin 4, if wiR V0 (ix2 e j) = BitVec.ofNat 32 k.val then basisR V0 (ix2 e j) else 0 := by
  rw [v86_eq]
  exact coeff_of_scatter _ _ hwi e k

theorem coeff2_at
    (hwi : ∀ i, 0 ≤ ((u V0 1 (Proc.devRef .tc main_v68) : S800000x4.Idx → BitVec 32) i).toInt
              ∧ ((u V0 1 (Proc.devRef .tc main_v68) : S800000x4.Idx → BitVec 32) i).toInt < 25)
    (e : Fin 800000) (k : Fin 25) :
    (u V0 29 (Proc.devRef .tc main_v304) : S800000x25.Idx → EReal) (ix2 e k)
      = ∑ j : Fin 4, if wiR V0 (ix2 e j) = BitVec.ofNat 32 k.val then basisR V0 (ix2 e j) else 0 := by
  rw [v304_eq, u_keep _ main_v68 1 28 (by decide), u_keep _ main_v43 1 28 (by decide)]
  exact coeff_of_scatter _ _ hwi e k

theorem base1_at (e : Fin 800000) (o : Fin 16) :
    (u V0 2 (Proc.devRef .tc main_v94) : S800000x16.Idx → EReal) (ix2 e o)
      = Cert.Spec.msgAt (u V0 2 (Proc.devRef .tc main_v93) : S800000x64.Idx → EReal)
          (u V0 1 (Proc.devRef .tc main_v43) : S800000x4.Idx → EReal)
          (u V0 1 (Proc.devRef .tc main_v68) : S800000x4.Idx → BitVec 32)
          (V0 (Proc.devRef .tc main_arg3) : S25x64x16.Idx → EReal) 0 e o := by
  rw [v94_eq, Cert.Spec.msgAt_zero]
  exact zeros_at bcast_S_S800000x16 (ix2 e o)

theorem base2_at (e : Fin 800000) (o : Fin 7) :
    (u V0 29 (Proc.devRef .tc main_v312) : S800000x7.Idx → EReal) (ix2 e o)
      = Cert.Spec.msgAt (u V0 29 (Proc.devRef .tc main_v311) : S800000x16.Idx → EReal)
          (u V0 1 (Proc.devRef .tc main_v43) : S800000x4.Idx → EReal)
          (u V0 1 (Proc.devRef .tc main_v68) : S800000x4.Idx → BitVec 32)
          (V0 (Proc.devRef .tc main_arg6) : S25x16x7.Idx → EReal) 0 e o := by
  rw [v312_eq, Cert.Spec.msgAt_zero]
  exact zeros_at bcast_S_S800000x7 (ix2 e o)

end Cert.RFold

end
-- ==== Proof.RChain.lean ====
/-
  The reference's accumulation steps chained: after step k of a layer its accumulator holds the recurrence after k + 1
  matrices, the coefficients, the gathered rows and the weights still being what they were when the layer began.
-/
import proofs.«409647_j39943195853539_2_alg».proof.Proof.RFoldBase

noncomputable section

namespace Cert.RFold

open Idealize.ShloMosaic Idealize.ShloMosaic.ValueIdx Idealize.ShloMosaic.TcCoe Idealize.SL.Sem Idealize.ShloMosaic.StableHlo
open Cert.ReferenceIdeal Cert.ROps
open scoped BigOperators

variable (V0 : Valuation τ sig (Elt Ideal))

open Cert.ReferenceIdeal.Gen

/-- Every flat index is a column number. -/
def WiOk : Prop := ∀ i, 0 ≤ ((u V0 1 (Proc.devRef .tc main_v68) : S800000x4.Idx → BitVec 32) i).toInt
    ∧ ((u V0 1 (Proc.devRef .tc main_v68) : S800000x4.Idx → BitVec 32) i).toInt < 25

/-- `a` holds the first layer's recurrence after `n` matrices. -/
def Acc1 (a : FVec Ideal S800000x16 .f32) (n : ℕ) : Prop :=
  ∀ (e : Fin 800000) (o : Fin 16), a (ix2 e o) = Cert.Spec.msgAt (u V0 2 (Proc.devRef .tc main_v93) : S800000x64.Idx → EReal)
    (u V0 1 (Proc.devRef .tc main_v43) : S800000x4.Idx → EReal)
    (u V0 1 (Proc.devRef .tc main_v68) : S800000x4.Idx → BitVec 32) (V0 (Proc.devRef .tc main_arg3) : S25x64x16.Idx → EReal) n e o

/-- `a` holds the second layer's recurrence after `n` matrices. -/
def Acc2 (a : FVec Ideal S800000x7 .f32) (n : ℕ) : Prop :=
  ∀ (e : Fin 800000) (o : Fin 7), a (ix2 e o) = Cert.Spec.msgAt (u V0 29 (Proc.devRef .tc main_v311) : S800000x16.Idx → EReal)
    (u V0 1 (Proc.devRef .tc main_v43) : S800000x4.Idx → EReal)
    (u V0 1 (Proc.devRef .tc main_v68) : S800000x4.Idx → BitVec 32) (V0 (Proc.devRef .tc main_arg6) : S25x16x7.Idx → EReal) n e o

theorem next1 (hwi : WiOk V0) (n : ℕ) (hn : n < 25) {a' a : FVec Ideal S800000x16 .f32} {c : FVec Ideal S800000x25 .f32}
    {x : FVec Ideal S800000x64 .f32} {w : FVec Ideal S25x64x16 .f32}
    (hs : a' = Cert.RStep.refStep1 (F := Ideal) ⟨n, hn⟩ a c x w) (hc : c = u V0 2 (Proc.devRef .tc main_v86))
    (hx : x = u V0 2 (Proc.devRef .tc main_v93)) (hw : w = V0 (Proc.devRef .tc main_arg3)) (ha : Acc1 V0 a n) : Acc1 V0 a' (n + 1) := by
  subst hc hx hw
  exact fun e o => fold_step1 n hn _ _ _ _ _ _ _ hs (coeff1_at V0 hwi) e o (ha e o)

theorem next2 (hwi : WiOk V0) (n : ℕ) (hn : n < 25) {a' a : FVec Ideal S800000x7 .f32} {c : FVec Ideal S800000x25 .f32}
    {x : FVec Ideal S800000x16 .f32} {w : FVec Ideal S25x16x7 .f32}
    (hs : a' = Cert.RStep.refStep2 (F := Ideal) ⟨n, hn⟩ a c x w) (hc : c = u V0 29 (Proc.devRef .tc main_v304))
    (hx : x = u V0 29 (Proc.devRef .tc main_v311)) (hw : w = V0 (Proc.devRef .tc main_arg6)) (ha : Acc2 V0 a n) : Acc2 V0 a' (n + 1) := by
  subst hc hx hw
  exact fun e o => fold_step2 n hn _ _ _ _ _ _ _ hs (coeff2_at V0 hwi) e o (ha e o)

theorem acc1_1 (hwi : WiOk V0) : Acc1 V0 (u V0 3 (Proc.devRef .tc main_v101)) 1 := by
  refine next1 V0 hwi 0 (by decide) (a := u V0 2 (Proc.devRef .tc main_v94)) ?_ rfl rfl (u_arg V0 main_arg3 2 (by decide)) (base1_at V0)
  change after seg2 (u V0 2) _ = _
  simp only [seg2]
  after_results_simp
  rfl
theorem acc1_2 (hwi : WiOk V0) : Acc1 V0 (u V0 4 (Proc.devRef .tc main_v108)) 2 := by
  refine next1 V0 hwi 1 (by decide) (a := u V0 3 (Proc.devRef .tc main_v101)) ?_ (u_keep V0 main_v86 2 3 (by decide)) (u_keep V0 main_v93 2 3 (by decide)) (u_arg V0 main_arg3 3 (by decide)) (acc1_1 V0 hwi)
  change after seg3 (u V0 3) _ = _
  simp only [seg3]
  after_results_simp
  rfl
theorem acc1_3 (hwi : WiOk V0) : Acc1 V0 (u V0 5 (Proc.devRef .tc main_v115)) 3 := by
  refine next1 V0 hwi 2 (by decide) (a := u V0 4 (Proc.devRef .tc main_v108)) ?_ (u_keep V0 main_v86 2 4 (by decide)) (u_keep V0 main_v93 2 4 (by decide)) (u_arg V0 main_arg3 4 (by decide)) (acc1_2 V0 hwi)
  change after seg4 (u V0 4) _ = _
  simp only [seg4]
  after_results_simp
  rfl
theorem acc1_4 (hwi : WiOk V0) : Acc1 V0 (u V0 6 (Proc.devRef .tc main_v122)) 4 := by
  refine next1 V0 hwi 3 (by decide) (a := u V0 5 (Proc.devRef .tc main_v115)) ?_ (u_keep V0 main_v86 2 5 (by decide)) (u_keep V0 main_v93 2 5 (by decide)) (u_arg V0 main_arg3 5 (by decide)) (acc1_3 V0 hwi)
  change after seg5 (u V0 5) _ = _
  simp only [seg5]
  after_results_simp
  rfl
theorem acc1_5 (hwi : WiOk V0) : Acc1 V0 (u V0 7 (Proc.devRef .tc main_v129)) 5 := by
  refine next1 V0 hwi 4 (by decide) (a := u V0 6 (Proc.devRef .tc main_v122)) ?_ (u_keep V0 main_v86 2 6 (by decide)) (u_keep V0 main_v93 2 6 (by decide)) (u_arg V0 main_arg3 6 (by decide)) (acc1_4 V0 hwi)
  change after seg6 (u V0 6) _ = _
  simp only [seg6]
  after_results_simp
  rfl
theorem acc1_6 (hwi : WiOk V0) : Acc1 V0 (u V0 8 (Proc.devRef .tc main_v136)) 6 := by
  refine next1 V0 hwi 5 (by decide) (a := u V0 7 (Proc.devRef .tc main_v129)) ?_ (u_keep V0 main_v86 2 7 (by decide)) (u_keep V0 main_v93 2 7 (by decide)) (u_arg V0 main_arg3 7 (by decide)) (acc1_5 V0 hwi)
  change after seg7 (u V0 7) _ = _
  simp only [seg7]
  after_results_simp
  rfl
theorem acc1_7 (hwi : WiOk V0) : Acc1 V0 (u V0 9 (Proc.devRef .tc main_v143)) 7 := by
  refine next1 V0 hwi 6 (by decide) (a := u V0 8 (Proc.devRef .tc main_v136)) ?_ (u_keep V0 main_v86 2 8 (by decide)) (u_keep V0 main_v93 2 8 (by decide)) (u_arg V0 main_arg3 8 (by decide)) (acc1_6 V0 hwi)
  change after seg8 (u V0 8) _ = _
  simp only [seg8]
  after_results_simp
  rfl
theorem acc1_8 (hwi : WiOk V0) : Acc1 V0 (u V0 10 (Proc.devRef .tc main_v150)) 8 := by
  refine next1 V0 hwi 7 (by decide) (a := u V0 9 (Proc.devRef .tc main_v143)) ?_ (u_keep V0 main_v86 2 9 (by decide)) (u_keep V0 main_v93 2 9 (by decide)) (u_arg V0 main_arg3 9 (by decide)) (acc1_7 V0 hwi)
  change after seg9 (u V0 9) _ = _
  simp only [seg9]
  after_results_simp
  rfl
theorem acc1_9 (hwi : WiOk V0) : Acc1 V0 (u V0 11 (Proc.devRef .tc main_v157)) 9 := by
  refine next1 V0 hwi 8 (by decide) (a := u V0 10 (Proc.devRef .tc main_v150)) ?_ (u_keep V0 main_v86 2 10 (by decide)) (u_keep V0 main_v93 2 10 (by decide)) (u_arg V0 main_arg3 10 (by decide)) (acc1_8 V0 hwi)
  change after seg10 (u V0 10) _ = _
  simp only [seg10, seg10a, seg10b, List.cons_append, List.nil_append]
  after_results_simp
  rfl
theorem acc1_10 (hwi : WiOk V0) : Acc1 V0 (u V0 12 (Proc.devRef .tc main_v164)) 10 := by
  refine next1 V0 hwi 9 (by decide) (a := u V0 11 (Proc.devRef .tc main_v157)) ?_ (u_keep V0 main_v86 2 11 (by decide)) (u_keep V0 main_v93 2 11 (by decide)) (u_arg V0 main_arg3 11 (by decide)) (acc1_9 V0 hwi)
  change after seg11 (u V0 11) _ = _
  simp only [seg11]
  after_results_simp
  rfl
theorem acc1_11 (hwi : WiOk V0) : Acc1 V0 (u V0 13 (Proc.devRef .tc main_v171)) 11 := by
  refine next1 V0 hwi 10 (by decide) (a := u V0 12 (Proc.devRef .tc main_v164)) ?_ (u_keep V0 main_v86 2 12 (by decide)) (u_keep V0 main_v93 2 12 (by decide)) (u_arg V0 main_arg3 12 (by decide)) (acc1_10 V0 hwi)
  change after seg12 (u V0 12) _ = _
  simp only [seg12]
  after_results_simp
  rfl
theorem acc1_12 (hwi : WiOk V0) : Acc1 V0 (u V0 14 (Proc.devRef .tc main_v178)) 12 := by
  refine next1 V0 hwi 11 (by decide) (a := u V0 13 (Proc.devRef .tc main_v171)) ?_ (u_keep V0 main_v86 2 13 (by decide)) (u_keep V0 main_v93 2 13 (by decide)) (u_arg V0 main_arg3 13 (by decide)) (acc1_11 V0 hwi)
  change after seg13 (u V0 13) _ = _
  simp only [seg13]
  after_results_simp
  rfl
theorem acc1_13 (hwi : WiOk V0) : Acc1 V0 (u V0 15 (Proc.devRef .tc main_v185)) 13 := by
  refine next1 V0 hwi 12 (by decide) (a := u V0 14 (Proc.devRef .tc main_v178)) ?_ (u_keep V0 main_v86 2 14 (by decide)) (u_keep V0 main_v93 2 14 (by decide)) (u_arg V0 main_arg3 14 (by decide)) (acc1_12 V0 hwi)
  change after seg14 (u V0 14) _ = _
  simp only [seg14]
  after_results_simp
  rfl
theorem acc1_14 (hwi : WiOk V0) : Acc1 V0 (u V0 16 (Proc.devRef .tc main_v192)) 14 := by
  refine next1 V0 hwi 13 (by decide) (a := u V0 15 (Proc.devRef .tc main_v185)) ?_ (u_keep V0 main_v86 2 15 (by decide)) (u_keep V0 main_v93 2 15 (by decide)) (u_arg V0 main_arg3 15 (by decide)) (acc1_13 V0 hwi)
  change after seg15 (u V0 15) _ = _
  simp only [seg15]
  after_results_simp
  rfl
theorem acc1_15 (hwi : WiOk V0) : Acc1 V0 (u V0 17 (Proc.devRef .tc main_v199)) 15 := by
  refine next1 V0 hwi 14 (by decide) (a := u V0 16 (Proc.devRef .tc main_v192)) ?_ (u_keep V0 main_v86 2 16 (by decide)) (u_keep V0 main_v93 2 16 (by decide)) (u_arg V0 main_arg3 16 (by decide)) (acc1_14 V0 hwi)
  change after seg16 (u V0 16) _ = _
  simp only [seg16]
  after_results_simp
  rfl
theorem acc1_16 (hwi : WiOk V0) : Acc1 V0 (u V0 18 (Proc.devRef .tc main_v206)) 16 := by
  refine next1 V0 hwi 15 (by decide) (a := u V0 17 (Proc.devRef .tc main_v199)) ?_ (u_keep V0 main_v86 2 17 (by decide)) (u_keep V0 main_v93 2 17 (by decide)) (u_arg V0 main_arg3 17 (by decide)) (acc1_15 V0 hwi)
  change after seg17 (u V0 17) _ = _
  simp only [seg17]
  after_results_simp
  rfl
theorem acc1_17 (hwi : WiOk V0) : Acc1 V0 (u V0 19 (Proc.devRef .tc main_v213)) 17 := by
  refine next1 V0 hwi 16 (by decide) (a := u V0 18 (Proc.devRef .tc main_v206)) ?_ (u_keep V0 main_v86 2 18 (by decide)) (u_keep V0 main_v93 2 18 (by decide)) (u_arg V0 main_arg3 18 (by decide)) (acc1_16 V0 hwi)
  change after seg18 (u V0 18) _ = _
  simp only [seg18, seg18a, seg18b, List.cons_append, List.nil_append]
  after_results_simp
  rfl
theorem acc1_18 (hwi : WiOk V0) : Acc1 V0 (u V0 20 (Proc.devRef .tc main_v220)) 18 := by
  refine next1 V0 hwi 17 (by decide) (a := u V0 19 (Proc.devRef .tc main_v213)) ?_ (u_keep V0 main_v86 2 19 (by decide)) (u_keep V0 main_v93 2 19 (by decide)) (u_arg V0 main_arg3 19 (by decide)) (acc1_17 V0 hwi)
  change after seg19 (u V0 19) _ = _
  simp only [seg19]
  after_results_simp
  rfl
theorem acc1_19 (hwi : WiOk V0) : Acc1 V0 (u V0 21 (Proc.devRef .tc main_v227)) 19 := by
  refine next1 V0 hwi 18 (by decide) (a := u V0 20 (Proc.devRef .tc main_v220)) ?_ (u_keep V0 main_v86 2 20 (by decide)) (u_keep V0 main_v93 2 20 (by decide)) (u_arg V0 main_arg3 20 (by decide)) (acc1_18 V0 hwi)
  change after seg20 (u V0 20) _ = _
  simp only [seg20]
  after_results_simp
  rfl
theorem acc1_20 (hwi : WiOk V0) : Acc1 V0 (u V0 22 (Proc.devRef .tc main_v234)) 20 := by
  refine next1 V0 hwi 19 (by decide) (a := u V0 21 (Proc.devRef .tc main_v227)) ?_ (u_keep V0 main_v86 2 21 (by decide)) (u_keep V0 main_v93 2 21 (by decide)) (u_arg V0 main_arg3 21 (by decide)) (acc1_19 V0 hwi)
  change after seg21 (u V0 21) _ = _
  simp only [seg21]
  after_results_simp
  rfl
theorem acc1_21 (hwi : WiOk V0) : Acc1 V0 (u V0 23 (Proc.devRef .tc main_v241)) 21 := by
  refine next1 V0 hwi 20 (by decide) (a := u V0 22 (Proc.devRef .tc main_v234)) ?_ (u_keep V0 main_v86 2 22 (by decide)) (u_keep V0 main_v93 2 22 (by decide)) (u_arg V0 main_arg3 22 (by decide)) (acc1_20 V0 hwi)
  change after seg22 (u V0 22) _ = _
  simp only [seg22]
  after_results_simp
  rfl
theorem acc1_22 (hwi : WiOk V0) : Acc1 V0 (u V0 24 (Proc.devRef .tc main_v248)) 22 := by
  refine next1 V0 hwi 21 (by decide) (a := u V0 23 (Proc.devRef .tc main_v241)) ?_ (u_keep V0 main_v86 2 23 (by decide)) (u_keep V0 main_v93 2 23 (by decide)) (u_arg V0 main_arg3 23 (by decide)) (acc1_21 V0 hwi)
  change after seg23 (u V0 23) _ = _
  simp only [seg23]
  after_results_simp
  rfl
theorem acc1_23 (hwi : WiOk V0) : Acc1 V0 (u V0 25 (Proc.devRef .tc main_v255)) 23 := by
  refine next1 V0 hwi 22 (by decide) (a := u V0 24 (Proc.devRef .tc main_v248)) ?_ (u_keep V0 main_v86 2 24 (by decide)) (u_keep V0 main_v93 2 24 (by decide)) (u_arg V0 main_arg3 24 (by decide)) (acc1_22 V0 hwi)
  change after seg24 (u V0 24) _ = _
  simp only [seg24]
  after_results_simp
  rfl
theorem acc1_24 (hwi : WiOk V0) : Acc1 V0 (u V0 26 (Proc.devRef .tc main_v262)) 24 := by
  refine next1 V0 hwi 23 (by decide) (a := u V0 25 (Proc.devRef .tc main_v255)) ?_ (u_keep V0 main_v86 2 25 (by decide)) (u_keep V0 main_v93 2 25 (by decide)) (u_arg V0 main_arg3 25 (by decide)) (acc1_23 V0 hwi)
  change after seg25 (u V0 25) _ = _
  simp only [seg25]
  after_results_simp
  rfl
theorem acc1_25 (hwi : WiOk V0) : Acc1 V0 (u V0 27 (Proc.devRef .tc main_v269)) 25 := by
  refine next1 V0 hwi 24 (by decide) (a := u V0 26 (Proc.devRef .tc main_v262)) ?_ (u_keep V0 main_v86 2 26 (by decide)) (u_keep V0 main_v93 2 26 (by decide)) (u_arg V0 main_arg3 26 (by decide)) (acc1_24 V0 hwi)
  change after seg26 (u V0 26) _ = _
  simp only [seg26]
  after_results_simp
  rfl

theorem acc2_1 (hwi : WiOk V0) : Acc2 V0 (u V0 30 (Proc.devRef .tc main_v319)) 1 := by
  refine next2 V0 hwi 0 (by decide) (a := u V0 29 (Proc.devRef .tc main_v312)) ?_ rfl rfl (u_arg V0 main_arg6 29 (by decide)) (base2_at V0)
  change after seg29 (u V0 29) _ = _
  simp only [seg29]
  after_results_simp
  rfl
theorem acc2_2 (hwi : WiOk V0) : Acc2 V0 (u V0 31 (Proc.devRef .tc main_v326)) 2 := by
  refine next2 V0 hwi 1 (by decide) (a := u V0 30 (Proc.devRef .tc main_v319)) ?_ (u_keep V0 main_v304 29 30 (by decide)) (u_keep V0 main_v311 29 30 (by decide)) (u_arg V0 main_arg6 30 (by decide)) (acc2_1 V0 hwi)
  change after seg30 (u V0 30) _ = _
  simp only [seg30, seg30a, seg30b, List.cons_append, List.nil_append]
  after_results_simp
  rfl
theorem acc2_3 (hwi : WiOk V0) : Acc2 V0 (u V0 32 (Proc.devRef .tc main_v333)) 3 := by
  refine next2 V0 hwi 2 (by decide) (a := u V0 31 (Proc.devRef .tc main_v326)) ?_ (u_keep V0 main_v304 29 31 (by decide)) (u_keep V0 main_v311 29 31 (by decide)) (u_arg V0 main_arg6 31 (by decide)) (acc2_2 V0 hwi)
  change after seg31 (u V0 31) _ = _
  simp only [seg31]
  after_results_simp
  rfl
theorem acc2_4 (hwi : WiOk V0) : Acc2 V0 (u V0 33 (Proc.devRef .tc main_v340)) 4 := by
  refine next2 V0 hwi 3 (by decide) (a := u V0 32 (Proc.devRef .tc main_v333)) ?_ (u_keep V0 main_v304 29 32 (by decide)) (u_keep V0 main_v311 29 32 (by decide)) (u_arg V0 main_arg6 32 (by decide)) (acc2_3 V0 hwi)
  change after seg32 (u V0 32) _ = _
  simp only [seg32]
  after_results_simp
  rfl
theorem acc2_5 (hwi : WiOk V0) : Acc2 V0 (u V0 34 (Proc.devRef .tc main_v347)) 5 := by
  refine next2 V0 hwi 4 (by decide) (a := u V0 33 (Proc.devRef .tc main_v340)) ?_ (u_keep V0 main_v304 29 33 (by decide)) (u_keep V0 main_v311 29 33 (by decide)) (u_arg V0 main_arg6 33 (by decide)) (acc2_4 V0 hwi)
  change after seg33 (u V0 33) _ = _
  simp only [seg33]
  after_results_simp
  rfl
theorem acc2_6 (hwi : WiOk V0) : Acc2 V0 (u V0 35 (Proc.devRef .tc main_v354)) 6 := by
  refine next2 V0 hwi 5 (by decide) (a := u V0 34 (Proc.devRef .tc main_v347)) ?_ (u_keep V0 main_v304 29 34 (by decide)) (u_keep V0 main_v311 29 34 (by decide)) (u_arg V0 main_arg6 34 (by decide)) (acc2_5 V0 hwi)
  change after seg34 (u V0 34) _ = _
  simp only [seg34]
  after_results_simp
  rfl
theorem acc2_7 (hwi : WiOk V0) : Acc2 V0 (u V0 36 (Proc.devRef .tc main_v361)) 7 := by
  refine next2 V0 hwi 6 (by decide) (a := u V0 35 (Proc.devRef .tc main_v354)) ?_ (u_keep V0 main_v304 29 35 (by decide)) (u_keep V0 main_v311 29 35 (by decide)) (u_arg V0 main_arg6 35 (by decide)) (acc2_6 V0 hwi)
  change after seg35 (u V0 35) _ = _
  simp only [seg35]
  after_results_simp
  rfl
theorem acc2_8 (hwi : WiOk V0) : Acc2 V0 (u V0 37 (Proc.devRef .tc main_v368)) 8 := by
  refine next2 V0 hwi 7 (by decide) (a := u V0 36 (Proc.devRef .tc main_v361)) ?_ (u_keep V0 main_v304 29 36 (by decide)) (u_keep V0 main_v311 29 36 (by decide)) (u_arg V0 main_arg6 36 (by decide)) (acc2_7 V0 hwi)
  change after seg36 (u V0 36) _ = _
  simp only [seg36]
  after_results_simp
  rfl
theorem acc2_9 (hwi : WiOk V0) : Acc2 V0 (u V0 38 (Proc.devRef .tc main_v375)) 9 := by
  refine next2 V0 hwi 8 (by decide) (a := u V0 37 (Proc.devRef .tc main_v368)) ?_ (u_keep V0 main_v304 29 37 (by decide)) (u_keep V0 main_v311 29 37 (by decide)) (u_arg V0 main_arg6 37 (by decide)) (acc2_8 V0 hwi)
  change after seg37 (u V0 37) _ = _
  simp only [seg37]
  after_results_simp
  rfl
theorem acc2_10 (hwi : WiOk V0) : Acc2 V0 (u V0 39 (Proc.devRef .tc main_v382)) 10 := by
  refine next2 V0 hwi 9 (by decide) (a := u V0 38 (Proc.devRef .tc main_v375)) ?_ (u_keep V0 main_v304 29 38 (by decide)) (u_keep V0 main_v311 29 38 (by decide)) (u_arg V0 main_arg6 38 (by decide)) (acc2_9 V0 hwi)
  change after seg38 (u V0 38) _ = _
  simp only [seg38, seg38a, seg38b, List.cons_append, List.nil_append]
  after_results_simp
  rfl
theorem acc2_11 (hwi : WiOk V0) : Acc2 V0 (u V0 40 (Proc.devRef .tc main_v389)) 11 := by
  refine next2 V0 hwi 10 (by decide) (a := u V0 39 (Proc.devRef .tc main_v382)) ?_ (u_keep V0 main_v304 29 39 (by decide)) (u_keep V0 main_v311 29 39 (by decide)) (u_arg V0 main_arg6 39 (by decide)) (acc2_10 V0 hwi)
  change after seg39 (u V0 39) _ = _
  simp only [seg39]
  after_results_simp
  rfl
theorem acc2_12 (hwi : WiOk V0) : Acc2 V0 (u V0 41 (Proc.devRef .tc main_v396)) 12 := by
  refine next2 V0 hwi 11 (by decide) (a := u V0 40 (Proc.devRef .tc main_v389)) ?_ (u_keep V0 main_v304 29 40 (by decide)) (u_keep V0 main_v311 29 40 (by decide)) (u_arg V0 main_arg6 40 (by decide)) (acc2_11 V0 hwi)
  change after seg40 (u V0 40) _ = _
  simp only [seg40]
  after_results_simp
  rfl
theorem acc2_13 (hwi : WiOk V0) : Acc2 V0 (u V0 42 (Proc.devRef .tc main_v403)) 13 := by
  refine next2 V0 hwi 12 (by decide) (a := u V0 41 (Proc.devRef .tc main_v396)) ?_ (u_keep V0 main_v304 29 41 (by decide)) (u_keep V0 main_v311 29 41 (by decide)) (u_arg V0 main_arg6 41 (by decide)) (acc2_12 V0 hwi)
  change after seg41 (u V0 41) _ = _
  simp only [seg41]
  after_results_simp
  rfl
theorem acc2_14 (hwi : WiOk V0) : Acc2 V0 (u V0 43 (Proc.devRef .tc main_v410)) 14 := by
  refine next2 V0 hwi 13 (by decide) (a := u V0 42 (Proc.devRef .tc main_v403)) ?_ (u_keep V0 main_v304 29 42 (by decide)) (u_keep V0 main_v311 29 42 (by decide)) (u_arg V0 main_arg6 42 (by decide)) (acc2_13 V0 hwi)
  change after seg42 (u V0 42) _ = _
  simp only [seg42]
  after_results_simp
  rfl
theorem acc2_15 (hwi : WiOk V0) : Acc2 V0 (u V0 44 (Proc.devRef .tc main_v417)) 15 := by
  refine next2 V0 hwi 14 (by decide) (a := u V0 43 (Proc.devRef .tc main_v410)) ?_ (u_keep V0 main_v304 29 43 (by decide)) (u_keep V0 main_v311 29 43 (by decide)) (u_arg V0 main_arg6 43 (by decide)) (acc2_14 V0 hwi)
  change after seg43 (u V0 43) _ = _
  simp only [seg43]
  after_results_simp
  rfl
theorem acc2_16 (hwi : WiOk V0) : Acc2 V0 (u V0 45 (Proc.devRef .tc main_v424)) 16 := by
  refine next2 V0 hwi 15 (by decide) (a := u V0 44 (Proc.devRef .tc main_v417)) ?_ (u_keep V0 main_v304 29 44 (by decide)) (u_keep V0 main_v311 29 44 (by decide)) (u_arg V0 main_arg6 44 (by decide)) (acc2_15 V0 hwi)
  change after seg44 (u V0 44) _ = _
  simp only [seg44]
  after_results_simp
  rfl
theorem acc2_17 (hwi : WiOk V0) : Acc2 V0 (u V0 46 (Proc.devRef .tc main_v431)) 17 := by
  refine next2 V0 hwi 16 (by decide) (a := u V0 45 (Proc.devRef .tc main_v424)) ?_ (u_keep V0 main_v304 29 45 (by decide)) (u_keep V0 main_v311 29 45 (by decide)) (u_arg V0 main_arg6 45 (by decide)) (acc2_16 V0 hwi)
  change after seg45 (u V0 45) _ = _
  simp only [seg45]
  after_results_simp
  rfl
theorem acc2_18 (hwi : WiOk V0) : Acc2 V0 (u V0 47 (Proc.devRef .tc main_v438)) 18 := by
  refine next2 V0 hwi 17 (by decide) (a := u V0 46 (Proc.devRef .tc main_v431)) ?_ (u_keep V0 main_v304 29 46 (by decide)) (u_keep V0 main_v311 29 46 (by decide)) (u_arg V0 main_arg6 46 (by decide)) (acc2_17 V0 hwi)
  change after seg46 (u V0 46) _ = _
  simp only [seg46]
  after_results_simp
  rfl
theorem acc2_19 (hwi : WiOk V0) : Acc2 V0 (u V0 48 (Proc.devRef .tc main_v445)) 19 := by
  refine next2 V0 hwi 18 (by decide) (a := u V0 47 (Proc.devRef .tc main_v438)) ?_ (u_keep V0 main_v304 29 47 (by decide)) (u_keep V0 main_v311 29 47 (by decide)) (u_arg V0 main_arg6 47 (by decide)) (acc2_18 V0 hwi)
  change after seg47 (u V0 47) _ = _
  simp only [seg47, seg47a, seg47b, List.cons_append, List.nil_append]
  after_results_simp
  rfl
theorem acc2_20 (hwi : WiOk V0) : Acc2 V0 (u V0 49 (Proc.devRef .tc main_v452)) 20 := by
  refine next2 V0 hwi 19 (by decide) (a := u V0 48 (Proc.devRef .tc main_v445)) ?_ (u_keep V0 main_v304 29 48 (by decide)) (u_keep V0 main_v311 29 48 (by decide)) (u_arg V0 main_arg6 48 (by decide)) (acc2_19 V0 hwi)
  change after seg48 (u V0 48) _ = _
  simp only [seg48]
  after_results_simp
  rfl
theorem acc2_21 (hwi : WiOk V0) : Acc2 V0 (u V0 50 (Proc.devRef .tc main_v459)) 21 := by
  refine next2 V0 hwi 20 (by decide) (a := u V0 49 (Proc.devRef .tc main_v452)) ?_ (u_keep V0 main_v304 29 49 (by decide)) (u_keep V0 main_v311 29 49 (by decide)) (u_arg V0 main_arg6 49 (by decide)) (acc2_20 V0 hwi)
  change after seg49 (u V0 49) _ = _
  simp only [seg49]
  after_results_simp
  rfl
theorem acc2_22 (hwi : WiOk V0) : Acc2 V0 (u V0 51 (Proc.devRef .tc main_v466)) 22 := by
  refine next2 V0 hwi 21 (by decide) (a := u V0 50 (Proc.devRef .tc main_v459)) ?_ (u_keep V0 main_v304 29 50 (by decide)) (u_keep V0 main_v311 29 50 (by decide)) (u_arg V0 main_arg6 50 (by decide)) (acc2_21 V0 hwi)
  change after seg50 (u V0 50) _ = _
  simp only [seg50]
  after_results_simp
  rfl
theorem acc2_23 (hwi : WiOk V0) : Acc2 V0 (u V0 52 (Proc.devRef .tc main_v473)) 23 := by
  refine next2 V0 hwi 22 (by decide) (a := u V0 51 (Proc.devRef .tc main_v466)) ?_ (u_keep V0 main_v304 29 51 (by decide)) (u_keep V0 main_v311 29 51 (by decide)) (u_arg V0 main_arg6 51 (by decide)) (acc2_22 V0 hwi)
  change after seg51 (u V0 51) _ = _
  simp only [seg51]
  after_results_simp
  rfl
theorem acc2_24 (hwi : WiOk V0) : Acc2 V0 (u V0 53 (Proc.devRef .tc main_v480)) 24 := by
  refine next2 V0 hwi 23 (by decide) (a := u V0 52 (Proc.devRef .tc main_v473)) ?_ (u_keep V0 main_v304 29 52 (by decide)) (u_keep V0 main_v311 29 52 (by decide)) (u_arg V0 main_arg6 52 (by decide)) (acc2_23 V0 hwi)
  change after seg52 (u V0 52) _ = _
  simp only [seg52]
  after_results_simp
  rfl
theorem acc2_25 (hwi : WiOk V0) : Acc2 V0 (u V0 54 (Proc.devRef .tc main_v487)) 25 := by
  refine next2 V0 hwi 24 (by decide) (a := u V0 53 (Proc.devRef .tc main_v480)) ?_ (u_keep V0 main_v304 29 53 (by decide)) (u_keep V0 main_v311 29 53 (by decide)) (u_arg V0 main_arg6 53 (by decide)) (acc2_24 V0 hwi)
  change after seg53 (u V0 53) _ = _
  simp only [seg53]
  after_results_simp
  rfl

end Cert.RFold

end
-- ==== Proof.AgreeIn.lean ====
/- Fed equal arguments, both programs hand their message stages equal basis values, flat indices, node indices and weights. -/
import proofs.«409647_j39943195853539_2_alg».proof.Proof.Gen.KernelIdeal.Frame
import proofs.«409647_j39943195853539_2_alg».proof.Proof.ROps
import Idealize.ShloMosaic.Lib.ValueIdx

noncomputable section

namespace Cert.AgreeIn

open Idealize.ShloMosaic Idealize.ShloMosaic.ValueIdx Idealize.ShloMosaic.TcCoe Idealize.SL.Sem Idealize.ShloMosaic.StableHlo
open scoped BigOperators

variable (m : (ℓ : Loc Cert.KernelIdeal.nD Cert.KernelIdeal.τ Cert.KernelIdeal.sig) → Buf (Elt Ideal) ℓ) (ρ : Dev Cert.KernelIdeal.nD → PrngReg)
variable (V0 : Valuation Cert.ReferenceIdeal.τ Cert.ReferenceIdeal.sig (Elt Ideal)) (c : Dev Cert.KernelIdeal.nD)

def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

theorem concat2_eq {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = concat2 t a s₁ s₂ x y h := rfl

namespace K
open Cert.KernelIdeal Cert.KernelIdeal.Gen

theorem v1 :
    (W5 (F := Ideal) m ρ c (Proc.devRef .tc main_v1) : S800000.Idx → BitVec 32)
      = shapeCast S800000 (extractStridedSlice S1x800000 ![0, 0]
          (m ((c.tc : Thread nD τ).loc main_arg1) : S2x800000.Idx → BitVec 32) Facts₀.slices_S2x800000_S1x800000_0_0)
          Facts₀.shapeCasts_S1x800000_S800000 := by
  dsimp only [W5, W4, W3, W2, W1]
  after_results_simp
  rfl

theorem v3 :
    (W5 (F := Ideal) m ρ c (Proc.devRef .tc main_v3) : S800000.Idx → BitVec 32)
      = shapeCast S800000 (extractStridedSlice S1x800000 ![1, 0]
          (m ((c.tc : Thread nD τ).loc main_arg1) : S2x800000.Idx → BitVec 32) Facts₀.slices_S2x800000_S1x800000_1_0)
          Facts₀.shapeCasts_S1x800000_S800000 := by
  dsimp only [W5, W4, W3, W2, W1]
  after_results_simp
  rfl

theorem v71 :
    (W5 (F := Ideal) m ρ c (Proc.devRef .tc main_v71) : S25x64x16.Idx → EReal)
      = (m ((c.tc : Thread nD τ).loc main_arg3) : S25x64x16.Idx → EReal) := by
  dsimp only [W5, W4, W3, W2, W1]
  after_results_simp
  rfl

theorem W6_arg6 :
    W6 (F := Ideal) m ρ c (Proc.devRef .tc main_arg6) = m ((c.tc : Thread nD τ).loc main_arg6) := by
  rw [W6_of_ne m ρ c main_arg6 (by decide)]
  dsimp only [W5, W4, W3, W2, W1]
  after_results_simp

theorem v92 :
    (W12 (F := Ideal) m ρ c (Proc.devRef .tc main_v92) : S25x16x7.Idx → EReal)
      = (m ((c.tc : Thread nD τ).loc main_arg6) : S25x16x7.Idx → EReal) := by
  dsimp only [W12, W11, W10, W9, W8, W7]
  after_results_simp
  rw [W6_arg6]
  rfl

end K

theorem basis_eq
    (h2 : V0 (Proc.devRef .tc Cert.ReferenceIdeal.main_arg2) = m ((c.tc : Thread Cert.KernelIdeal.nD Cert.KernelIdeal.τ).loc Cert.KernelIdeal.main_arg2)) :
    (Cert.ROps.u V0 1 (Proc.devRef .tc Cert.ReferenceIdeal.main_v43) : (⟨2, ![800000, 4]⟩ : Shape).Idx → EReal) = Cert.KernelIdeal.Gen.W5 (F := Ideal) m ρ c (Proc.devRef .tc Cert.KernelIdeal.main_v43) := by
  change after Cert.ROps.seg0 V0 _ = _
  simp only [Cert.ROps.seg0, Cert.ROps.seg0a, Cert.ROps.seg0b, List.cons_append, List.nil_append]
  dsimp only [Cert.KernelIdeal.Gen.W5, Cert.KernelIdeal.Gen.W4, Cert.KernelIdeal.Gen.W3, Cert.KernelIdeal.Gen.W2, Cert.KernelIdeal.Gen.W1]
  simp (disch := decide) only [after_cons, after_nil, nullary_result', unary_result', binary_result', ternary_result', quaternary_result', reshape_result', nullary_result_ne', unary_result_ne', binary_result_ne', ternary_result_ne', quaternary_result_ne', reshape_result_ne', concat2_eq]
  rw [h2]
  rfl

theorem dst_eq
    (h1 : V0 (Proc.devRef .tc Cert.ReferenceIdeal.main_arg1) = m ((c.tc : Thread Cert.KernelIdeal.nD Cert.KernelIdeal.τ).loc Cert.KernelIdeal.main_arg1)) :
    (Cert.ROps.u V0 1 (Proc.devRef .tc Cert.ReferenceIdeal.main_v3) : (⟨1, ![800000]⟩ : Shape).Idx → BitVec 32) = Cert.KernelIdeal.Gen.W5 (F := Ideal) m ρ c (Proc.devRef .tc Cert.KernelIdeal.main_v3) := by
  rw [K.v3 m ρ c, ← h1]
  change after Cert.ROps.seg0 V0 _ = _
  simp only [Cert.ROps.seg0, Cert.ROps.seg0a, Cert.ROps.seg0b, List.cons_append, List.nil_append]
  after_results_simp
  rfl

theorem w1_eq
    (h3 : V0 (Proc.devRef .tc Cert.ReferenceIdeal.main_arg3) = m ((c.tc : Thread Cert.KernelIdeal.nD Cert.KernelIdeal.τ).loc Cert.KernelIdeal.main_arg3)) :
    (V0 (Proc.devRef .tc Cert.ReferenceIdeal.main_arg3) : (⟨3, ![25, 64, 16]⟩ : Shape).Idx → EReal) = Cert.KernelIdeal.Gen.W5 (F := Ideal) m ρ c (Proc.devRef .tc Cert.KernelIdeal.main_v71) := by
  rw [K.v71 m ρ c]
  exact h3

theorem w2_eq
    (h6 : V0 (Proc.devRef .tc Cert.ReferenceIdeal.main_arg6) = m ((c.tc : Thread Cert.KernelIdeal.nD Cert.KernelIdeal.τ).loc Cert.KernelIdeal.main_arg6)) :
    (V0 (Proc.devRef .tc Cert.ReferenceIdeal.main_arg6) : (⟨3, ![25, 16, 7]⟩ : Shape).Idx → EReal) = Cert.KernelIdeal.Gen.W12 (F := Ideal) m ρ c (Proc.devRef .tc Cert.KernelIdeal.main_v92) := by
  rw [K.v92 m ρ c]
  exact h6

end Cert.AgreeIn

end
-- ==== Proof.AgreeXj.lean ====
/- On non-negative source indices both programs gather the same source rows. -/
import proofs.«409647_j39943195853539_2_alg».proof.Proof.Gen.KernelIdeal.Frame
import proofs.«409647_j39943195853539_2_alg».proof.Proof.ROps
import Idealize.ShloMosaic.Lib.ValueIdx
import Idealize.ShloMosaic.Lib.ValueLayout
import Idealize.ShloMosaic.Lib.StableHlo.Run
import Idealize.ShloMosaic.Lib.Pipeline.Value

noncomputable section

namespace Cert.AgreeXj

open Idealize.ShloMosaic Idealize.ShloMosaic.ValueIdx Idealize.ShloMosaic.TcCoe Idealize.SL.Sem Idealize.ShloMosaic.StableHlo
open scoped BigOperators

variable (m : (ℓ : Loc Cert.KernelIdeal.nD Cert.KernelIdeal.τ Cert.KernelIdeal.sig) → Buf (Elt Ideal) ℓ) (ρ : Dev Cert.KernelIdeal.nD → PrngReg)
variable (V0 : Valuation Cert.ReferenceIdeal.τ Cert.ReferenceIdeal.sig (Elt Ideal)) (c : Dev Cert.KernelIdeal.nD)

theorem slt_zero_of_nonneg (x : BitVec 32) (h : 0 ≤ x.toInt) : IntOp.cmpi .slt x 0#32 = 0#1 := by
  have hlt : x.slt 0#32 = false := by
    unfold BitVec.slt
    rw [BitVec.toInt_zero]
    exact decide_eq_false (by omega)
  show BitVec.ofBool (x.slt 0#32) = 0#1
  rw [hlt]
  rfl

theorem wrap_eq_self (n : BitVec 32) (src : IVec (⟨1, ![800000]⟩ : Shape) 32) (hs : ∀ i, 0 ≤ (src i).toInt)
    (hb : (⟨0, ![]⟩ : Shape).BroadcastsInDim (⟨1, ![800000]⟩ : Shape) (![] : Fin 0 → Fin 1)) :
    select (cmpi .slt src (broadcastInDim (⟨1, ![800000]⟩ : Shape) ![] hb (constantI (⟨0, ![]⟩ : Shape) 32 0#32)))
      (addi src (broadcastInDim (⟨1, ![800000]⟩ : Shape) ![] hb (constantI (⟨0, ![]⟩ : Shape) 32 n))) src = src := by
  funext i
  rw [select_apply]
  have hc : cmpi .slt src (broadcastInDim (⟨1, ![800000]⟩ : Shape) ![] hb (constantI (⟨0, ![]⟩ : Shape) 32 0#32)) i = 0#1 :=
    slt_zero_of_nonneg (src i) (hs i)
  rw [hc, select_zero]

theorem row0_apply (A : (⟨2, ![2, 800000]⟩ : Shape).Idx → BitVec 32)
    (hs : (⟨2, ![2, 800000]⟩ : Shape).Slices ![0, 0] (⟨2, ![1, 800000]⟩ : Shape))
    (hc : (⟨2, ![1, 800000]⟩ : Shape).ShapeCasts (⟨1, ![800000]⟩ : Shape)) (e : Fin 800000) :
    shapeCast (⟨1, ![800000]⟩ : Shape) (extractStridedSlice (⟨2, ![1, 800000]⟩ : Shape) ![0, 0] A hs) hc (ix1 e) = A (ix2 0 e) := by
  rw [shapeCast_1a_a_apply]
  exact slice2_axis0_apply 0 A hs (0 : Fin 1) e (0 : Fin 2) rfl

theorem row0_nonneg (A : (⟨2, ![2, 800000]⟩ : Shape).Idx → BitVec 32) (hA : ∀ e : Fin 800000, 0 ≤ (A (ix2 0 e)).toInt)
    (hs : (⟨2, ![2, 800000]⟩ : Shape).Slices ![0, 0] (⟨2, ![1, 800000]⟩ : Shape))
    (hc : (⟨2, ![1, 800000]⟩ : Shape).ShapeCasts (⟨1, ![800000]⟩ : Shape)) (i : (⟨1, ![800000]⟩ : Shape).Idx) :
    0 ≤ (shapeCast (⟨1, ![800000]⟩ : Shape) (extractStridedSlice (⟨2, ![1, 800000]⟩ : Shape) ![0, 0] A hs) hc i).toInt := by
  obtain ⟨e, rfl⟩ : ∃ e : Fin 800000, i = ix1 e := ⟨i 0, eq_ix1 i⟩
  rw [row0_apply]
  exact hA e

section Kernel
open Cert.KernelIdeal Cert.KernelIdeal.Gen

local macro "not_written " ops:ident : tactic => `(tactic|
  (refine List.forall_iff_forall_mem.mp ?_
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

theorem ker_v1 : (W5 (F := Ideal) m ρ c (Proc.devRef .tc main_v1) : S800000.Idx → BitVec 32)
    = shapeCast S800000 (extractStridedSlice S1x800000 ![0, 0] (m ((c.tc : Thread nD τ).loc main_arg1)) slices_S2x800000_S1x800000_0_0) shapeCasts_S1x800000_S800000 := by
  dsimp only [W5, W4, W3, W2, W1]
  simp only [hostOps0, hostOps0_1, hostOps0_2, hostOps0_3, hostOps0_4]
  after_results_simp <;> rfl

theorem ker_v70 : (W5 (F := Ideal) m ρ c (Proc.devRef .tc main_v70) : S800000x64.Idx → EReal)
    = Host.gather gather_S50000x64_S800000x1_S800000x64_1_0_n_n_0_1_164 (m ((c.tc : Thread nD τ).loc main_arg0))
        (broadcastInDim S800000x1 ![0] bcast_S800000_S800000x1_0
          (shapeCast S800000 (extractStridedSlice S1x800000 ![0, 0] (m ((c.tc : Thread nD τ).loc main_arg1)) slices_S2x800000_S1x800000_0_0) shapeCasts_S1x800000_S800000)) := by
  dsimp only [W5, W4, W3, W2, W1]
  simp only [hostOps0, hostOps0_1, hostOps0_2, hostOps0_3, hostOps0_4]
  after_results_simp <;> rfl

theorem ker_v91 : (W12 (F := Ideal) m ρ c (Proc.devRef .tc main_v91) : S800000x16.Idx → EReal)
    = Host.gather gather_S50000x16_S800000x1_S800000x16_1_0_n_n_0_1_116 (W10 (F := Ideal) m ρ c (Proc.devRef .tc main_v89))
        (broadcastInDim S800000x1 ![0] bcast_S800000_S800000x1_0 (W10 (F := Ideal) m ρ c (Proc.devRef .tc main_v1))) := by
  dsimp only [W12, W11]
  generalize W10 (F := Ideal) m ρ c = V10
  simp only [hostOps1_4, hostOps1_5]
  after_results_simp <;> rfl

theorem W12_v89 : W12 (F := Ideal) m ρ c (Proc.devRef .tc main_v89) = W10 (F := Ideal) m ρ c (Proc.devRef .tc main_v89) :=
  calc W12 (F := Ideal) m ρ c (Proc.devRef .tc main_v89)
    _ = W11 (F := Ideal) m ρ c (Proc.devRef .tc main_v89) := StableHlo.after_of_forall_not_mem _ _ (by not_written hostOps1_5)
    _ = W10 (F := Ideal) m ρ c (Proc.devRef .tc main_v89) := StableHlo.after_of_forall_not_mem _ _ (by not_written hostOps1_4)

theorem W10_v1 : W10 (F := Ideal) m ρ c (Proc.devRef .tc main_v1) = W5 (F := Ideal) m ρ c (Proc.devRef .tc main_v1) :=
  calc W10 (F := Ideal) m ρ c (Proc.devRef .tc main_v1)
    _ = W9 (F := Ideal) m ρ c (Proc.devRef .tc main_v1) := StableHlo.after_of_forall_not_mem _ _ (by not_written hostOps1_3)
    _ = W8 (F := Ideal) m ρ c (Proc.devRef .tc main_v1) := StableHlo.after_of_forall_not_mem _ _ (by not_written hostOps1_2)
    _ = W7 (F := Ideal) m ρ c (Proc.devRef .tc main_v1) := StableHlo.after_of_forall_not_mem _ _ (by not_written hostOps1_1)
    _ = W6 (F := Ideal) m ρ c (Proc.devRef .tc main_v1) := StableHlo.after_of_forall_not_mem _ _ (by not_written hostOps1)
    _ = W5 (F := Ideal) m ρ c (Proc.devRef .tc main_v1) := W6_of_ne m ρ c main_v1 (by decide)

end Kernel

section Reference
open Cert.ReferenceIdeal Cert.ReferenceIdeal.Gen Cert.ROps

set_option maxHeartbeats 2000000 in

theorem ref_v1 : (u V0 1 (Proc.devRef .tc main_v1) : S800000.Idx → BitVec 32)
    = shapeCast S800000 (extractStridedSlice S1x800000 ![0, 0] (V0 (Proc.devRef .tc main_arg1)) slices_S2x800000_S1x800000_0_0) shapeCasts_S1x800000_S800000 := by
  change after Cert.ROps.seg0 V0 _ = _
  simp only [Cert.ROps.seg0, Cert.ROps.seg0a, Cert.ROps.seg0b, List.cons_append, List.nil_append]
  after_results_simp <;> rfl

set_option maxHeartbeats 2000000 in

theorem ref_v93 : (u V0 2 (Proc.devRef .tc main_v93) : S800000x64.Idx → EReal)
    = Host.gather gather_S50000x64_S800000x1_S800000x64_1_0_n_n_0_1_164 (u V0 1 (Proc.devRef .tc main_arg0))
        (broadcastInDim S800000x1 ![0] bcast_S800000_S800000x1_0
          (select (cmpi .slt (u V0 1 (Proc.devRef .tc main_v1)) (broadcastInDim S800000 ![] bcast_S_S800000 (constantI S_ 32 0#32)))
            (addi (u V0 1 (Proc.devRef .tc main_v1)) (broadcastInDim S800000 ![] bcast_S_S800000 (constantI S_ 32 50000#32)))
            (u V0 1 (Proc.devRef .tc main_v1)))) := by
  change after Cert.ROps.seg1 (Cert.ROps.u V0 1) _ = _
  simp only [Cert.ROps.seg1, Cert.ROps.seg1a, Cert.ROps.seg1b, List.cons_append, List.nil_append]
  after_results_simp <;> rfl

set_option maxHeartbeats 2000000 in

theorem ref_v311 : (u V0 29 (Proc.devRef .tc main_v311) : S800000x16.Idx → EReal)
    = Host.gather gather_S50000x16_S800000x1_S800000x16_1_0_n_n_0_1_116 (u V0 28 (Proc.devRef .tc main_v286))
        (broadcastInDim S800000x1 ![0] bcast_S800000_S800000x1_0
          (select (cmpi .slt (u V0 28 (Proc.devRef .tc main_v1)) (broadcastInDim S800000 ![] bcast_S_S800000 (constantI S_ 32 0#32)))
            (addi (u V0 28 (Proc.devRef .tc main_v1)) (broadcastInDim S800000 ![] bcast_S_S800000 (constantI S_ 32 50000#32)))
            (u V0 28 (Proc.devRef .tc main_v1)))) := by
  change after Cert.ROps.seg28 (Cert.ROps.u V0 28) _ = _
  simp only [Cert.ROps.seg28]
  after_results_simp <;> rfl

end Reference

theorem xj1_eq
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (hsrc : ∀ e : Fin 800000, 0 ≤ ((m ((c.tc : Thread Cert.KernelIdeal.nD Cert.KernelIdeal.τ).loc Cert.KernelIdeal.main_arg1) : (⟨2, ![2, 800000]⟩ : Shape).Idx → BitVec 32) (ix2 0 e)).toInt) :
    (Cert.ROps.u V0 2 (Proc.devRef .tc Cert.ReferenceIdeal.main_v93) : (⟨2, ![800000, 64]⟩ : Shape).Idx → EReal) = Cert.KernelIdeal.Gen.W5 (F := Ideal) m ρ c (Proc.devRef .tc Cert.KernelIdeal.main_v70) := by
  have hA0 : Cert.ROps.u V0 1 (Proc.devRef .tc Cert.ReferenceIdeal.main_arg0)
      = m ((c.tc : Thread Cert.KernelIdeal.nD Cert.KernelIdeal.τ).loc Cert.KernelIdeal.main_arg0) :=
    (Cert.ROps.u_arg V0 Cert.ReferenceIdeal.main_arg0 1 (by decide)).trans h0
  rw [ref_v93 V0, ker_v70 m ρ c, hA0, ref_v1 V0, h1,
    wrap_eq_self 50000#32 _ (row0_nonneg _ hsrc _ _)]
  rfl

theorem xj2_eq
    (h1 : V0 (Proc.devRef .tc Cert.ReferenceIdeal.main_arg1) = m ((c.tc : Thread Cert.KernelIdeal.nD Cert.KernelIdeal.τ).loc Cert.KernelIdeal.main_arg1))
    (hsrc : ∀ e : Fin 800000, 0 ≤ ((m ((c.tc : Thread Cert.KernelIdeal.nD Cert.KernelIdeal.τ).loc Cert.KernelIdeal.main_arg1) : (⟨2, ![2, 800000]⟩ : Shape).Idx → BitVec 32) (ix2 0 e)).toInt)
    (hh : (Cert.ROps.u V0 28 (Proc.devRef .tc Cert.ReferenceIdeal.main_v286) : (⟨2, ![50000, 16]⟩ : Shape).Idx → EReal) = Cert.KernelIdeal.Gen.W12 (F := Ideal) m ρ c (Proc.devRef .tc Cert.KernelIdeal.main_v89)) :
    (Cert.ROps.u V0 29 (Proc.devRef .tc Cert.ReferenceIdeal.main_v311) : (⟨2, ![800000, 16]⟩ : Shape).Idx → EReal) = Cert.KernelIdeal.Gen.W12 (F := Ideal) m ρ c (Proc.devRef .tc Cert.KernelIdeal.main_v91) := by
  rw [ref_v311 V0, ker_v91 m ρ c, hh, W12_v89 m ρ c, Cert.ROps.u_keep V0 Cert.ReferenceIdeal.main_v1 1 28 (by decide), ref_v1 V0, h1, W10_v1 m ρ c, ker_v1 m ρ c,
    wrap_eq_self 50000#32 _ (row0_nonneg _ hsrc _ _)]
  rfl

end Cert.AgreeXj

end
-- ==== Proof.AgreeWi.lean ====
/- Both programs compute the flat indices by the same chain of operations on the edge attributes. -/
import proofs.«409647_j39943195853539_2_alg».proof.Proof.Gen.KernelIdeal.Frame
import proofs.«409647_j39943195853539_2_alg».proof.Proof.ROps
import Idealize.ShloMosaic.Lib.ValueIdx
import Idealize.ShloMosaic.Lib.StableHlo.Run

noncomputable section

namespace Cert.AgreeWi

open Idealize.ShloMosaic Idealize.ShloMosaic.ValueIdx Idealize.ShloMosaic.TcCoe Idealize.SL.Sem Idealize.ShloMosaic.StableHlo
open scoped BigOperators

variable (m : (ℓ : Loc Cert.KernelIdeal.nD Cert.KernelIdeal.τ Cert.KernelIdeal.sig) → Buf (Elt Ideal) ℓ) (ρ : Dev Cert.KernelIdeal.nD → PrngReg)
variable (V0 : Valuation Cert.ReferenceIdeal.τ Cert.ReferenceIdeal.sig (Elt Ideal)) (c : Dev Cert.KernelIdeal.nD)

def concat2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

theorem concat2_eq {α : Type} (t : Shape) (a : Fin t.rank) (s₁ s₂ : Shape) (x : s₁.Idx → α) (y : s₂.Idx → α)
    (h : Shape.Concatenates [s₁, s₂] t a) : concatenate t a [⟨s₁, x⟩, ⟨s₂, y⟩] h = concat2 t a s₁ s₂ x y h := rfl

set_option maxHeartbeats 4000000 in

theorem wi_eq
    (h2 : V0 (Proc.devRef .tc Cert.ReferenceIdeal.main_arg2) = m ((c.tc : Thread Cert.KernelIdeal.nD Cert.KernelIdeal.τ).loc Cert.KernelIdeal.main_arg2)) :
    (Cert.ROps.u V0 1 (Proc.devRef .tc Cert.ReferenceIdeal.main_v68) : (⟨2, ![800000, 4]⟩ : Shape).Idx → BitVec 32) = Cert.KernelIdeal.Gen.W5 (F := Ideal) m ρ c (Proc.devRef .tc Cert.KernelIdeal.main_v68) := by

  change after Cert.ROps.seg0 V0 _ = _
  dsimp only [Cert.KernelIdeal.Gen.W5, Cert.KernelIdeal.Gen.W4, Cert.KernelIdeal.Gen.W3, Cert.KernelIdeal.Gen.W2, Cert.KernelIdeal.Gen.W1]
  simp only [Cert.ROps.seg0, Cert.ROps.seg0a, Cert.ROps.seg0b, List.cons_append, List.nil_append, Cert.KernelIdeal.Gen.hostOps0, Cert.KernelIdeal.Gen.hostOps0_1, Cert.KernelIdeal.Gen.hostOps0_2,
    Cert.KernelIdeal.Gen.hostOps0_3, Cert.KernelIdeal.Gen.hostOps0_4]
  simp (disch := decide) only [after_cons, after_nil, nullary_result', unary_result', binary_result', ternary_result',
    quaternary_result', reshape_result', nullary_result_ne', unary_result_ne', binary_result_ne', ternary_result_ne',
    quaternary_result_ne', reshape_result_ne', concat2_eq]
  rw [h2]
  rfl

end Cert.AgreeWi

end
-- ==== Proof.AgreeOut.lean ====
/- From equal message arrays both programs aggregate by destination, add the root term and the bias, and finish each layer, by the same operations. -/
import proofs.«409647_j39943195853539_2_alg».proof.Proof.Gen.KernelIdeal.Frame
import proofs.«409647_j39943195853539_2_alg».proof.Proof.ROps
import Idealize.ShloMosaic.Lib.ValueIdx

noncomputable section

namespace Cert.AgreeOut

open Idealize.ShloMosaic Idealize.ShloMosaic.ValueIdx Idealize.ShloMosaic.TcCoe Idealize.SL.Sem Idealize.ShloMosaic.StableHlo
open scoped BigOperators

variable (m : (ℓ : Loc Cert.KernelIdeal.nD Cert.KernelIdeal.τ Cert.KernelIdeal.sig) → Buf (Elt Ideal) ℓ) (ρ : Dev Cert.KernelIdeal.nD → PrngReg)
variable (V0 : Valuation Cert.ReferenceIdeal.τ Cert.ReferenceIdeal.sig (Elt Ideal)) (c : Dev Cert.KernelIdeal.nD)

section KernelKeeps

open Cert.KernelIdeal Cert.KernelIdeal.Gen

local macro "not_written " ops:ident : tactic => `(tactic|
  (refine List.forall_iff_forall_mem.mp ?_
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

theorem W6_of_launch (b : Ref sig .tc) (hne : ∀ w, Pipeline.arrRef spec0 w ≠ b)
    (g0 : ∀ op ∈ (hostOps0 : List (HloOp τ sig (Elt Ideal))), (Proc.devRef .tc b : DevRef τ sig) ∉ op.writes)
    (g1 : ∀ op ∈ (hostOps0_1 : List (HloOp τ sig (Elt Ideal))), (Proc.devRef .tc b : DevRef τ sig) ∉ op.writes)
    (g2 : ∀ op ∈ (hostOps0_2 : List (HloOp τ sig (Elt Ideal))), (Proc.devRef .tc b : DevRef τ sig) ∉ op.writes)
    (g3 : ∀ op ∈ (hostOps0_3 : List (HloOp τ sig (Elt Ideal))), (Proc.devRef .tc b : DevRef τ sig) ∉ op.writes)
    (g4 : ∀ op ∈ (hostOps0_4 : List (HloOp τ sig (Elt Ideal))), (Proc.devRef .tc b : DevRef τ sig) ∉ op.writes) :
    W6 (F := Ideal) m ρ c (Proc.devRef .tc b) = m ((c : Thread nD τ).loc b) :=
  calc W6 (F := Ideal) m ρ c (Proc.devRef .tc b)
    _ = W5 (F := Ideal) m ρ c (Proc.devRef .tc b) := W6_of_ne m ρ c b hne
    _ = W4 (F := Ideal) m ρ c (Proc.devRef .tc b) := StableHlo.after_of_forall_not_mem _ _ g4
    _ = W3 (F := Ideal) m ρ c (Proc.devRef .tc b) := StableHlo.after_of_forall_not_mem _ _ g3
    _ = W2 (F := Ideal) m ρ c (Proc.devRef .tc b) := StableHlo.after_of_forall_not_mem _ _ g2
    _ = W1 (F := Ideal) m ρ c (Proc.devRef .tc b) := StableHlo.after_of_forall_not_mem _ _ g1
    _ = W0 (F := Ideal) m ρ c (Proc.devRef .tc b) := StableHlo.after_of_forall_not_mem _ _ g0
    _ = m ((c : Thread nD τ).loc b) := rfl

theorem W12_of_W6 (b : Ref sig .tc)
    (g0 : ∀ op ∈ (hostOps1 : List (HloOp τ sig (Elt Ideal))), (Proc.devRef .tc b : DevRef τ sig) ∉ op.writes)
    (g1 : ∀ op ∈ (hostOps1_1 : List (HloOp τ sig (Elt Ideal))), (Proc.devRef .tc b : DevRef τ sig) ∉ op.writes)
    (g2 : ∀ op ∈ (hostOps1_2 : List (HloOp τ sig (Elt Ideal))), (Proc.devRef .tc b : DevRef τ sig) ∉ op.writes)
    (g3 : ∀ op ∈ (hostOps1_3 : List (HloOp τ sig (Elt Ideal))), (Proc.devRef .tc b : DevRef τ sig) ∉ op.writes)
    (g4 : ∀ op ∈ (hostOps1_4 : List (HloOp τ sig (Elt Ideal))), (Proc.devRef .tc b : DevRef τ sig) ∉ op.writes)
    (g5 : ∀ op ∈ (hostOps1_5 : List (HloOp τ sig (Elt Ideal))), (Proc.devRef .tc b : DevRef τ sig) ∉ op.writes) :
    W12 (F := Ideal) m ρ c (Proc.devRef .tc b) = W6 (F := Ideal) m ρ c (Proc.devRef .tc b) :=
  calc W12 (F := Ideal) m ρ c (Proc.devRef .tc b)
    _ = W11 (F := Ideal) m ρ c (Proc.devRef .tc b) := StableHlo.after_of_forall_not_mem _ _ g5
    _ = W10 (F := Ideal) m ρ c (Proc.devRef .tc b) := StableHlo.after_of_forall_not_mem _ _ g4
    _ = W9 (F := Ideal) m ρ c (Proc.devRef .tc b) := StableHlo.after_of_forall_not_mem _ _ g3
    _ = W8 (F := Ideal) m ρ c (Proc.devRef .tc b) := StableHlo.after_of_forall_not_mem _ _ g2
    _ = W7 (F := Ideal) m ρ c (Proc.devRef .tc b) := StableHlo.after_of_forall_not_mem _ _ g1
    _ = W6 (F := Ideal) m ρ c (Proc.devRef .tc b) := StableHlo.after_of_forall_not_mem _ _ g0

theorem W6_arg0 : W6 (F := Ideal) m ρ c (Proc.devRef .tc main_arg0) = m ((c : Thread nD τ).loc main_arg0) :=
  W6_of_launch m ρ c main_arg0 (by decide) (by not_written hostOps0) (by not_written hostOps0_1)
    (by not_written hostOps0_2) (by not_written hostOps0_3) (by not_written hostOps0_4)
theorem W6_arg4 : W6 (F := Ideal) m ρ c (Proc.devRef .tc main_arg4) = m ((c : Thread nD τ).loc main_arg4) :=
  W6_of_launch m ρ c main_arg4 (by decide) (by not_written hostOps0) (by not_written hostOps0_1)
    (by not_written hostOps0_2) (by not_written hostOps0_3) (by not_written hostOps0_4)
theorem W6_arg5 : W6 (F := Ideal) m ρ c (Proc.devRef .tc main_arg5) = m ((c : Thread nD τ).loc main_arg5) :=
  W6_of_launch m ρ c main_arg5 (by decide) (by not_written hostOps0) (by not_written hostOps0_1)
    (by not_written hostOps0_2) (by not_written hostOps0_3) (by not_written hostOps0_4)

theorem W6_v3 : W6 (F := Ideal) m ρ c (Proc.devRef .tc main_v3) = W5 (F := Ideal) m ρ c (Proc.devRef .tc main_v3) :=
  W6_of_ne m ρ c main_v3 (by decide)

theorem W13_arg7 : W13 (F := Ideal) m ρ c (Proc.devRef .tc main_arg7) = m ((c : Thread nD τ).loc main_arg7) :=
  (W13_of_ne m ρ c main_arg7 (by decide)).trans <|
    (W12_of_W6 m ρ c main_arg7 (by not_written hostOps1) (by not_written hostOps1_1) (by not_written hostOps1_2)
      (by not_written hostOps1_3) (by not_written hostOps1_4) (by not_written hostOps1_5)).trans <|
    W6_of_launch m ρ c main_arg7 (by decide) (by not_written hostOps0) (by not_written hostOps0_1)
      (by not_written hostOps0_2) (by not_written hostOps0_3) (by not_written hostOps0_4)
theorem W13_arg8 : W13 (F := Ideal) m ρ c (Proc.devRef .tc main_arg8) = m ((c : Thread nD τ).loc main_arg8) :=
  (W13_of_ne m ρ c main_arg8 (by decide)).trans <|
    (W12_of_W6 m ρ c main_arg8 (by not_written hostOps1) (by not_written hostOps1_1) (by not_written hostOps1_2)
      (by not_written hostOps1_3) (by not_written hostOps1_4) (by not_written hostOps1_5)).trans <|
    W6_of_launch m ρ c main_arg8 (by decide) (by not_written hostOps0) (by not_written hostOps0_1)
      (by not_written hostOps0_2) (by not_written hostOps0_3) (by not_written hostOps0_4)

theorem W13_v3 : W13 (F := Ideal) m ρ c (Proc.devRef .tc main_v3) = W5 (F := Ideal) m ρ c (Proc.devRef .tc main_v3) :=
  (W13_of_ne m ρ c main_v3 (by decide)).trans <|
    (W12_of_W6 m ρ c main_v3 (by not_written hostOps1) (by not_written hostOps1_1) (by not_written hostOps1_2)
      (by not_written hostOps1_3) (by not_written hostOps1_4) (by not_written hostOps1_5)).trans (W6_v3 m ρ c)

theorem W13_v89 : W13 (F := Ideal) m ρ c (Proc.devRef .tc main_v89) = W12 (F := Ideal) m ρ c (Proc.devRef .tc main_v89) :=
  W13_of_ne m ρ c main_v89 (by decide)

end KernelKeeps

set_option maxHeartbeats 2000000 in

theorem hidden_eq
    (h0 : V0 (Proc.devRef .tc Cert.ReferenceIdeal.main_arg0) = m ((c.tc : Thread Cert.KernelIdeal.nD Cert.KernelIdeal.τ).loc Cert.KernelIdeal.main_arg0))
    (h4 : V0 (Proc.devRef .tc Cert.ReferenceIdeal.main_arg4) = m ((c.tc : Thread Cert.KernelIdeal.nD Cert.KernelIdeal.τ).loc Cert.KernelIdeal.main_arg4))
    (h5 : V0 (Proc.devRef .tc Cert.ReferenceIdeal.main_arg5) = m ((c.tc : Thread Cert.KernelIdeal.nD Cert.KernelIdeal.τ).loc Cert.KernelIdeal.main_arg5))
    (hdst : (Cert.ROps.u V0 1 (Proc.devRef .tc Cert.ReferenceIdeal.main_v3) : (⟨1, ![800000]⟩ : Shape).Idx → BitVec 32) = Cert.KernelIdeal.Gen.W5 (F := Ideal) m ρ c (Proc.devRef .tc Cert.KernelIdeal.main_v3))
    (hmsg : (Cert.ROps.u V0 27 (Proc.devRef .tc Cert.ReferenceIdeal.main_v269) : (⟨2, ![800000, 16]⟩ : Shape).Idx → EReal) = Cert.KernelIdeal.Gen.W6 (F := Ideal) m ρ c (Proc.devRef .tc Cert.KernelIdeal.main_v72)) :
    (Cert.ROps.u V0 28 (Proc.devRef .tc Cert.ReferenceIdeal.main_v286) : (⟨2, ![50000, 16]⟩ : Shape).Idx → EReal) = Cert.KernelIdeal.Gen.W12 (F := Ideal) m ρ c (Proc.devRef .tc Cert.KernelIdeal.main_v89) := by

  change after Cert.ROps.seg27 (Cert.ROps.u V0 27) _ = _
  simp only [Cert.ROps.seg27, Cert.ROps.seg27a, Cert.ROps.seg27b, List.cons_append, List.nil_append]
  dsimp only [Cert.KernelIdeal.Gen.W12, Cert.KernelIdeal.Gen.W11, Cert.KernelIdeal.Gen.W10, Cert.KernelIdeal.Gen.W9,
    Cert.KernelIdeal.Gen.W8, Cert.KernelIdeal.Gen.W7]
  simp only [Cert.KernelIdeal.Gen.hostOps1, Cert.KernelIdeal.Gen.hostOps1_1, Cert.KernelIdeal.Gen.hostOps1_2,
    Cert.KernelIdeal.Gen.hostOps1_3, Cert.KernelIdeal.Gen.hostOps1_4, Cert.KernelIdeal.Gen.hostOps1_5]
  after_results_simp

  rw [Cert.ROps.u_keep _ Cert.ReferenceIdeal.main_v3 1 27 (by decide), Cert.ROps.u_arg _ Cert.ReferenceIdeal.main_arg0 27 (by decide), Cert.ROps.u_arg _ Cert.ReferenceIdeal.main_arg4 27 (by decide), Cert.ROps.u_arg _ Cert.ReferenceIdeal.main_arg5 27 (by decide)]
  rw [hdst, hmsg, h0, h4, h5, W6_v3 m ρ c, W6_arg0 m ρ c, W6_arg4 m ρ c, W6_arg5 m ρ c]
  rfl

set_option maxHeartbeats 2000000 in

theorem result_eq
    (h7 : V0 (Proc.devRef .tc Cert.ReferenceIdeal.main_arg7) = m ((c.tc : Thread Cert.KernelIdeal.nD Cert.KernelIdeal.τ).loc Cert.KernelIdeal.main_arg7))
    (h8 : V0 (Proc.devRef .tc Cert.ReferenceIdeal.main_arg8) = m ((c.tc : Thread Cert.KernelIdeal.nD Cert.KernelIdeal.τ).loc Cert.KernelIdeal.main_arg8))
    (hdst : (Cert.ROps.u V0 1 (Proc.devRef .tc Cert.ReferenceIdeal.main_v3) : (⟨1, ![800000]⟩ : Shape).Idx → BitVec 32) = Cert.KernelIdeal.Gen.W5 (F := Ideal) m ρ c (Proc.devRef .tc Cert.KernelIdeal.main_v3))
    (hh : (Cert.ROps.u V0 28 (Proc.devRef .tc Cert.ReferenceIdeal.main_v286) : (⟨2, ![50000, 16]⟩ : Shape).Idx → EReal) = Cert.KernelIdeal.Gen.W12 (F := Ideal) m ρ c (Proc.devRef .tc Cert.KernelIdeal.main_v89))
    (hmsg : (Cert.ROps.u V0 54 (Proc.devRef .tc Cert.ReferenceIdeal.main_v487) : (⟨2, ![800000, 7]⟩ : Shape).Idx → EReal) = Cert.KernelIdeal.Gen.W13 (F := Ideal) m ρ c (Proc.devRef .tc Cert.KernelIdeal.main_v93)) :
    (Cert.ROps.u V0 55 (Proc.devRef .tc Cert.ReferenceIdeal.main_v504) : (⟨2, ![50000, 7]⟩ : Shape).Idx → EReal) = Cert.KernelIdeal.Gen.W17 (F := Ideal) m ρ c (Proc.devRef .tc Cert.KernelIdeal.main_v110) := by

  change after Cert.ROps.seg54 (Cert.ROps.u V0 54) _ = _
  simp only [Cert.ROps.seg54, Cert.ROps.seg54a, Cert.ROps.seg54b, List.cons_append, List.nil_append]
  dsimp only [Cert.KernelIdeal.Gen.W17, Cert.KernelIdeal.Gen.W16, Cert.KernelIdeal.Gen.W15, Cert.KernelIdeal.Gen.W14]
  simp only [Cert.KernelIdeal.Gen.hostOps2, Cert.KernelIdeal.Gen.hostOps2_1, Cert.KernelIdeal.Gen.hostOps2_2,
    Cert.KernelIdeal.Gen.hostOps2_3]
  after_results_simp

  rw [Cert.ROps.u_keep _ Cert.ReferenceIdeal.main_v3 1 54 (by decide), Cert.ROps.u_keep _ Cert.ReferenceIdeal.main_v286 28 54 (by decide), Cert.ROps.u_arg _ Cert.ReferenceIdeal.main_arg7 54 (by decide), Cert.ROps.u_arg _ Cert.ReferenceIdeal.main_arg8 54 (by decide)]
  rw [hdst, hh, hmsg, h7, h8, W13_v3 m ρ c, W13_v89 m ρ c, W13_arg7 m ρ c, W13_arg8 m ρ c]
  rfl

end Cert.AgreeOut

end
-- ==== Proof.lean ====
/-
  Two layers of spline convolution on a graph: the kernel program and the reference give equal results over the
  extended reals. Each edge's message is one 25-step recurrence (Spec) on both sides; every other stage is the same
  host operation in both programs, applied to equal arrays.
-/
import proofs.«409647_j39943195853539_2_alg».proof.Defs
import proofs.«409647_j39943195853539_2_alg».proof.Proof.Gen.Kernel
import proofs.«409647_j39943195853539_2_alg».proof.Proof.Gen.Kernel.Frame
import proofs.«409647_j39943195853539_2_alg».proof.Proof.Gen.KernelIdeal
import proofs.«409647_j39943195853539_2_alg».proof.Proof.Gen.KernelIdeal.Frame
import proofs.«409647_j39943195853539_2_alg».proof.Proof.Gen.ReferenceIdeal
import proofs.«409647_j39943195853539_2_alg».proof.Proof.Gen.Pre_finite_inputs
import proofs.«409647_j39943195853539_2_alg».proof.Proof.KRun
import proofs.«409647_j39943195853539_2_alg».proof.Proof.KArr
import proofs.«409647_j39943195853539_2_alg».proof.Proof.KFacts
import proofs.«409647_j39943195853539_2_alg».proof.Proof.ROps
import proofs.«409647_j39943195853539_2_alg».proof.Proof.RChain
import proofs.«409647_j39943195853539_2_alg».proof.Proof.AgreeIn
import proofs.«409647_j39943195853539_2_alg».proof.Proof.AgreeXj
import proofs.«409647_j39943195853539_2_alg».proof.Proof.AgreeWi
import proofs.«409647_j39943195853539_2_alg».proof.Proof.AgreeOut

noncomputable section

namespace Cert.Proof

open Idealize.ShloMosaic Idealize.ShloMosaic.ValueIdx Idealize.ShloMosaic.TcCoe Idealize.SL.Sem Idealize.ShloMosaic.StableHlo

theorem frame_ri : Cert.frame_ReferenceIdeal := fun m g _ =>
  (θ_run Cert.ReferenceIdeal.defs _ _).mono (fun _ h c => by
    refine ⟨?_, ?_, ?_, ?_, ?_, ?_, ?_, ?_, ?_⟩ <;> exact (h c _).trans (Cert.ROps.u_arg _ _ 55 (by decide)))
    (Cert.ROps.run (F := Ideal) m g)

theorem result_eq
    (m : (ℓ : Loc Cert.KernelIdeal.nD Cert.KernelIdeal.τ Cert.KernelIdeal.sig) → Buf (Elt Ideal) ℓ) (g : Dev Cert.KernelIdeal.nD → PrngReg)
    (V0 : Valuation Cert.ReferenceIdeal.τ Cert.ReferenceIdeal.sig (Elt Ideal)) (c : Dev Cert.KernelIdeal.nD)
    (hpre : Cert.Pre_KernelIdeal m)
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h2 : V0 (Proc.devRef .tc Cert.ReferenceIdeal.main_arg2) = m ((c.tc : Thread Cert.KernelIdeal.nD Cert.KernelIdeal.τ).loc Cert.KernelIdeal.main_arg2))
    (h3 : V0 (Proc.devRef .tc Cert.ReferenceIdeal.main_arg3) = m ((c.tc : Thread Cert.KernelIdeal.nD Cert.KernelIdeal.τ).loc Cert.KernelIdeal.main_arg3))
    (h4 : V0 (Proc.devRef .tc Cert.ReferenceIdeal.main_arg4) = m ((c.tc : Thread Cert.KernelIdeal.nD Cert.KernelIdeal.τ).loc Cert.KernelIdeal.main_arg4))
    (h5 : V0 (Proc.devRef .tc Cert.ReferenceIdeal.main_arg5) = m ((c.tc : Thread Cert.KernelIdeal.nD Cert.KernelIdeal.τ).loc Cert.KernelIdeal.main_arg5))
    (h6 : V0 (Proc.devRef .tc Cert.ReferenceIdeal.main_arg6) = m ((c.tc : Thread Cert.KernelIdeal.nD Cert.KernelIdeal.τ).loc Cert.KernelIdeal.main_arg6))
    (h7 : V0 (Proc.devRef .tc Cert.ReferenceIdeal.main_arg7) = m ((c.tc : Thread Cert.KernelIdeal.nD Cert.KernelIdeal.τ).loc Cert.KernelIdeal.main_arg7))
    (h8 : V0 (Proc.devRef .tc Cert.ReferenceIdeal.main_arg8) = m ((c.tc : Thread Cert.KernelIdeal.nD Cert.KernelIdeal.τ).loc Cert.KernelIdeal.main_arg8)) :
    (Cert.ROps.u V0 55 (Proc.devRef .tc Cert.ReferenceIdeal.main_v504) : (⟨2, ![50000, 7]⟩ : Shape).Idx → EReal)
      = Cert.KernelIdeal.Gen.W17 (F := Ideal) m g c (Proc.devRef .tc Cert.KernelIdeal.main_v110) := by
  have hsrc := Cert.KFacts.src_nonneg m hpre c
  have hb := Cert.AgreeIn.basis_eq m g V0 c h2
  have hw := Cert.AgreeWi.wi_eq m g V0 c h2
  have hd := Cert.AgreeIn.dst_eq m g V0 c h1
  have hx1 := Cert.AgreeXj.xj1_eq m g V0 c h0 h1 hsrc
  have hW1 := Cert.AgreeIn.w1_eq m g V0 c h3
  have hwiR : Cert.RFold.WiOk V0 := by
    intro i
    have := Cert.KFacts.wi_range m g c i
    rw [← hw] at this
    exact this

  have hmsg1 : (Cert.ROps.u V0 27 (Proc.devRef .tc Cert.ReferenceIdeal.main_v269) : (⟨2, ![800000, 16]⟩ : Shape).Idx → EReal)
      = Cert.KernelIdeal.Gen.W6 (F := Ideal) m g c (Proc.devRef .tc Cert.KernelIdeal.main_v72) := by
    funext i
    rw [eq_ix2 i]
    refine (Cert.RFold.acc1_25 V0 hwiR (i 0) (i 1)).trans ?_
    refine Eq.trans ?_ (Cert.KArr.W6_msg m g c (i 0) (i 1)).symm
    rw [hx1, hb, hw, hW1]
  have hh := Cert.AgreeOut.hidden_eq m g V0 c h0 h4 h5 hd hmsg1
  have hx2 := Cert.AgreeXj.xj2_eq m g V0 c h1 hsrc hh
  have hW2 := Cert.AgreeIn.w2_eq m g V0 c h6

  have hmsg2 : (Cert.ROps.u V0 54 (Proc.devRef .tc Cert.ReferenceIdeal.main_v487) : (⟨2, ![800000, 7]⟩ : Shape).Idx → EReal)
      = Cert.KernelIdeal.Gen.W13 (F := Ideal) m g c (Proc.devRef .tc Cert.KernelIdeal.main_v93) := by
    funext i
    rw [eq_ix2 i]
    refine (Cert.RFold.acc2_25 V0 hwiR (i 0) (i 1)).trans ?_
    refine Eq.trans ?_ (Cert.KArr.W13_msg m g c (i 0) (i 1)).symm
    rw [hx2, hb, hw, hW2, Cert.KArr.W12_v43 m g c, Cert.KArr.W12_v68 m g c]
  exact Cert.AgreeOut.result_eq m g V0 c h7 h8 hd hh hmsg2

theorem algebraic : Cert.algebraic_KernelIdeal_ReferenceIdeal := by
  intro m g m' g' hpre hagree
  refine ⟨fun c => Cert.KernelIdeal.Gen.W17 (F := Ideal) m g c (Proc.devRef .tc Cert.KernelIdeal.main_v110), Cert.KernelIdeal.Gen.run_value (F := Ideal) m g, ?_⟩
  refine (θ_run Cert.ReferenceIdeal.defs _ _).mono (fun _ h c => ⟨?_, ?_, ?_, ?_, ?_, ?_, ?_, ?_, ?_, ?_⟩) (Cert.ROps.run (F := Ideal) m' g')
  · refine (h c Cert.ReferenceIdeal.main_v504).trans ?_
    exact result_eq m g (launchContents m' c) c hpre (hagree c).1 (hagree c).2.1 (hagree c).2.2.1 (hagree c).2.2.2.1
      (hagree c).2.2.2.2.1 (hagree c).2.2.2.2.2.1 (hagree c).2.2.2.2.2.2.1 (hagree c).2.2.2.2.2.2.2.1 (hagree c).2.2.2.2.2.2.2.2
  all_goals exact (h c _).trans (Cert.ROps.u_arg _ _ 55 (by decide))

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ri, trivial, algebraic⟩

end Cert.Proof

end
